-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S49152x768 : Shape := ⟨2, ![49152, 768]⟩
abbrev S_ : Shape := ⟨0, ![]⟩

class Facts : Prop where
  bcast_S_S49152x768 : S_.BroadcastsInDim S49152x768 (![] : Fin 0 → Fin S49152x768.rank)
  reducesTo_S49152x768_S_d0_1 : S49152x768.ReducesTo [0, 1] S_
  h_S_ : 0 < S_.numel

variable [Facts]

def fn {F : FTy → Type} [FloatOps F] (main_arg0 : FVec F S49152x768 .f32) : IVec S_ 1 :=
  let main_v0 : FVec F S49152x768 .f32 := Host.absf main_arg0
  let main_cst : FVec F S_ .f32 := constant S_ .f32 0x7F800000#32
  let main_v1 : FVec F S49152x768 .f32 := broadcastInDim S49152x768 ![] bcast_S_S49152x768 main_cst
  let main_v2 : IVec S49152x768 1 := cmpf .olt main_v0 main_v1
  let main_c : IVec S_ 1 := constantI S_ 1 1#1
  let main_v3 : IVec S_ 1 := (fun x v => Host.reduce IntOp.andi x v reducesTo_S49152x768_S_d0_1 h_S_) main_v2 main_c
  main_v3
-- ==== Kernel.lean ====
abbrev S1536x768 : Shape := ⟨2, ![1536, 768]⟩
abbrev S1x768 : Shape := ⟨2, ![1, 768]⟩
abbrev S32x768 : Shape := ⟨2, ![32, 768]⟩
abbrev S_ : Shape := ⟨0, ![]⟩
abbrev S32 : Shape := ⟨1, ![32]⟩
abbrev S768 : Shape := ⟨1, ![768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1x768, .f32⟩
  | .local _ .vmem, ⟨1, _⟩ => ⟨S1536x768, .f32⟩
  | .local _ .vmem, ⟨2, _⟩ => ⟨S32x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v131 : Index := Scalar.indexCast v2
  let c0_125 : Index := 0#32
  ![v131.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  ![v2.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v135 : BitVec 32 := Scalar.addi v2 c1_i32_127
  let c32_i32_128 : BitVec 32 := 32#32
  let v136 : BitVec 32 := Scalar.remsi v135 c32_i32_128
  let c1_i32_131 : BitVec 32 := 1#32
  let v137 : BitVec 32 := Scalar.muli v136 c1_i32_131
  let v138 : BitVec 32 := Scalar.addi c0_i32_132 v137
  v138.toNat
def k0_dev33 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_135 : BitVec 32 := 2#32
  let v145 : BitVec 32 := Scalar.addi v2 c2_i32_135
  let c32_i32_136 : BitVec 32 := 32#32
  let v146 : BitVec 32 := Scalar.remsi v145 c32_i32_136
  let c1_i32_139 : BitVec 32 := 1#32
  let v147 : BitVec 32 := Scalar.muli v146 c1_i32_139
  let v148 : BitVec 32 := Scalar.addi c0_i32_140 v147
  v148.toNat
def k0_dev34 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_143 : BitVec 32 := 3#32
  let v155 : BitVec 32 := Scalar.addi v2 c3_i32_143
  let c32_i32_144 : BitVec 32 := 32#32
  let v156 : BitVec 32 := Scalar.remsi v155 c32_i32_144
  let c1_i32_147 : BitVec 32 := 1#32
  let v157 : BitVec 32 := Scalar.muli v156 c1_i32_147
  let v158 : BitVec 32 := Scalar.addi c0_i32_148 v157
  v158.toNat
def k0_dev35 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_151 : BitVec 32 := 4#32
  let v165 : BitVec 32 := Scalar.addi v2 c4_i32_151
  let c32_i32_152 : BitVec 32 := 32#32
  let v166 : BitVec 32 := Scalar.remsi v165 c32_i32_152
  let c1_i32_155 : BitVec 32 := 1#32
  let v167 : BitVec 32 := Scalar.muli v166 c1_i32_155
  let v168 : BitVec 32 := Scalar.addi c0_i32_156 v167
  v168.toNat
def k0_dev36 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_159 : BitVec 32 := 5#32
  let v175 : BitVec 32 := Scalar.addi v2 c5_i32_159
  let c32_i32_160 : BitVec 32 := 32#32
  let v176 : BitVec 32 := Scalar.remsi v175 c32_i32_160
  let c1_i32_163 : BitVec 32 := 1#32
  let v177 : BitVec 32 := Scalar.muli v176 c1_i32_163
  let v178 : BitVec 32 := Scalar.addi c0_i32_164 v177
  v178.toNat
def k0_dev37 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_167 : BitVec 32 := 6#32
  let v185 : BitVec 32 := Scalar.addi v2 c6_i32_167
  let c32_i32_168 : BitVec 32 := 32#32
  let v186 : BitVec 32 := Scalar.remsi v185 c32_i32_168
  let c1_i32_171 : BitVec 32 := 1#32
  let v187 : BitVec 32 := Scalar.muli v186 c1_i32_171
  let v188 : BitVec 32 := Scalar.addi c0_i32_172 v187
  v188.toNat
def k0_dev38 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_175 : BitVec 32 := 7#32
  let v195 : BitVec 32 := Scalar.addi v2 c7_i32_175
  let c32_i32_176 : BitVec 32 := 32#32
  let v196 : BitVec 32 := Scalar.remsi v195 c32_i32_176
  let c1_i32_179 : BitVec 32 := 1#32
  let v197 : BitVec 32 := Scalar.muli v196 c1_i32_179
  let v198 : BitVec 32 := Scalar.addi c0_i32_180 v197
  v198.toNat
def k0_dev39 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_183 : BitVec 32 := 8#32
  let v205 : BitVec 32 := Scalar.addi v2 c8_i32_183
  let c32_i32_184 : BitVec 32 := 32#32
  let v206 : BitVec 32 := Scalar.remsi v205 c32_i32_184
  let c1_i32_187 : BitVec 32 := 1#32
  let v207 : BitVec 32 := Scalar.muli v206 c1_i32_187
  let v208 : BitVec 32 := Scalar.addi c0_i32_188 v207
  v208.toNat
def k0_dev40 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_191 : BitVec 32 := 9#32
  let v215 : BitVec 32 := Scalar.addi v2 c9_i32_191
  let c32_i32_192 : BitVec 32 := 32#32
  let v216 : BitVec 32 := Scalar.remsi v215 c32_i32_192
  let c1_i32_195 : BitVec 32 := 1#32
  let v217 : BitVec 32 := Scalar.muli v216 c1_i32_195
  let v218 : BitVec 32 := Scalar.addi c0_i32_196 v217
  v218.toNat
def k0_dev41 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_199 : BitVec 32 := 10#32
  let v225 : BitVec 32 := Scalar.addi v2 c10_i32_199
  let c32_i32_200 : BitVec 32 := 32#32
  let v226 : BitVec 32 := Scalar.remsi v225 c32_i32_200
  let c1_i32_203 : BitVec 32 := 1#32
  let v227 : BitVec 32 := Scalar.muli v226 c1_i32_203
  let v228 : BitVec 32 := Scalar.addi c0_i32_204 v227
  v228.toNat
def k0_dev42 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_207 : BitVec 32 := 11#32
  let v235 : BitVec 32 := Scalar.addi v2 c11_i32_207
  let c32_i32_208 : BitVec 32 := 32#32
  let v236 : BitVec 32 := Scalar.remsi v235 c32_i32_208
  let c1_i32_211 : BitVec 32 := 1#32
  let v237 : BitVec 32 := Scalar.muli v236 c1_i32_211
  let v238 : BitVec 32 := Scalar.addi c0_i32_212 v237
  v238.toNat
def k0_dev43 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_215 : BitVec 32 := 12#32
  let v245 : BitVec 32 := Scalar.addi v2 c12_i32_215
  let c32_i32_216 : BitVec 32 := 32#32
  let v246 : BitVec 32 := Scalar.remsi v245 c32_i32_216
  let c1_i32_219 : BitVec 32 := 1#32
  let v247 : BitVec 32 := Scalar.muli v246 c1_i32_219
  let v248 : BitVec 32 := Scalar.addi c0_i32_220 v247
  v248.toNat
def k0_dev44 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_223 : BitVec 32 := 13#32
  let v255 : BitVec 32 := Scalar.addi v2 c13_i32_223
  let c32_i32_224 : BitVec 32 := 32#32
  let v256 : BitVec 32 := Scalar.remsi v255 c32_i32_224
  let c1_i32_227 : BitVec 32 := 1#32
  let v257 : BitVec 32 := Scalar.muli v256 c1_i32_227
  let v258 : BitVec 32 := Scalar.addi c0_i32_228 v257
  v258.toNat
def k0_dev45 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_231 : BitVec 32 := 14#32
  let v265 : BitVec 32 := Scalar.addi v2 c14_i32_231
  let c32_i32_232 : BitVec 32 := 32#32
  let v266 : BitVec 32 := Scalar.remsi v265 c32_i32_232
  let c1_i32_235 : BitVec 32 := 1#32
  let v267 : BitVec 32 := Scalar.muli v266 c1_i32_235
  let v268 : BitVec 32 := Scalar.addi c0_i32_236 v267
  v268.toNat
def k0_dev46 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_239 : BitVec 32 := 15#32
  let v275 : BitVec 32 := Scalar.addi v2 c15_i32_239
  let c32_i32_240 : BitVec 32 := 32#32
  let v276 : BitVec 32 := Scalar.remsi v275 c32_i32_240
  let c1_i32_243 : BitVec 32 := 1#32
  let v277 : BitVec 32 := Scalar.muli v276 c1_i32_243
  let v278 : BitVec 32 := Scalar.addi c0_i32_244 v277
  v278.toNat
def k0_dev47 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_247 : BitVec 32 := 16#32
  let v285 : BitVec 32 := Scalar.addi v2 c16_i32_247
  let c32_i32_248 : BitVec 32 := 32#32
  let v286 : BitVec 32 := Scalar.remsi v285 c32_i32_248
  let c1_i32_251 : BitVec 32 := 1#32
  let v287 : BitVec 32 := Scalar.muli v286 c1_i32_251
  let v288 : BitVec 32 := Scalar.addi c0_i32_252 v287
  v288.toNat
def k0_dev48 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_255 : BitVec 32 := 17#32
  let v295 : BitVec 32 := Scalar.addi v2 c17_i32_255
  let c32_i32_256 : BitVec 32 := 32#32
  let v296 : BitVec 32 := Scalar.remsi v295 c32_i32_256
  let c1_i32_259 : BitVec 32 := 1#32
  let v297 : BitVec 32 := Scalar.muli v296 c1_i32_259
  let v298 : BitVec 32 := Scalar.addi c0_i32_260 v297
  v298.toNat
def k0_dev49 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_263 : BitVec 32 := 18#32
  let v305 : BitVec 32 := Scalar.addi v2 c18_i32_263
  let c32_i32_264 : BitVec 32 := 32#32
  let v306 : BitVec 32 := Scalar.remsi v305 c32_i32_264
  let c1_i32_267 : BitVec 32 := 1#32
  let v307 : BitVec 32 := Scalar.muli v306 c1_i32_267
  let v308 : BitVec 32 := Scalar.addi c0_i32_268 v307
  v308.toNat
def k0_dev50 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_271 : BitVec 32 := 19#32
  let v315 : BitVec 32 := Scalar.addi v2 c19_i32_271
  let c32_i32_272 : BitVec 32 := 32#32
  let v316 : BitVec 32 := Scalar.remsi v315 c32_i32_272
  let c1_i32_275 : BitVec 32 := 1#32
  let v317 : BitVec 32 := Scalar.muli v316 c1_i32_275
  let v318 : BitVec 32 := Scalar.addi c0_i32_276 v317
  v318.toNat
def k0_dev51 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_279 : BitVec 32 := 20#32
  let v325 : BitVec 32 := Scalar.addi v2 c20_i32_279
  let c32_i32_280 : BitVec 32 := 32#32
  let v326 : BitVec 32 := Scalar.remsi v325 c32_i32_280
  let c1_i32_283 : BitVec 32 := 1#32
  let v327 : BitVec 32 := Scalar.muli v326 c1_i32_283
  let v328 : BitVec 32 := Scalar.addi c0_i32_284 v327
  v328.toNat
def k0_dev52 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_287 : BitVec 32 := 21#32
  let v335 : BitVec 32 := Scalar.addi v2 c21_i32_287
  let c32_i32_288 : BitVec 32 := 32#32
  let v336 : BitVec 32 := Scalar.remsi v335 c32_i32_288
  let c1_i32_291 : BitVec 32 := 1#32
  let v337 : BitVec 32 := Scalar.muli v336 c1_i32_291
  let v338 : BitVec 32 := Scalar.addi c0_i32_292 v337
  v338.toNat
def k0_dev53 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_295 : BitVec 32 := 22#32
  let v345 : BitVec 32 := Scalar.addi v2 c22_i32_295
  let c32_i32_296 : BitVec 32 := 32#32
  let v346 : BitVec 32 := Scalar.remsi v345 c32_i32_296
  let c1_i32_299 : BitVec 32 := 1#32
  let v347 : BitVec 32 := Scalar.muli v346 c1_i32_299
  let v348 : BitVec 32 := Scalar.addi c0_i32_300 v347
  v348.toNat
def k0_dev54 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_303 : BitVec 32 := 23#32
  let v355 : BitVec 32 := Scalar.addi v2 c23_i32_303
  let c32_i32_304 : BitVec 32 := 32#32
  let v356 : BitVec 32 := Scalar.remsi v355 c32_i32_304
  let c1_i32_307 : BitVec 32 := 1#32
  let v357 : BitVec 32 := Scalar.muli v356 c1_i32_307
  let v358 : BitVec 32 := Scalar.addi c0_i32_308 v357
  v358.toNat
def k0_dev55 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_311 : BitVec 32 := 24#32
  let v365 : BitVec 32 := Scalar.addi v2 c24_i32_311
  let c32_i32_312 : BitVec 32 := 32#32
  let v366 : BitVec 32 := Scalar.remsi v365 c32_i32_312
  let c1_i32_315 : BitVec 32 := 1#32
  let v367 : BitVec 32 := Scalar.muli v366 c1_i32_315
  let v368 : BitVec 32 := Scalar.addi c0_i32_316 v367
  v368.toNat
def k0_dev56 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_319 : BitVec 32 := 25#32
  let v375 : BitVec 32 := Scalar.addi v2 c25_i32_319
  let c32_i32_320 : BitVec 32 := 32#32
  let v376 : BitVec 32 := Scalar.remsi v375 c32_i32_320
  let c1_i32_323 : BitVec 32 := 1#32
  let v377 : BitVec 32 := Scalar.muli v376 c1_i32_323
  let v378 : BitVec 32 := Scalar.addi c0_i32_324 v377
  v378.toNat
def k0_dev57 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_327 : BitVec 32 := 26#32
  let v385 : BitVec 32 := Scalar.addi v2 c26_i32_327
  let c32_i32_328 : BitVec 32 := 32#32
  let v386 : BitVec 32 := Scalar.remsi v385 c32_i32_328
  let c1_i32_331 : BitVec 32 := 1#32
  let v387 : BitVec 32 := Scalar.muli v386 c1_i32_331
  let v388 : BitVec 32 := Scalar.addi c0_i32_332 v387
  v388.toNat
def k0_dev58 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_335 : BitVec 32 := 27#32
  let v395 : BitVec 32 := Scalar.addi v2 c27_i32_335
  let c32_i32_336 : BitVec 32 := 32#32
  let v396 : BitVec 32 := Scalar.remsi v395 c32_i32_336
  let c1_i32_339 : BitVec 32 := 1#32
  let v397 : BitVec 32 := Scalar.muli v396 c1_i32_339
  let v398 : BitVec 32 := Scalar.addi c0_i32_340 v397
  v398.toNat
def k0_dev59 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_343 : BitVec 32 := 28#32
  let v405 : BitVec 32 := Scalar.addi v2 c28_i32_343
  let c32_i32_344 : BitVec 32 := 32#32
  let v406 : BitVec 32 := Scalar.remsi v405 c32_i32_344
  let c1_i32_347 : BitVec 32 := 1#32
  let v407 : BitVec 32 := Scalar.muli v406 c1_i32_347
  let v408 : BitVec 32 := Scalar.addi c0_i32_348 v407
  v408.toNat
def k0_dev60 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_351 : BitVec 32 := 29#32
  let v415 : BitVec 32 := Scalar.addi v2 c29_i32_351
  let c32_i32_352 : BitVec 32 := 32#32
  let v416 : BitVec 32 := Scalar.remsi v415 c32_i32_352
  let c1_i32_355 : BitVec 32 := 1#32
  let v417 : BitVec 32 := Scalar.muli v416 c1_i32_355
  let v418 : BitVec 32 := Scalar.addi c0_i32_356 v417
  v418.toNat
def k0_dev61 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_359 : BitVec 32 := 30#32
  let v425 : BitVec 32 := Scalar.addi v2 c30_i32_359
  let c32_i32_360 : BitVec 32 := 32#32
  let v426 : BitVec 32 := Scalar.remsi v425 c32_i32_360
  let c1_i32_363 : BitVec 32 := 1#32
  let v427 : BitVec 32 := Scalar.muli v426 c1_i32_363
  let v428 : BitVec 32 := Scalar.addi c0_i32_364 v427
  v428.toNat
def k0_dev62 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_367 : BitVec 32 := 31#32
  let v435 : BitVec 32 := Scalar.addi v2 c31_i32_367
  let c32_i32_368 : BitVec 32 := 32#32
  let v436 : BitVec 32 := Scalar.remsi v435 c32_i32_368
  let c1_i32_371 : BitVec 32 := 1#32
  let v437 : BitVec 32 := Scalar.muli v436 c1_i32_371
  let v438 : BitVec 32 := Scalar.addi c0_i32_372 v437
  v438.toNat
def k0_off3 (d0 : Dev nD) (c1_i32_375 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v445 : BitVec 32 := Scalar.subi v2 c1_i32_375
  let c32_i32_376 : BitVec 32 := 32#32
  let v446 : BitVec 32 := Scalar.addi v445 c32_i32_376
  let c32_i32_377 : BitVec 32 := 32#32
  let v447 : BitVec 32 := Scalar.remsi v446 c32_i32_377
  let c0_i32_382 : BitVec 32 := 0#32
  ![v447.toNat, 0]
abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  reduces_S1536x768_S768 : S1536x768.Reduces [0] S768
  shapeCasts_S768_S1x768 : S768.ShapeCasts S1x768
  h_S1x768 : 0 < S1x768.numel
  shapeCasts_S1x768_S1x768 : S1x768.ShapeCasts S1x768
  hamt_31 : (31#32 : BitVec 32).msb = false
  inb_S32_S1_1 : ∀ a, (![1] : Fin 1 → Nat) a + S1.size a ≤ S32.size a
  squeezes_S1_S_ : S1.Squeezes S_
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S32x768_S32x768_0_0 : ∀ a, (![0, 0] : Fin 2 → Nat) a + S32x768.size a ≤ S32x768.size a
  h_S32x768 : 0 < S32x768.numel
  reduces_S32x768_S768 : S32x768.Reduces [0] S768
  inb_S1x768_S1x768_0_0 : ∀ a, (![0, 0] : Fin 2 → Nat) a + S1x768.size a ≤ S1x768.size a
  hcc0_scratch2 : 1 + S_.numel ≤ 66
  hcc0_scratch3 : 2 + S32.numel ≤ 66
  hcc0_scratch4 : 34 + S32.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x768.size a ≤ S32x768.size a
  k0_off2_inb : ∀ d0 : Dev nD, ∀ a, (k0_off2 d0) a + S1x768.size a ≤ S32x768.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off3_inb : ∀ d0 : Dev nD, ∀ (r : Fin 31), ∀ a, (k0_off3 d0 (BitVec.ofNat 32 (1 + r.val))) a + S1x768.size a ≤ S32x768.size a
  hstage0_0 : ∀ j, (stage0_0 j).IsWhole

variable [Facts₀]

abbrev cc0_scratch2 : DmaSems sig S_ := SemArray.consecutive 1 S_ hcc0_scratch2
abbrev cc0_scratch3 : DmaSems sig S32 := SemArray.consecutive 2 S32 hcc0_scratch3
abbrev cc0_scratch4 : DmaSems sig S32 := SemArray.consecutive 34 S32 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S49152x768 : Shape := ⟨2, ![49152, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S49152x768, .f32⟩
  | .hbm, ⟨1, _⟩ => ⟨S_, .f32⟩
  | .hbm, ⟨2, _⟩ => ⟨S768, .f32⟩
  | .hbm, ⟨3, _⟩ => ⟨S1x768, .f32⟩
  | _, _ => ⟨S49152x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S49152x768_S768_d0 : S49152x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Base.lean ====
import proofs.«901078_g7700000000001079_dist_sum_ax0_shard0_i_m1536_n768_v7x_i32_f32_1_alg».proof.Proof.Gen.KernelIdeal

/-! The ring of 32 devices (peer c d is d steps ahead of c, srcOf c d is d steps behind it, offOf c p is the offset from c to p), the semaphores of the copy with offset d, and the gather buffer with its rows. -/

noncomputable section

namespace Cert.KernelIdeal.DistSum

open Cert.KernelIdeal Cert.KernelIdeal.Gen
open Idealize.ShloMosaic Idealize.SL.Sem

def peer (c : Dev nD) (d : Fin 32) : Dev nD := ⟨(c.val + d.val) % 32, Nat.mod_lt _ (by decide)⟩

def srcOf (c : Dev nD) (d : Fin 32) : Dev nD := ⟨(c.val + 32 - d.val) % 32, Nat.mod_lt _ (by decide)⟩

def offOf (c p : Dev nD) : Fin 32 := ⟨(p.val + 32 - c.val) % 32, Nat.mod_lt _ (by decide)⟩

theorem srcOf_peer (c : Dev nD) (d : Fin 32) : srcOf (peer c d) d = c := by
  have hc : c.val < 32 := c.isLt
  have hd : d.val < 32 := d.isLt
  apply Fin.ext
  show ((c.val + d.val) % 32 + 32 - d.val) % 32 = c.val
  omega
theorem peer_srcOf (p : Dev nD) (d : Fin 32) : peer (srcOf p d) d = p := by
  have hp : p.val < 32 := p.isLt
  have hd : d.val < 32 := d.isLt
  apply Fin.ext
  show ((p.val + 32 - d.val) % 32 + d.val) % 32 = p.val
  omega
theorem offOf_peer (c : Dev nD) (d : Fin 32) : offOf c (peer c d) = d := by
  have hc : c.val < 32 := c.isLt
  have hd : d.val < 32 := d.isLt
  apply Fin.ext
  show ((c.val + d.val) % 32 + 32 - c.val) % 32 = d.val
  omega
theorem peer_offOf (c p : Dev nD) : peer c (offOf c p) = p := by
  have hc : c.val < 32 := c.isLt
  have hp : p.val < 32 := p.isLt
  apply Fin.ext
  show (c.val + (p.val + 32 - c.val) % 32) % 32 = p.val
  omega

def sendSem (d : Fin 32) : DmaSem sig := ⟨2 + d.val, by have := d.isLt; show 2 + d.val < 66; omega⟩

def recvSem (d : Fin 32) : DmaSem sig := ⟨34 + d.val, by have := d.isLt; show 34 + d.val < 66; omega⟩

def cpySem : DmaSem sig := ⟨1, by decide⟩

def rowOff (p : Dev nD) : Fin 2 → Nat := ![p.val, 0]
theorem rowOff_inb (p : Dev nD) : ∀ a, rowOff p a + S1x768.size a ≤ S32x768.size a := by
  revert p; decide

abbrev gbuf : Memref sig .tc .vmem S32x768 .f32 := Memref.whole cc0_scratch1

abbrev rowM (p : Dev nD) : Memref sig .tc .vmem S1x768 .f32 :=
  gbuf.slice (Rect.unit (s := S32x768) (rowOff p) S1x768.size (rowOff_inb p)) (fun _ => rfl)

end Cert.KernelIdeal.DistSum

end
-- ==== Proof.Cells.lean ====
import proofs.«901078_g7700000000001079_dist_sum_ax0_shard0_i_m1536_n768_v7x_i32_f32_1_alg».proof.Proof.Base
import proofs.«901078_g7700000000001079_dist_sum_ax0_shard0_i_m1536_n768_v7x_i32_f32_1_alg».proof.Proof.Gen.KernelIdeal.Skeleton
import proofs.«901078_g7700000000001079_dist_sum_ax0_shard0_i_m1536_n768_v7x_i32_f32_1_alg».proof.Proof.Gen.KernelIdeal.Launch
import Idealize.ShloMosaic.Lib.Pipeline.Launch
import Idealize.ShloMosaic.Lib.Pipeline.Kit
import Idealize.ShloMosaic.Lib.ValueIdx
import Idealize.ShloMosaic.Lib.Tactic

/-! The cells of the protocol (the barrier, the local copy, the sending and the receiving side of each offset) and the table of what each cell's rounds carry. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

abbrev barC (c : Dev nD) : GSem nD τ sig := ((c : Thread nD τ), .reg barS)
abbrev sendC (c : Dev nD) (d : Fin 32) : GSem nD τ sig := ((c : Thread nD τ), .dma (sendSem d))
abbrev recvC (c : Dev nD) (d : Fin 32) : GSem nD τ sig := ((c : Thread nD τ), .dma (recvSem d))
abbrev cpyC (c : Dev nD) : GSem nD τ sig := ((c : Thread nD τ), .dma cpySem)

abbrev xH : Memref sig .tc .hbm S1536x768 .f32 := Memref.whole main_arg0
abbrev xV : Memref sig .tc .vmem S1536x768 .f32 := Memref.whole cc0_scratch0

abbrev N : ℕ := (rowM 0).view.dmaCredit
abbrev NX : ℕ := (xV : Memref sig .tc .vmem S1536x768 .f32).view.dmaCredit

def xblk (c : Dev nD) : Vec F S1536x768 .f32 :=
  (xH : Memref sig .tc .hbm S1536x768 .f32).view.read (Elt F) (m ((c : Thread nD τ).loc main_arg0))

def partialOf (p : Dev nD) : FVec F S1x768 .f32 := k0_pay1 (xblk m p)

def rowsOfV (p : Dev nD) : Vec F S32x768 .f32 := fun i => partialOf m p (ValueIdx.ix2 (0 : Fin 1) (i 1))

def rowsOf (c p : Dev nD) : Buf (Elt F) ((c : Thread nD τ).loc cc0_scratch1) := rowsOfV m p

def gathered : Vec F S32x768 .f32 := fun i => partialOf m (i 0) (ValueIdx.ix2 (0 : Fin 1) (i 1))

def outVal : FVec F S1x768 .f32 := k0_pay2 (gathered m)

def rowPts (c p : Dev nD) (q : PosShare TreeShare) (f : Buf (Elt F) ((c : Thread nD τ).loc cc0_scratch1)) : sProp 𝕄 :=
  (c : Thread nD τ).loc cc0_scratch1 ↦[(rowM p).view.set]{q} f

def shareOf : ℕ → PosShare TreeShare
  | 0 => fullShare.left
  | n + 1 => (restShare n).left
where restShare : ℕ → PosShare TreeShare
  | 0 => fullShare.right
  | n + 1 => (restShare n).right

def barPay (c p : Dev nD) : sProp 𝕄 := iprop(∃ f, rowPts p c fullShare f)

def recvPay (c : Dev nD) (d : Fin 32) : sProp 𝕄 := rowPts c (srcOf c d) fullShare (rowsOf m c (srcOf c d))

def sendPay (c : Dev nD) (d : Fin 32) : sProp 𝕄 := rowPts c c (shareOf d.val) (rowsOf m c c)

def cpyPay (c : Dev nD) : sProp 𝕄 :=
  iprop(((xV : Memref sig .tc .vmem S1536x768 .f32).view.loc (c : Thread nD τ) ↦[(xV : Memref sig .tc .vmem S1536x768 .f32).view.set]{fullShare}
        (xV : Memref sig .tc .vmem S1536x768 .f32).view.write (Elt F) (m ((c : Thread nD τ).loc main_arg0)) (xblk m c) Finset.univ)
    ∗ ((xH : Memref sig .tc .hbm S1536x768 .f32).view.loc (c : Thread nD τ) ↦[(xH : Memref sig .tc .hbm S1536x768 .f32).view.set]{fullShare} m ((c : Thread nD τ).loc main_arg0)))

def isSendIx (q : DmaSem sig) : Prop := 3 ≤ q.val ∧ q.val ≤ 33
def isRecvIx (q : DmaSem sig) : Prop := 35 ≤ q.val
instance (q : DmaSem sig) : Decidable (isSendIx q) := by unfold isSendIx; infer_instance
instance (q : DmaSem sig) : Decidable (isRecvIx q) := by unfold isRecvIx; infer_instance
def sendOff (q : DmaSem sig) : Fin 32 := ⟨(q.val - 2) % 32, Nat.mod_lt _ (by decide)⟩
def recvOff (q : DmaSem sig) : Fin 32 := ⟨(q.val - 34) % 32, Nat.mod_lt _ (by decide)⟩

def dutiesOf (g : GSem nD τ sig) : Finset (Fin 32) :=
  if g.1.2 = .tc then
    match g.2 with
    | .reg s => if s = barS then Finset.univ.erase g.1.1 else ∅
    | .dma q => if q = cpySem ∨ isSendIx q ∨ isRecvIx q then {0} else ∅
  else ∅

def amountOfCell (g : GSem nD τ sig) : ℕ :=
  match g.2 with
  | .reg _ => 1
  | .dma q => if q = cpySem then NX else N

def payloadOf (g : GSem nD τ sig) (d : Fin 32) : sProp 𝕄 :=
  match g.2 with
  | .reg _ => barPay g.1.1 d
  | .dma q => if q = cpySem then cpyPay m g.1.1 else if isRecvIx q then recvPay m g.1.1 (recvOff q) else sendPay m g.1.1 (sendOff q)

theorem N_pos : 0 < N := View.dmaCredit_pos _ (by decide)
theorem NX_pos : 0 < NX := View.dmaCredit_pos _ (by decide)

def Rd : Rounds.Schedule (GSem nD τ sig) (Fin 32) 𝕄 where
  duties g r := if r = 0 then dutiesOf g else ∅
  unitless _ := False
  amount g _ _ := amountOfCell g
  payload g _ d := payloadOf m g d
  amount_pos g _ _ _ := by
    unfold amountOfCell
    split
    · exact Nat.one_pos
    · split
      · exact NX_pos
      · exact N_pos

instance Rd_payload_storable (g : GSem nD τ sig) (r : ℕ) (d : Fin 32) :
    BI.Storable (upEmb : UEmb _ 𝕄) ((Rd (F := F) m).payload g r d) := by
  show BI.Storable upEmb (payloadOf m g d)
  unfold payloadOf barPay cpyPay recvPay sendPay rowPts
  (repeat' split) <;> infer_instance

end Cert.KernelIdeal.DistSum

end
-- ==== Proof.State.lean ====
import proofs.«901078_g7700000000001079_dist_sum_ax0_shard0_i_m1536_n768_v7x_i32_f32_1_alg».proof.Proof.Cells

/-! The records of the cells, what a device still owes, and the families of assertions that hold after n steps of each phase. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def csem (k : Fin 66) : SemLoc sig := if k.val = 0 then .reg barS else .dma ⟨k.val, k.isLt⟩
abbrev kcell (ck : Dev nD × Fin 66) : GSem nD τ sig := ((ck.1 : Thread nD τ), csem ck.2)

def records (K : Dev nD × Fin 66 → ℕ) : sProp 𝕄 :=
  iprop((bigSep Finset.univ fun ck : Dev nD × Fin 66 => cellInv ER (Rd m) (K ck) (kcell ck))
    ∗ bigSep Finset.univ fun ck : Dev nD × Fin 66 => reached ER (kcell ck) 0)

instance records_persistent (K : Dev nD × Fin 66 → ℕ) : BI.Persistent (records m K) := by unfold records; infer_instance

def off (d : ℕ) : Fin 32 := ⟨d % 32, Nat.mod_lt _ (by decide)⟩

def owedS (c : Dev nD) (n : ℕ) : CellTallies nD τ sig Unit :=
  ∑ d ∈ Finset.Ioc n 31, tallyAt (barC (peer c (off d))) () 1

def owedT (c : Dev nD) (n : ℕ) : CellTallies nD τ sig Unit :=
  ∑ d ∈ Finset.Ioc n 31, tallyAt (recvC (peer c (off d)) (off d)) () N

def O₀ (c : Dev nD) : CellTallies nD τ sig Unit := owedT c 0 + owedS c 0

def owesE (c : Dev nD) (O : CellTallies nD τ sig Unit) : sProp 𝕄 := iprop(∃ W, owes (c : Thread nD τ) O W)

def SigSt (c : Dev nD) (n : ℕ) : sProp 𝕄 :=
  bigSep (Finset.Ioc n 31) fun d => iprop(dutyTok ER (barC (peer c (off d))) 0 (c : Fin 32) ∗ ∃ f, rowPts c (peer c (off d)) fullShare f)

def SendSt (c : Dev nD) (n : ℕ) : sProp 𝕄 :=
  bigSep (Finset.Ioc n 31) fun d => iprop(dutyTok ER (sendC c (off d)) 0 0 ∗ dutyTok ER (recvC (peer c (off d)) (off d)) 0 0
    ∗ rowPts c c (shareOf (off d).val) (rowsOf m c c) ∗ ∃ f, rowPts (peer c (off d)) c fullShare f)

def RecvSt (c : Dev nD) (n : ℕ) : sProp 𝕄 :=
  bigSep (Finset.Ioc n 31) fun d => iprop(cred (tallyAt (recvC c (off d)) () N) ∗ atPos ER (recvC c (off d)) 0 ∅ 0)

def RecvDone (c : Dev nD) (n : ℕ) : sProp 𝕄 :=
  bigSep (Finset.Ioc 0 n) fun d => iprop(atPos ER (recvC c (off d)) 1 ∅ 0 ∗ recvPay m c (off d))

def SWaitSt (c : Dev nD) (n : ℕ) : sProp 𝕄 :=
  bigSep (Finset.Ioc n 31) fun d => iprop(cred (tallyAt (sendC c (off d)) () N) ∗ atPos ER (sendC c (off d)) 0 ∅ 0)

def SWaitDone (c : Dev nD) (n : ℕ) : sProp 𝕄 :=
  bigSep (Finset.Ioc 0 n) fun d => iprop(atPos ER (sendC c (off d)) 1 ∅ 0 ∗ sendPay m c (off d))

def SentCr (c : Dev nD) (n : ℕ) : sProp 𝕄 :=
  bigSep (Finset.Ioc 0 n) fun d => cred (tallyAt (sendC c (off d)) () N)
def SendPos (c : Dev nD) : sProp 𝕄 :=
  bigSep (Finset.Ioc 0 31) fun d => atPos ER (sendC c (off d)) 0 ∅ 0

def L (g : GSem nD τ sig) : Finset Unit := if g.1.2 = .tc then {()} else ∅
def lv (g : GSem nD τ sig) (_ : Unit) : ℕ :=
  match g.2 with
  | .reg _ => 1
  | .dma q => if isRecvIx q then 2 else 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.DistSum

end
-- ==== Proof.RingFacts.lean ====
import proofs.«901078_g7700000000001079_dist_sum_ax0_shard0_i_m1536_n768_v7x_i32_f32_1_alg».proof.Proof.Base

/-! Every device, row and semaphore the program computes, in closed form over the ring. -/

noncomputable section

namespace Cert.KernelIdeal.DistSum

open Cert.KernelIdeal Cert.KernelIdeal.Gen
open Idealize.ShloMosaic Idealize.SL.Sem

@[simp] theorem peer_val (c : Dev nD) (d : Fin 32) : (peer c d).val = (c.val + d.val) % 32 := rfl
@[simp] theorem srcOf_val (c : Dev nD) (d : Fin 32) : (srcOf c d).val = (c.val + 32 - d.val) % 32 := rfl

theorem peer_ne (c : Dev nD) {d : Fin 32} (hd : d ≠ 0) : peer c d ≠ c := by
  have hc : c.val < 32 := c.isLt
  have hd' : d.val < 32 := d.isLt
  have h0 : d.val ≠ 0 := fun h => hd (Fin.ext h)
  intro h
  have := congrArg Fin.val h
  simp only [peer_val] at this; omega

/-- The number n, with any evidence that it is a device, names the device d steps ahead of c. -/
abbrev DevIs (c : Dev nD) (n : ℕ) (d : Fin 32) : Prop := ∀ h, (⟨n, h⟩ : Dev nD) = peer c d

theorem devIs {c : Dev nD} {n : ℕ} {d : Fin 32} (e : n = (c.val + d.val) % 32) : DevIs c n d := fun _ => Fin.ext e

/-- The N-th signalled device, computed by the program as (c + N) mod 32, is peer c N. -/
theorem devSig (c : Dev nD) :
    DevIs c (k0_dev1 c) 1 ∧ DevIs c (k0_dev2 c) 2 ∧ DevIs c (k0_dev3 c) 3 ∧
    DevIs c (k0_dev4 c) 4 ∧ DevIs c (k0_dev5 c) 5 ∧ DevIs c (k0_dev6 c) 6 ∧
    DevIs c (k0_dev7 c) 7 ∧ DevIs c (k0_dev8 c) 8 ∧ DevIs c (k0_dev9 c) 9 ∧
    DevIs c (k0_dev10 c) 10 ∧ DevIs c (k0_dev11 c) 11 ∧ DevIs c (k0_dev12 c) 12 ∧
    DevIs c (k0_dev13 c) 13 ∧ DevIs c (k0_dev14 c) 14 ∧ DevIs c (k0_dev15 c) 15 ∧
    DevIs c (k0_dev16 c) 16 ∧ DevIs c (k0_dev17 c) 17 ∧ DevIs c (k0_dev18 c) 18 ∧
    DevIs c (k0_dev19 c) 19 ∧ DevIs c (k0_dev20 c) 20 ∧ DevIs c (k0_dev21 c) 21 ∧
    DevIs c (k0_dev22 c) 22 ∧ DevIs c (k0_dev23 c) 23 ∧ DevIs c (k0_dev24 c) 24 ∧
    DevIs c (k0_dev25 c) 25 ∧ DevIs c (k0_dev26 c) 26 ∧ DevIs c (k0_dev27 c) 27 ∧
    DevIs c (k0_dev28 c) 28 ∧ DevIs c (k0_dev29 c) 29 ∧ DevIs c (k0_dev30 c) 30 ∧
    DevIs c (k0_dev31 c) 31 :=
  ⟨devIs (k0_dev1_eq c), devIs (k0_dev2_eq c), devIs (k0_dev3_eq c), devIs (k0_dev4_eq c), devIs (k0_dev5_eq c), devIs (k0_dev6_eq c),
   devIs (k0_dev7_eq c), devIs (k0_dev8_eq c), devIs (k0_dev9_eq c), devIs (k0_dev10_eq c), devIs (k0_dev11_eq c), devIs (k0_dev12_eq c),
   devIs (k0_dev13_eq c), devIs (k0_dev14_eq c), devIs (k0_dev15_eq c), devIs (k0_dev16_eq c), devIs (k0_dev17_eq c), devIs (k0_dev18_eq c),
   devIs (k0_dev19_eq c), devIs (k0_dev20_eq c), devIs (k0_dev21_eq c), devIs (k0_dev22_eq c), devIs (k0_dev23_eq c), devIs (k0_dev24_eq c),
   devIs (k0_dev25_eq c), devIs (k0_dev26_eq c), devIs (k0_dev27_eq c), devIs (k0_dev28_eq c), devIs (k0_dev29_eq c), devIs (k0_dev30_eq c),
   devIs (k0_dev31_eq c)⟩

/-- A remote destination on the device numbered n is the same destination on peer c d; the destination's memref
    is typed at the addressed thread, so the device is rewritten together with the destination that names it. -/
abbrev RemoteIs (c : Dev nD) (n : ℕ) (d : Fin 32) : Prop :=
  ∀ (p : Proc τ) (sp : Space) (s : Shape) (e : EltTy) (h : n < nD) (dst : Memref sig Kind.tc sp s e) (sem : SemLoc sig)
    (hd : dst.view.ref.isScScratch = false),
    (DmaTarget.remote (Dev.tc ⟨n, h⟩) dst sem hd : DmaTarget nD τ sig p sp s e) = DmaTarget.remote (Dev.tc (peer c d)) dst sem hd

theorem remoteIs {c : Dev nD} {n : ℕ} {d : Fin 32} (e : n = (c.val + d.val) % 32) : RemoteIs c n d := by
  intro p sp s el h dst sem hd
  have hdd : (⟨n, h⟩ : Dev nD) = peer c d := Fin.ext e
  rw [hdd]

/-- The N-th remote copy is addressed to peer c N. -/
theorem remoteSend (c : Dev nD) :
    RemoteIs c (k0_dev32 c) 1 ∧ RemoteIs c (k0_dev33 c) 2 ∧ RemoteIs c (k0_dev34 c) 3 ∧
    RemoteIs c (k0_dev35 c) 4 ∧ RemoteIs c (k0_dev36 c) 5 ∧ RemoteIs c (k0_dev37 c) 6 ∧
    RemoteIs c (k0_dev38 c) 7 ∧ RemoteIs c (k0_dev39 c) 8 ∧ RemoteIs c (k0_dev40 c) 9 ∧
    RemoteIs c (k0_dev41 c) 10 ∧ RemoteIs c (k0_dev42 c) 11 ∧ RemoteIs c (k0_dev43 c) 12 ∧
    RemoteIs c (k0_dev44 c) 13 ∧ RemoteIs c (k0_dev45 c) 14 ∧ RemoteIs c (k0_dev46 c) 15 ∧
    RemoteIs c (k0_dev47 c) 16 ∧ RemoteIs c (k0_dev48 c) 17 ∧ RemoteIs c (k0_dev49 c) 18 ∧
    RemoteIs c (k0_dev50 c) 19 ∧ RemoteIs c (k0_dev51 c) 20 ∧ RemoteIs c (k0_dev52 c) 21 ∧
    RemoteIs c (k0_dev53 c) 22 ∧ RemoteIs c (k0_dev54 c) 23 ∧ RemoteIs c (k0_dev55 c) 24 ∧
    RemoteIs c (k0_dev56 c) 25 ∧ RemoteIs c (k0_dev57 c) 26 ∧ RemoteIs c (k0_dev58 c) 27 ∧
    RemoteIs c (k0_dev59 c) 28 ∧ RemoteIs c (k0_dev60 c) 29 ∧ RemoteIs c (k0_dev61 c) 30 ∧
    RemoteIs c (k0_dev62 c) 31 :=
  ⟨remoteIs (k0_dev32_eq c), remoteIs (k0_dev33_eq c), remoteIs (k0_dev34_eq c), remoteIs (k0_dev35_eq c), remoteIs (k0_dev36_eq c), remoteIs (k0_dev37_eq c),
   remoteIs (k0_dev38_eq c), remoteIs (k0_dev39_eq c), remoteIs (k0_dev40_eq c), remoteIs (k0_dev41_eq c), remoteIs (k0_dev42_eq c), remoteIs (k0_dev43_eq c),
   remoteIs (k0_dev44_eq c), remoteIs (k0_dev45_eq c), remoteIs (k0_dev46_eq c), remoteIs (k0_dev47_eq c), remoteIs (k0_dev48_eq c), remoteIs (k0_dev49_eq c),
   remoteIs (k0_dev50_eq c), remoteIs (k0_dev51_eq c), remoteIs (k0_dev52_eq c), remoteIs (k0_dev53_eq c), remoteIs (k0_dev54_eq c), remoteIs (k0_dev55_eq c),
   remoteIs (k0_dev56_eq c), remoteIs (k0_dev57_eq c), remoteIs (k0_dev58_eq c), remoteIs (k0_dev59_eq c), remoteIs (k0_dev60_eq c), remoteIs (k0_dev61_eq c),
   remoteIs (k0_dev62_eq c)⟩

/-- (c + 31 - r) mod 32 is the device that addresses c with offset 1 + r. -/
theorem off3_eq (c : Dev nD) (r : Fin 31) :
    k0_off3 c (BitVec.ofNat 32 (1 + r.val)) = rowOff (srcOf c ⟨1 + r.val, by have := r.isLt; omega⟩) := by
  rw [Gen.k0_off3_eq c r]
  have hc : c.val < 32 := c.isLt
  have hr : r.val < 31 := r.isLt
  simp only [rowOff, srcOf]
  congr 2
  omega

/-- The one-row slice of the gather buffer at the offsets o is row p. -/
abbrev RowIs (o : Fin 2 → Nat) (p : Dev nD) : Prop :=
  ∀ h hs, gbuf.slice (Rect.unit (s := S32x768) o (![1, 768] : Fin 2 → Nat) h) hs = rowM p

theorem rowIs {o : Fin 2 → Nat} {p : Dev nD} (e : o = rowOff p) : RowIs o p :=
  fun _ _ => Memref.slice_unit_congr _ e _ _ _ (fun _ => rfl)

theorem row2_eq (c : Dev nD) : RowIs (k0_off2 c) c := rowIs (Gen.k0_off2_eq c)

/-- The copy with offset N lands in the row of the device that addresses c with offset N. -/
theorem row3_eq (c : Dev nD) :
    RowIs (k0_off3 c 1#32) (srcOf c 1) ∧ RowIs (k0_off3 c 2#32) (srcOf c 2) ∧
    RowIs (k0_off3 c 3#32) (srcOf c 3) ∧ RowIs (k0_off3 c 4#32) (srcOf c 4) ∧
    RowIs (k0_off3 c 5#32) (srcOf c 5) ∧ RowIs (k0_off3 c 6#32) (srcOf c 6) ∧
    RowIs (k0_off3 c 7#32) (srcOf c 7) ∧ RowIs (k0_off3 c 8#32) (srcOf c 8) ∧
    RowIs (k0_off3 c 9#32) (srcOf c 9) ∧ RowIs (k0_off3 c 10#32) (srcOf c 10) ∧
    RowIs (k0_off3 c 11#32) (srcOf c 11) ∧ RowIs (k0_off3 c 12#32) (srcOf c 12) ∧
    RowIs (k0_off3 c 13#32) (srcOf c 13) ∧ RowIs (k0_off3 c 14#32) (srcOf c 14) ∧
    RowIs (k0_off3 c 15#32) (srcOf c 15) ∧ RowIs (k0_off3 c 16#32) (srcOf c 16) ∧
    RowIs (k0_off3 c 17#32) (srcOf c 17) ∧ RowIs (k0_off3 c 18#32) (srcOf c 18) ∧
    RowIs (k0_off3 c 19#32) (srcOf c 19) ∧ RowIs (k0_off3 c 20#32) (srcOf c 20) ∧
    RowIs (k0_off3 c 21#32) (srcOf c 21) ∧ RowIs (k0_off3 c 22#32) (srcOf c 22) ∧
    RowIs (k0_off3 c 23#32) (srcOf c 23) ∧ RowIs (k0_off3 c 24#32) (srcOf c 24) ∧
    RowIs (k0_off3 c 25#32) (srcOf c 25) ∧ RowIs (k0_off3 c 26#32) (srcOf c 26) ∧
    RowIs (k0_off3 c 27#32) (srcOf c 27) ∧ RowIs (k0_off3 c 28#32) (srcOf c 28) ∧
    RowIs (k0_off3 c 29#32) (srcOf c 29) ∧ RowIs (k0_off3 c 30#32) (srcOf c 30) ∧
    RowIs (k0_off3 c 31#32) (srcOf c 31) :=
  ⟨rowIs (off3_eq c ⟨0, by decide⟩), rowIs (off3_eq c ⟨1, by decide⟩), rowIs (off3_eq c ⟨2, by decide⟩), rowIs (off3_eq c ⟨3, by decide⟩),
   rowIs (off3_eq c ⟨4, by decide⟩), rowIs (off3_eq c ⟨5, by decide⟩), rowIs (off3_eq c ⟨6, by decide⟩), rowIs (off3_eq c ⟨7, by decide⟩),
   rowIs (off3_eq c ⟨8, by decide⟩), rowIs (off3_eq c ⟨9, by decide⟩), rowIs (off3_eq c ⟨10, by decide⟩), rowIs (off3_eq c ⟨11, by decide⟩),
   rowIs (off3_eq c ⟨12, by decide⟩), rowIs (off3_eq c ⟨13, by decide⟩), rowIs (off3_eq c ⟨14, by decide⟩), rowIs (off3_eq c ⟨15, by decide⟩),
   rowIs (off3_eq c ⟨16, by decide⟩), rowIs (off3_eq c ⟨17, by decide⟩), rowIs (off3_eq c ⟨18, by decide⟩), rowIs (off3_eq c ⟨19, by decide⟩),
   rowIs (off3_eq c ⟨20, by decide⟩), rowIs (off3_eq c ⟨21, by decide⟩), rowIs (off3_eq c ⟨22, by decide⟩), rowIs (off3_eq c ⟨23, by decide⟩),
   rowIs (off3_eq c ⟨24, by decide⟩), rowIs (off3_eq c ⟨25, by decide⟩), rowIs (off3_eq c ⟨26, by decide⟩), rowIs (off3_eq c ⟨27, by decide⟩),
   rowIs (off3_eq c ⟨28, by decide⟩), rowIs (off3_eq c ⟨29, by decide⟩), rowIs (off3_eq c ⟨30, by decide⟩)⟩

theorem rowMajor_rank1 (d : Fin 1 → Nat) (x : (⟨1, d⟩ : Shape).Idx) :
    ((⟨1, d⟩ : Shape).rowMajor x).val = (x 0).val := by
  have h := Shape.rowMajorPi_succ_val (n := 0) d x
  have h2 := (Shape.rowMajorPi (fun a : Fin 0 => d a.succ) (fun a => x a.succ)).isLt
  simp only [Finset.univ_eq_empty, Finset.prod_empty] at h h2
  show ((Shape.rowMajorPi d) x).val = _
  omega

/-- A semaphore array laid on the pool from a base index, sliced at position k and squeezed to rank zero, names
    the pool's semaphore base + k. -/
theorem sem_unit_val (base : Nat) (h : base + S32.numel ≤ 66) (k : Nat)
    (h₁ : ∀ a, (![k] : Fin 1 → Nat) a + (![1] : Fin 1 → Nat) a ≤ S32.size a) (h₂ : S1.Squeezes S_) :
    ((((SemArray.consecutive base S32 h : DmaSems sig S32).slice (Rect.unit (s := S32) ![k] (![1] : Fin 1 → Nat) h₁)).squeeze S_ h₂).sem).val
      = base + k := by
  show base + (S32.rowMajor ((Rect.unit (s := S32) ![k] (![1] : Fin 1 → Nat) h₁).emb
    (Shape.reshapeEquiv h₂.numel_eq fun i => i.elim0))).val = base + k
  rw [rowMajor_rank1, Rect.emb_apply]
  have := ((Shape.reshapeEquiv h₂.numel_eq fun i => i.elim0) 0).isLt
  simp only [Rect.unit] at this ⊢
  simp at this ⊢
  omega

abbrev SemIs (A : DmaSems sig S32) (k : ℕ) (s : DmaSem sig) : Prop :=
  ∀ h₁ h₂, ((A.slice (Rect.unit (s := S32) ![k] (![1] : Fin 1 → Nat) h₁)).squeeze S_ h₂).sem = s

theorem semIs (base : ℕ) (h : base + S32.numel ≤ 66) (k : ℕ) (s : DmaSem sig) (e : s.val = base + k) :
    SemIs (SemArray.consecutive base S32 h) k s :=
  fun h₁ h₂ => Fin.ext ((sem_unit_val base h k h₁ h₂).trans e.symm)

section
variable [Facts₀]

theorem cpy_sem : (cc0_scratch2 : DmaSems sig S_).sem = cpySem := by
  apply Fin.ext
  show 1 + (S_.rowMajor _).val = 1
  have h := (S_.rowMajor (fun i => i.elim0)).isLt
  have h1 : S_.numel = 1 := by decide
  omega

/-- The sending-side semaphores are the pool's 2 + d, -/
theorem send_sem :
    SemIs cc0_scratch3 1 (sendSem 1) ∧ SemIs cc0_scratch3 2 (sendSem 2) ∧ SemIs cc0_scratch3 3 (sendSem 3) ∧
    SemIs cc0_scratch3 4 (sendSem 4) ∧ SemIs cc0_scratch3 5 (sendSem 5) ∧ SemIs cc0_scratch3 6 (sendSem 6) ∧
    SemIs cc0_scratch3 7 (sendSem 7) ∧ SemIs cc0_scratch3 8 (sendSem 8) ∧ SemIs cc0_scratch3 9 (sendSem 9) ∧
    SemIs cc0_scratch3 10 (sendSem 10) ∧ SemIs cc0_scratch3 11 (sendSem 11) ∧ SemIs cc0_scratch3 12 (sendSem 12) ∧
    SemIs cc0_scratch3 13 (sendSem 13) ∧ SemIs cc0_scratch3 14 (sendSem 14) ∧ SemIs cc0_scratch3 15 (sendSem 15) ∧
    SemIs cc0_scratch3 16 (sendSem 16) ∧ SemIs cc0_scratch3 17 (sendSem 17) ∧ SemIs cc0_scratch3 18 (sendSem 18) ∧
    SemIs cc0_scratch3 19 (sendSem 19) ∧ SemIs cc0_scratch3 20 (sendSem 20) ∧ SemIs cc0_scratch3 21 (sendSem 21) ∧
    SemIs cc0_scratch3 22 (sendSem 22) ∧ SemIs cc0_scratch3 23 (sendSem 23) ∧ SemIs cc0_scratch3 24 (sendSem 24) ∧
    SemIs cc0_scratch3 25 (sendSem 25) ∧ SemIs cc0_scratch3 26 (sendSem 26) ∧ SemIs cc0_scratch3 27 (sendSem 27) ∧
    SemIs cc0_scratch3 28 (sendSem 28) ∧ SemIs cc0_scratch3 29 (sendSem 29) ∧ SemIs cc0_scratch3 30 (sendSem 30) ∧
    SemIs cc0_scratch3 31 (sendSem 31) :=
  ⟨semIs 2 _ 1 _ rfl, semIs 2 _ 2 _ rfl, semIs 2 _ 3 _ rfl, semIs 2 _ 4 _ rfl, semIs 2 _ 5 _ rfl, semIs 2 _ 6 _ rfl, semIs 2 _ 7 _ rfl, semIs 2 _ 8 _ rfl,
   semIs 2 _ 9 _ rfl, semIs 2 _ 10 _ rfl, semIs 2 _ 11 _ rfl, semIs 2 _ 12 _ rfl, semIs 2 _ 13 _ rfl, semIs 2 _ 14 _ rfl, semIs 2 _ 15 _ rfl, semIs 2 _ 16 _ rfl,
   semIs 2 _ 17 _ rfl, semIs 2 _ 18 _ rfl, semIs 2 _ 19 _ rfl, semIs 2 _ 20 _ rfl, semIs 2 _ 21 _ rfl, semIs 2 _ 22 _ rfl, semIs 2 _ 23 _ rfl, semIs 2 _ 24 _ rfl,
   semIs 2 _ 25 _ rfl, semIs 2 _ 26 _ rfl, semIs 2 _ 27 _ rfl, semIs 2 _ 28 _ rfl, semIs 2 _ 29 _ rfl, semIs 2 _ 30 _ rfl, semIs 2 _ 31 _ rfl⟩

/-- and the receiving-side ones its 34 + d. -/
theorem recv_sem :
    SemIs cc0_scratch4 1 (recvSem 1) ∧ SemIs cc0_scratch4 2 (recvSem 2) ∧ SemIs cc0_scratch4 3 (recvSem 3) ∧
    SemIs cc0_scratch4 4 (recvSem 4) ∧ SemIs cc0_scratch4 5 (recvSem 5) ∧ SemIs cc0_scratch4 6 (recvSem 6) ∧
    SemIs cc0_scratch4 7 (recvSem 7) ∧ SemIs cc0_scratch4 8 (recvSem 8) ∧ SemIs cc0_scratch4 9 (recvSem 9) ∧
    SemIs cc0_scratch4 10 (recvSem 10) ∧ SemIs cc0_scratch4 11 (recvSem 11) ∧ SemIs cc0_scratch4 12 (recvSem 12) ∧
    SemIs cc0_scratch4 13 (recvSem 13) ∧ SemIs cc0_scratch4 14 (recvSem 14) ∧ SemIs cc0_scratch4 15 (recvSem 15) ∧
    SemIs cc0_scratch4 16 (recvSem 16) ∧ SemIs cc0_scratch4 17 (recvSem 17) ∧ SemIs cc0_scratch4 18 (recvSem 18) ∧
    SemIs cc0_scratch4 19 (recvSem 19) ∧ SemIs cc0_scratch4 20 (recvSem 20) ∧ SemIs cc0_scratch4 21 (recvSem 21) ∧
    SemIs cc0_scratch4 22 (recvSem 22) ∧ SemIs cc0_scratch4 23 (recvSem 23) ∧ SemIs cc0_scratch4 24 (recvSem 24) ∧
    SemIs cc0_scratch4 25 (recvSem 25) ∧ SemIs cc0_scratch4 26 (recvSem 26) ∧ SemIs cc0_scratch4 27 (recvSem 27) ∧
    SemIs cc0_scratch4 28 (recvSem 28) ∧ SemIs cc0_scratch4 29 (recvSem 29) ∧ SemIs cc0_scratch4 30 (recvSem 30) ∧
    SemIs cc0_scratch4 31 (recvSem 31) :=
  ⟨semIs 34 _ 1 _ rfl, semIs 34 _ 2 _ rfl, semIs 34 _ 3 _ rfl, semIs 34 _ 4 _ rfl, semIs 34 _ 5 _ rfl, semIs 34 _ 6 _ rfl, semIs 34 _ 7 _ rfl, semIs 34 _ 8 _ rfl,
   semIs 34 _ 9 _ rfl, semIs 34 _ 10 _ rfl, semIs 34 _ 11 _ rfl, semIs 34 _ 12 _ rfl, semIs 34 _ 13 _ rfl, semIs 34 _ 14 _ rfl, semIs 34 _ 15 _ rfl, semIs 34 _ 16 _ rfl,
   semIs 34 _ 17 _ rfl, semIs 34 _ 18 _ rfl, semIs 34 _ 19 _ rfl, semIs 34 _ 20 _ rfl, semIs 34 _ 21 _ rfl, semIs 34 _ 22 _ rfl, semIs 34 _ 23 _ rfl, semIs 34 _ 24 _ rfl,
   semIs 34 _ 25 _ rfl, semIs 34 _ 26 _ rfl, semIs 34 _ 27 _ rfl, semIs 34 _ 28 _ rfl, semIs 34 _ 29 _ rfl, semIs 34 _ 30 _ rfl, semIs 34 _ 31 _ rfl⟩

end

end Cert.KernelIdeal.DistSum

end
-- ==== Proof.Rows.lean ====
import proofs.«901078_g7700000000001079_dist_sum_ax0_shard0_i_m1536_n768_v7x_i32_f32_1_alg».proof.Proof.State
import Idealize.ShloMosaic.Rules.PointsTo

/-! The gather buffer as 32 rows: each row apart, a row shared among its 31 readers, and the contents of a row once it is written. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem row_mem (p : Dev nD) (i : S32x768.Idx) : i ∈ (rowM p).view.set ↔ (i 0).val = p.val := by
  rw [show (rowM p).view.set = (Rect.unit (s := S32x768) (rowOff p) S1x768.size (rowOff_inb p)).set from
    View.set_slice_whole _ _, Rect.mem_set_unit, Fin.forall_fin_two]
  have h1 : (i 1).val < 768 := (i 1).isLt
  show (p.val ≤ (i 0).val ∧ (i 0).val < p.val + 1) ∧ (0 ≤ (i 1).val ∧ (i 1).val < 0 + 768) ↔ _
  omega

theorem row_disjoint (p p' : Dev nD) (h : p ≠ p') : Disjoint (rowM p).view.set (rowM p').view.set :=
  Finset.disjoint_left.mpr fun i hi hi' =>
    h (Fin.ext (((row_mem p i).mp hi).symm.trans ((row_mem p' i).mp hi')))

theorem row_cover : (Finset.univ : Finset S32x768.Idx) = Finset.univ.biUnion fun p : Dev nD => (rowM p).view.set :=
  Finset.ext fun i => ⟨fun _ => Finset.mem_biUnion.mpr ⟨⟨(i 0).val, (i 0).isLt⟩, Finset.mem_univ _, (row_mem _ i).mpr rfl⟩,
    fun _ => Finset.mem_univ _⟩

theorem row_univ_eq (c : Dev nD) (q : PosShare TreeShare) (f : Buf (Elt F) ((c : Thread nD τ).loc cc0_scratch1)) :
    ((c : Thread nD τ).loc cc0_scratch1 ↦{q} f : sProp 𝕄) = bigSep Finset.univ fun p : Dev nD => rowPts c p q f := by
  unfold rowPts
  rw [← pointsTo_biUnion (ℓ := (c : Thread nD τ).loc cc0_scratch1) (q := q) (f := f) (Finset.univ : Finset (Dev nD))
    (fun p => (rowM p).view.set) (fun p _ p' _ hne => row_disjoint p p' hne)]
  exact congrArg (fun S => ((c : Thread nD τ).loc cc0_scratch1 ↦[S]{q} f : sProp 𝕄)) row_cover

theorem row_reindex (c : Dev nD) (φ : ℕ → Dev nD)
    (hsurj : ∀ p : Dev nD, p ≠ c → ∃ d, 0 < d ∧ d ≤ 31 ∧ φ d = p)
    (hne : ∀ d, 0 < d → d ≤ 31 → φ d ≠ c)
    (hinj : ∀ d d', 0 < d → d ≤ 31 → 0 < d' → d' ≤ 31 → φ d = φ d' → d = d')
    (Φ : Dev nD → sProp 𝕄) :
    bigSep Finset.univ Φ = iprop(Φ c ∗ bigSep (Finset.Ioc 0 31) fun d => Φ (φ d)) := by
  classical
  have himg : (Finset.univ.erase c : Finset (Dev nD)) = (Finset.Ioc 0 31).image φ := by
    ext p
    simp only [Finset.mem_erase, Finset.mem_univ, and_true, Finset.mem_image, Finset.mem_Ioc]
    constructor
    · intro hp
      obtain ⟨d, h0, h1, e⟩ := hsurj p hp
      exact ⟨d, ⟨h0, h1⟩, e⟩
    · rintro ⟨d, ⟨h0, h1⟩, rfl⟩
      exact hne d h0 h1
  rw [bigSep_univ_split c, himg, bigSep_image_of_injOn (fun d hd d' hd' e => by
    have h := Finset.mem_Ioc.mp (Finset.mem_coe.mp hd)
    have h' := Finset.mem_Ioc.mp (Finset.mem_coe.mp hd')
    exact hinj d d' h.1 h.2 h'.1 h'.2 e)]
  rfl

theorem row_peer_surj (c p : Dev nD) (h : p ≠ c) : ∃ d, 0 < d ∧ d ≤ 31 ∧ peer c (off d) = p := by
  have hc : c.val < 32 := c.isLt
  have hp : p.val < 32 := p.isLt
  have hne : p.val ≠ c.val := fun e => h (Fin.ext e)
  refine ⟨(p.val + 32 - c.val) % 32, by omega, by omega, Fin.ext ?_⟩
  show (c.val + ((p.val + 32 - c.val) % 32) % 32) % 32 = p.val
  omega

theorem row_peer_ne (c : Dev nD) (d : ℕ) (h0 : 0 < d) (h1 : d ≤ 31) : peer c (off d) ≠ c := by
  have hc : c.val < 32 := c.isLt
  intro e
  have e' : (c.val + d % 32) % 32 = c.val := congrArg Fin.val e
  omega

theorem row_peer_inj (c : Dev nD) (d d' : ℕ) (h0 : 0 < d) (h1 : d ≤ 31) (h0' : 0 < d') (h1' : d' ≤ 31)
    (e : peer c (off d) = peer c (off d')) : d = d' := by
  have hc : c.val < 32 := c.isLt
  have e' : (c.val + d % 32) % 32 = (c.val + d' % 32) % 32 := congrArg Fin.val e
  omega

theorem row_src_surj (c p : Dev nD) (h : p ≠ c) : ∃ d, 0 < d ∧ d ≤ 31 ∧ srcOf c (off d) = p := by
  have hc : c.val < 32 := c.isLt
  have hp : p.val < 32 := p.isLt
  have hne : p.val ≠ c.val := fun e => h (Fin.ext e)
  refine ⟨(c.val + 32 - p.val) % 32, by omega, by omega, Fin.ext ?_⟩
  show (c.val + 32 - ((c.val + 32 - p.val) % 32) % 32) % 32 = p.val
  omega

theorem row_src_ne (c : Dev nD) (d : ℕ) (h0 : 0 < d) (h1 : d ≤ 31) : srcOf c (off d) ≠ c := by
  have hc : c.val < 32 := c.isLt
  intro e
  have e' : (c.val + 32 - d % 32) % 32 = c.val := congrArg Fin.val e
  omega

theorem row_src_inj (c : Dev nD) (d d' : ℕ) (h0 : 0 < d) (h1 : d ≤ 31) (h0' : 0 < d') (h1' : d' ≤ 31)
    (e : srcOf c (off d) = srcOf c (off d')) : d = d' := by
  have hc : c.val < 32 := c.isLt
  have e' : (c.val + 32 - d % 32) % 32 = (c.val + 32 - d' % 32) % 32 := congrArg Fin.val e
  omega

theorem gbuf_split_eq (c : Dev nD) (q : PosShare TreeShare) (f : Buf (Elt F) ((c : Thread nD τ).loc cc0_scratch1)) :
    ((c : Thread nD τ).loc cc0_scratch1 ↦{q} f : sProp 𝕄)
      = iprop(rowPts c c q f ∗ bigSep (Finset.Ioc 0 31) fun d => rowPts c (peer c (off d)) q f) :=
  (row_univ_eq c q f).trans (row_reindex c (fun d => peer c (off d)) (row_peer_surj c) (row_peer_ne c) (row_peer_inj c)
    fun p => rowPts c p q f)

theorem gbuf_split_src_eq (c : Dev nD) (q : PosShare TreeShare) (f : Buf (Elt F) ((c : Thread nD τ).loc cc0_scratch1)) :
    ((c : Thread nD τ).loc cc0_scratch1 ↦{q} f : sProp 𝕄)
      = iprop(rowPts c c q f ∗ bigSep (Finset.Ioc 0 31) fun d => rowPts c (srcOf c (off d)) q f) :=
  (row_univ_eq c q f).trans (row_reindex c (fun d => srcOf c (off d)) (row_src_surj c) (row_src_ne c) (row_src_inj c)
    fun p => rowPts c p q f)

theorem gbuf_split (c : Dev nD) (f : Buf (Elt F) ((c : Thread nD τ).loc cc0_scratch1)) :
    ((c : Thread nD τ).loc cc0_scratch1 ↦{fullShare} f : sProp 𝕄)
      ⊢ iprop(rowPts c c fullShare f ∗ bigSep (Finset.Ioc 0 31) fun d => rowPts c (peer c (off d)) fullShare f) :=
  Entails.of_eq (gbuf_split_eq c fullShare f)

theorem row_congr (c p : Dev nD) (q : PosShare TreeShare) (f g : Buf (Elt F) ((c : Thread nD τ).loc cc0_scratch1))
    (h : ∀ i ∈ (rowM p).view.set, f i = g i) : (rowPts c p q f : sProp 𝕄) = rowPts c p q g :=
  pointsTo_congr h

theorem row_sep_rot (B S0 S' R' : sProp 𝕄) : iprop(B ∗ S0 ∗ S' ∗ R') = iprop((S' ∗ B) ∗ S0 ∗ R') :=
  have x : BIBase.BiEntails iprop(B ∗ S0 ∗ S' ∗ R') iprop((S' ∗ B) ∗ S0 ∗ R') :=
    (Laws.sep_congr_right Laws.sep_left_comm).trans (Laws.sep_left_comm.trans Laws.sep_assoc.symm)
  BI.equiv_iff.mp ⟨x.1, x.2⟩

theorem row_shares_upto (c : Dev nD) (f : Buf (Elt F) ((c : Thread nD τ).loc cc0_scratch1)) (k : ℕ) :
    (rowPts c c fullShare f : sProp 𝕄)
      = iprop((bigSep (Finset.Ioc 0 k) fun d => rowPts c c (shareOf d) f) ∗ rowPts c c (shareOf 0) f
          ∗ rowPts c c (shareOf.restShare k) f) := by
  induction k with
  | zero =>
    have h := pointsTo_share (nD := nD) (τ := τ) (sig := sig) (Ix := Unit) (Val := Elt F) (Name := ℕ) (U := UU) (Lvl := ℕ)
      (ℓ := (c : Thread nD τ).loc cc0_scratch1) (I := (rowM c).view.set) (f := f)
      (PosShare.mem_left_op_right fullShare)
    rw [Finset.Ioc_self, bigSep_empty]
    exact (BI.equiv_iff.mp ⟨h.1, h.2⟩).trans (BI.equiv_iff.mp BI.emp_sep).symm
  | succ k ih =>
    have h := pointsTo_share (nD := nD) (τ := τ) (sig := sig) (Ix := Unit) (Val := Elt F) (Name := ℕ) (U := UU) (Lvl := ℕ)
      (ℓ := (c : Thread nD τ).loc cc0_scratch1) (I := (rowM c).view.set) (f := f)
      (PosShare.mem_left_op_right (shareOf.restShare k))
    have hR : (rowPts c c (shareOf.restShare k) f : sProp 𝕄)
        = iprop(rowPts c c (shareOf (k + 1)) f ∗ rowPts c c (shareOf.restShare (k + 1)) f) :=
      BI.equiv_iff.mp ⟨h.1, h.2⟩
    have hI : Finset.Ioc 0 (k + 1) = insert (k + 1) (Finset.Ioc 0 k) := by
      ext d; simp only [Finset.mem_Ioc, Finset.mem_insert]; omega
    rw [hI, bigSep_insert (by simp), ih, hR]
    exact row_sep_rot _ _ _ _

theorem row_shares_eq (c : Dev nD) (f : Buf (Elt F) ((c : Thread nD τ).loc cc0_scratch1)) :
    (rowPts c c fullShare f : sProp 𝕄)
      = iprop((bigSep (Finset.Ioc 0 31) fun d => rowPts c c (shareOf (off d).val) f) ∗ rowPts c c (shareOf 0) f
          ∗ rowPts c c (shareOf.restShare 31) f) := by
  have hb : (bigSep (Finset.Ioc 0 31) fun d => rowPts c c (shareOf (off d).val) f : sProp 𝕄)
      = bigSep (Finset.Ioc 0 31) fun d => rowPts c c (shareOf d) f :=
    bigSep_congr fun d hd => by
      have h := Finset.mem_Ioc.mp hd
      have e : (off d).val = d := Nat.mod_eq_of_lt (by omega)
      rw [e]
  rw [hb]
  exact row_shares_upto c f 31

theorem row_shares (c : Dev nD) (f : Buf (Elt F) ((c : Thread nD τ).loc cc0_scratch1)) :
    (rowPts c c fullShare f : sProp 𝕄)
      ⊢ iprop((bigSep (Finset.Ioc 0 31) fun d => rowPts c c (shareOf (off d).val) f) ∗ rowPts c c (shareOf 0) f
          ∗ rowPts c c (shareOf.restShare 31) f) :=
  Entails.of_eq (row_shares_eq c f)

theorem row_unshares (c : Dev nD) (f : Buf (Elt F) ((c : Thread nD τ).loc cc0_scratch1)) :
    iprop((bigSep (Finset.Ioc 0 31) fun d => rowPts c c (shareOf (off d).val) f) ∗ rowPts c c (shareOf 0) f
          ∗ rowPts c c (shareOf.restShare 31) f)
      ⊢ (rowPts c c fullShare f : sProp 𝕄) :=
  Entails.of_eq (row_shares_eq c f).symm

theorem landed_row_agree (c p : Dev nD) (fd : Buf (Elt F) ((rowM c).view.loc (p : Thread nD τ))) :
    ∀ i ∈ (rowM c).view.set,
      (rowM c).view.write (Elt F) fd ((rowM c).view.read (Elt F) (rowsOf m c c)) Finset.univ i = rowsOf m p c i := by
  intro i hi
  rw [View.write_read_eq_piecewise]
  exact Finset.piecewise_eq_of_mem _ _ _ hi

theorem landed_row (c p : Dev nD) (fd : Buf (Elt F) ((rowM c).view.loc (p : Thread nD τ))) :
    ((rowM c).view.loc (p : Thread nD τ) ↦[(rowM c).view.set]{fullShare}
        (rowM c).view.write (Elt F) fd ((rowM c).view.read (Elt F) (rowsOf m c c)) Finset.univ : sProp 𝕄)
      ⊢ rowPts p c fullShare (rowsOf m p c) :=
  Entails.of_eq (pointsTo_congr (landed_row_agree m c p fd))

theorem stored_row_agree (c : Dev nD) (f0 : Buf (Elt F) ((c : Thread nD τ).loc cc0_scratch1)) :
    ∀ i ∈ (rowM c).view.set,
      (gbuf.access (Rect.unit (s := S32x768) (rowOff c) S1x768.size (rowOff_inb c))).write (Elt F) f0 (partialOf m c) Finset.univ i
        = rowsOf m c c i := by
  intro i hi
  obtain ⟨x, -, rfl⟩ := Finset.mem_map.mp hi
  refine (View.write_emb_of_mem _ _ (Finset.mem_univ x)).trans ((cast_eq _ _).trans ?_)
  show partialOf m c x = partialOf m c (ValueIdx.ix2 (0 : Fin 1) (((rowM c).view.emb x) 1))
  refine congrArg (partialOf m c) (funext fun a => ?_)
  match a with
  | ⟨0, h0⟩ => exact Fin.ext (Nat.lt_one_iff.mp (x ⟨0, h0⟩).isLt)
  | ⟨1, h1⟩ => exact Fin.ext (show (x ⟨1, h1⟩).val = 0 + 1 * (x ⟨1, h1⟩).val by omega)

theorem stored_row (c : Dev nD) (q : PosShare TreeShare) (f0 : Buf (Elt F) ((c : Thread nD τ).loc cc0_scratch1)) :
    (rowPts c c q ((gbuf.access (Rect.unit (s := S32x768) (rowOff c) S1x768.size (rowOff_inb c))).write (Elt F) f0
        (partialOf m c) Finset.univ) : sProp 𝕄) = rowPts c c q (rowsOf m c c) :=
  row_congr c c q _ _ (stored_row_agree m c f0)

theorem row_gathered (c p : Dev nD) (q : PosShare TreeShare) :
    (rowPts c p q (rowsOf m c p) : sProp 𝕄) = rowPts c p q (gathered m : Buf (Elt F) ((c : Thread nD τ).loc cc0_scratch1)) :=
  row_congr c p q _ _ fun i hi => by
    have e : (i 0 : Dev nD) = p := Fin.ext ((row_mem p i).mp hi)
    show partialOf m p _ = partialOf m (i 0) _
    rw [e]

theorem gather_join (c : Dev nD) :
    iprop(rowPts c c fullShare (rowsOf m c c) ∗ bigSep (Finset.Ioc 0 31) fun d => recvPay m c (off d))
      ⊢ ((c : Thread nD τ).loc cc0_scratch1 ↦{fullShare} (gathered m : Buf (Elt F) ((c : Thread nD τ).loc cc0_scratch1)) : sProp 𝕄) := by
  rw [gbuf_split_src_eq c fullShare, ← row_gathered m c c fullShare,
    bigSep_congr (fun d _ => (row_gathered m c (srcOf c (off d)) fullShare).symm)]
  exact .rfl

end Cert.KernelIdeal.DistSum

end
-- ==== Proof.Steps.lean ====
import proofs.«901078_g7700000000001079_dist_sum_ax0_shard0_i_m1536_n768_v7x_i32_f32_1_alg».proof.Proof.State
import proofs.«901078_g7700000000001079_dist_sum_ax0_shard0_i_m1536_n768_v7x_i32_f32_1_alg».proof.Proof.RingFacts
import proofs.«901078_g7700000000001079_dist_sum_ax0_shard0_i_m1536_n768_v7x_i32_f32_1_alg».proof.Proof.Rows

/-! One signal and one remote copy as steps of their phases, with the facts about the table that they and the waits share. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem stp_ent {P R : sProp 𝕄} (h : Idealize.SL.BI.Entails P R) : P ⊢ R := h

theorem stp_bigSep_insert {I : Type} [DecidableEq I] {s : Finset I} {i : I} (hi : i ∉ s) (Φ : I → sProp 𝕄) :
    bigSep (insert i s) Φ = iprop(Φ i ∗ bigSep s Φ) := BI.bigSep_insert hi

theorem stp_off_val (n : ℕ) (hn : n < 31) : (off (n + 1)).val = n + 1 := by
  show (n + 1) % 32 = n + 1
  exact Nat.mod_eq_of_lt (by omega)

private theorem stp_off_ne (n : ℕ) (hn : n < 31) : off (n + 1) ≠ 0 := by
  intro h
  have h' : (off (n + 1)).val = ((0 : Fin 32) : ℕ) := congrArg Fin.val h
  rw [stp_off_val n hn] at h'
  have h0 : ((0 : Fin 32) : ℕ) = 0 := rfl
  omega

theorem stp_Ioc_left (n : ℕ) (hn : n < 31) : Finset.Ioc n 31 = insert (n + 1) (Finset.Ioc (n + 1) 31) := by
  ext x; simp only [Finset.mem_Ioc, Finset.mem_insert]; omega

theorem stp_Ioc_right (n : ℕ) : Finset.Ioc 0 (n + 1) = insert (n + 1) (Finset.Ioc 0 n) := by
  ext x; simp only [Finset.mem_Ioc, Finset.mem_insert]; omega

theorem stp_notMem_left (n : ℕ) : n + 1 ∉ Finset.Ioc (n + 1) 31 := by
  simp only [Finset.mem_Ioc]; omega

theorem stp_notMem_right (n : ℕ) : n + 1 ∉ Finset.Ioc 0 n := by
  simp only [Finset.mem_Ioc]; omega

private theorem stp_owedS_succ (c : Dev nD) (n : ℕ) (hn : n < 31) :
    owedS c n = owedS c (n + 1) + tallyAt (barC (peer c (off (n + 1)))) () 1 := by
  unfold owedS
  rw [stp_Ioc_left n hn, Finset.sum_insert (stp_notMem_left n), add_comm]

private theorem stp_owedT_succ (c : Dev nD) (n : ℕ) (hn : n < 31) :
    owedT c n = owedT c (n + 1) + tallyAt (recvC (peer c (off (n + 1))) (off (n + 1))) () N := by
  unfold owedT
  rw [stp_Ioc_left n hn, Finset.sum_insert (stp_notMem_left n), add_comm]

private theorem stp_duties_bar (p : Dev nD) : (Rd (F := F) m).duties (barC p) 0 = Finset.univ.erase (p : Fin 32) := by
  show (if (0 : ℕ) = 0 then dutiesOf (barC p) else ∅) = _
  rw [if_pos rfl]
  unfold dutiesOf
  rw [if_pos rfl]
  show (if barS = barS then Finset.univ.erase (p : Fin 32) else ∅) = _
  rw [if_pos rfl]

private theorem stp_payload_bar (p : Dev nD) (d : Fin 32) : (Rd (F := F) m).payload (barC p) 0 d = barPay p d := rfl

private theorem stp_kcell_bar (p : Dev nD) : kcell (p, (0 : Fin 66)) = barC p := by
  show ((p : Thread nD τ), csem 0) = _
  unfold csem
  rw [if_pos (by rfl : ((0 : Fin 66) : ℕ) = 0)]

private theorem stp_inv_bar (K : Dev nD × Fin 66 → ℕ) (p : Dev nD) :
    records m K ⊢ cellInv ER (Rd m) (K (p, 0)) (barC p) := by
  rw [← stp_kcell_bar p]
  unfold records
  iintro ⟨H, -⟩
  iapply (stp_ent (bigSep_elim (Φ := fun ck : Dev nD × Fin 66 => cellInv ER (Rd m) (K ck) (kcell ck))
    (Finset.mem_univ (p, (0 : Fin 66))))) $$ H

private theorem stp_reached_bar (K : Dev nD × Fin 66 → ℕ) (p : Dev nD) :
    records m K ⊢ reached ER (barC p) 0 := by
  rw [← stp_kcell_bar p]
  unfold records
  iintro ⟨-, H⟩
  iapply (stp_ent (bigSep_elim (Φ := fun ck : Dev nD × Fin 66 => reached ER (kcell ck) 0)
    (Finset.mem_univ (p, (0 : Fin 66))))) $$ H

abbrev A1 : Memref sig .tc .vmem S1x768 .f32 := Memref.whole cc0_stg0_0

theorem sig_at (K : Dev nD × Fin 66 → ℕ) (c : Dev nD) (n : ℕ) (hn : n < 31) (d : Fin 32) (hd : d = off (n+1)) {α : Type} {Q : α → sProp 𝕄} {k : PUnit → Prog (TpuEff nD τ sig (Elt F) Λ₀ .tc) α} :
   iprop(records m K ∗ owesE c (owedT c 0 + owedS c n) ∗ SigSt c n)
     ⊢ iprop(((owesE c (owedT c 0 + owedS c (n+1)) ∗ SigSt c (n+1)) -∗ wp frame (wpE (defs₀ (F := F)) 𝒱₀ (c : Thread nD τ) none) Set.univ (k ⟨⟩) Q) -∗ wp frame (wpE (defs₀ (F := F)) 𝒱₀ (c : Thread nD τ) none) Set.univ (.op (.semSignal ((peer c d : Dev nD) : Thread nD τ) barS (1#32).toNat) k) Q) := by
  subst hd
  have h1 : (1#32 : BitVec 32).toNat = 1 := rfl
  rw [h1]
  have hO : owedT c 0 + owedS c n
      = (owedT c 0 + owedS c (n + 1)) + tallyAt (barC (peer c (off (n + 1)))) () 1 := by
    rw [stp_owedS_succ c n hn]; exact (add_assoc _ _ _).symm
  have hmem : (c : Fin 32) ∈ (Rd (F := F) m).duties (barC (peer c (off (n + 1)))) 0 := by
    rw [stp_duties_bar]
    exact Finset.mem_erase.mpr ⟨fun h => peer_ne c (stp_off_ne n hn) h.symm, Finset.mem_univ _⟩
  unfold owesE SigSt
  rw [stp_Ioc_left n hn, stp_bigSep_insert (stp_notMem_left n)]
  iintro ⟨#Hrec, ⟨%W, HL⟩, ⟨Htok, Hrow⟩, Hrest⟩ Hk
  ihave #Hκ := (stp_inv_bar m K (peer c (off (n + 1)))) $$ Hrec
  ihave #Hr := (stp_reached_bar m K (peer c (off (n + 1)))) $$ Hrec
  iapply (wp_signal 𝒱₀ ER (Rd m) (c : Thread nD τ) none (dst := ((peer c (off (n + 1)) : Dev nD) : Thread nD τ)) (sem := barS)
      (r := 0) (d := (c : Fin 32)) (κ := K (peer c (off (n + 1)), 0)) hmem rfl () (owedT c 0 + owedS c (n + 1)) hO)
    $$ [HL Htok Hrow]
  · isplitr; · iexact Hκ
    isplitl [HL]; · iexact HL
    isplitl [Htok]; · iexact Htok
    isplitl [Hrow]; · rw [stp_payload_bar]; unfold barPay; iexact Hrow
    iexact Hr
  iintro HL
  iapply Hk
  isplitl [HL]; · iexists _; iexact HL
  iexact Hrest

theorem stp_send_isSend (d : Fin 32) (hd : d.val ≠ 0) : isSendIx (sendSem d) := by
  have := d.isLt
  show 3 ≤ 2 + d.val ∧ 2 + d.val ≤ 33
  omega

theorem stp_send_not_isRecv (d : Fin 32) : ¬ isRecvIx (sendSem d) := by
  have := d.isLt
  show ¬ 35 ≤ 2 + d.val
  omega

theorem stp_send_ne_cpy (d : Fin 32) : sendSem d ≠ cpySem := by
  intro h
  have h' : 2 + d.val = 1 := congrArg Fin.val h
  omega

theorem stp_recv_isRecv (d : Fin 32) (hd : d.val ≠ 0) : isRecvIx (recvSem d) := by
  show 35 ≤ 34 + d.val
  omega

theorem stp_recv_ne_cpy (d : Fin 32) : recvSem d ≠ cpySem := by
  intro h
  have h' : 34 + d.val = 1 := congrArg Fin.val h
  omega

theorem stp_recvOff (d : Fin 32) : recvOff (recvSem d) = d := by
  apply Fin.ext
  show (34 + d.val - 34) % 32 = d.val
  rw [Nat.add_sub_cancel_left]
  exact Nat.mod_eq_of_lt d.isLt

theorem stp_sendOff (d : Fin 32) : sendOff (sendSem d) = d := by
  apply Fin.ext
  show (2 + d.val - 2) % 32 = d.val
  rw [Nat.add_sub_cancel_left]
  exact Nat.mod_eq_of_lt d.isLt

theorem stp_duties_recv (c : Dev nD) (d : Fin 32) (hd : d.val ≠ 0) : (Rd (F := F) m).duties (recvC c d) 0 = {0} := by
  show (if (0 : ℕ) = 0 then dutiesOf (recvC c d) else ∅) = {0}
  rw [if_pos rfl]
  unfold dutiesOf
  rw [if_pos rfl]
  show (if recvSem d = cpySem ∨ isSendIx (recvSem d) ∨ isRecvIx (recvSem d) then ({0} : Finset (Fin 32)) else ∅) = {0}
  rw [if_pos (Or.inr (Or.inr (stp_recv_isRecv d hd)))]

theorem stp_duties_send (c : Dev nD) (d : Fin 32) (hd : d.val ≠ 0) : (Rd (F := F) m).duties (sendC c d) 0 = {0} := by
  show (if (0 : ℕ) = 0 then dutiesOf (sendC c d) else ∅) = {0}
  rw [if_pos rfl]
  unfold dutiesOf
  rw [if_pos rfl]
  show (if sendSem d = cpySem ∨ isSendIx (sendSem d) ∨ isRecvIx (sendSem d) then ({0} : Finset (Fin 32)) else ∅) = {0}
  rw [if_pos (Or.inr (Or.inl (stp_send_isSend d hd)))]

private theorem stp_amount_recv (c : Dev nD) (d : Fin 32) : (Rd (F := F) m).amount (recvC c d) 0 0 = N := by
  show (if recvSem d = cpySem then NX else N) = N
  rw [if_neg (stp_recv_ne_cpy d)]

private theorem stp_amount_send (c : Dev nD) (d : Fin 32) : (Rd (F := F) m).amount (sendC c d) 0 0 = N := by
  show (if sendSem d = cpySem then NX else N) = N
  rw [if_neg (stp_send_ne_cpy d)]

theorem stp_payload_recv (c : Dev nD) (d : Fin 32) (hd : d.val ≠ 0) : (Rd (F := F) m).payload (recvC c d) 0 0 = recvPay m c d := by
  show (if recvSem d = cpySem then cpyPay m c else if isRecvIx (recvSem d) then recvPay m c (recvOff (recvSem d)) else sendPay m c (sendOff (recvSem d))) = _
  rw [if_neg (stp_recv_ne_cpy d), if_pos (stp_recv_isRecv d hd), stp_recvOff]

theorem stp_payload_send (c : Dev nD) (d : Fin 32) : (Rd (F := F) m).payload (sendC c d) 0 0 = sendPay m c d := by
  show (if sendSem d = cpySem then cpyPay m c else if isRecvIx (sendSem d) then recvPay m c (recvOff (sendSem d)) else sendPay m c (sendOff (sendSem d))) = _
  rw [if_neg (stp_send_ne_cpy d), if_neg (stp_send_not_isRecv d), stp_sendOff]

theorem stp_kcell_dma (c : Dev nD) (q : DmaSem sig) (hq : q.val ≠ 0) :
    kcell (c, (⟨q.val, q.isLt⟩ : Fin 66)) = ((c : Thread nD τ), SemLoc.dma q) := by
  show ((c : Thread nD τ), csem ⟨q.val, q.isLt⟩) = _
  unfold csem
  rw [if_neg hq]

theorem stp_inv_dma (K : Dev nD × Fin 66 → ℕ) (c : Dev nD) (q : DmaSem sig) (hq : q.val ≠ 0) :
    records m K ⊢ cellInv ER (Rd m) (K (c, ⟨q.val, q.isLt⟩)) ((c : Thread nD τ), SemLoc.dma q) := by
  rw [← stp_kcell_dma c q hq]
  unfold records
  iintro ⟨H, -⟩
  iapply (stp_ent (bigSep_elim (Φ := fun ck : Dev nD × Fin 66 => cellInv ER (Rd m) (K ck) (kcell ck))
    (Finset.mem_univ (c, (⟨q.val, q.isLt⟩ : Fin 66))))) $$ H

private theorem stp_reached_dma (K : Dev nD × Fin 66 → ℕ) (c : Dev nD) (q : DmaSem sig) (hq : q.val ≠ 0) :
    records m K ⊢ reached ER ((c : Thread nD τ), SemLoc.dma q) 0 := by
  rw [← stp_kcell_dma c q hq]
  unfold records
  iintro ⟨-, H⟩
  iapply (stp_ent (bigSep_elim (Φ := fun ck : Dev nD × Fin 66 => reached ER (kcell ck) 0)
    (Finset.mem_univ (c, (⟨q.val, q.isLt⟩ : Fin 66))))) $$ H

theorem stp_row_credit (q : Dev nD) : (rowM q).view.dmaCredit = N := by
  unfold N
  simp only [Memref.view_slice, View.buf_slice]

theorem send_at (K : Dev nD × Fin 66 → ℕ) (c : Dev nD) (n : ℕ) (hn : n < 31) (d : Fin 32) (hd : d = off (n+1)) {α : Type} {Q : α → sProp 𝕄} {k : PUnit → Prog (TpuEff nD τ sig (Elt F) Λ₀ .tc) α}
    {hsc : (rowM c : Memref sig (Dev.tc (peer c d) : Thread nD τ).2.kind .vmem S1x768 .f32).view.ref.isScScratch = false}
    {hsrc : (rowM c : Memref sig .tc .vmem S1x768 .f32).view.WordExact} {hdst : (rowM c : Memref sig .tc .vmem S1x768 .f32).view.WordExact}
    {hsem : DmaTarget.Typed .vmem (.dma (recvSem d)) (.remote (Dev.tc (peer c d) : Thread nD τ) (rowM c : Memref sig .tc .vmem S1x768 .f32) (.dma (sendSem d)) hsc)} :
   iprop(records m K ∗ owesE c (owedT c n) ∗ SendSt m c n ∗ SentCr c n)
     ⊢ iprop(((owesE c (owedT c (n+1)) ∗ SendSt m c (n+1) ∗ SentCr c (n+1)) -∗ wp frame (wpE (defs₀ (F := F)) 𝒱₀ (c : Thread nD τ) none) Set.univ (k ⟨⟩) Q)
         -∗ wp frame (wpE (defs₀ (F := F)) 𝒱₀ (c : Thread nD τ) none) Set.univ (.op (.enqueueDma (rowM c) (.remote (Dev.tc (peer c d) : Thread nD τ) (rowM c) (.dma (sendSem d)) hsc) (.dma (recvSem d)) hsrc hdst hsem) k) Q) := by
  subst hd
  have hdv : (off (n + 1)).val ≠ 0 := by rw [stp_off_val n hn]; omega
  have hsv : (sendSem (off (n + 1))).val ≠ 0 := by show 2 + (off (n + 1)).val ≠ 0; omega
  have hrv : (recvSem (off (n + 1))).val ≠ 0 := by show 34 + (off (n + 1)).val ≠ 0; omega
  have hO : owedT c n = owedT c (n + 1) + tallyAt (recvC (peer c (off (n + 1))) (off (n + 1))) () N :=
    stp_owedT_succ c n hn
  have hd₁ : (0 : Fin 32) ∈ (Rd (F := F) m).duties (sendC c (off (n + 1))) 0 := by
    rw [stp_duties_send m c _ hdv]; exact Finset.mem_singleton_self _
  have hd₂ : (0 : Fin 32) ∈ (Rd (F := F) m).duties (recvC (peer c (off (n + 1))) (off (n + 1))) 0 := by
    rw [stp_duties_recv m _ _ hdv]; exact Finset.mem_singleton_self _
  have hpay₁ : (((rowM c).view.loc (c : Thread nD τ)) ↦[(rowM c).view.set]{shareOf (off (n + 1)).val} (rowsOf m c c) : sProp 𝕄)
      ⊢ (Rd (F := F) m).payload (sendC c (off (n + 1))) 0 0 := by
    rw [stp_payload_send]; exact .rfl
  have hpay₂ : ∀ fd : Buf (Elt F) ((rowM c).view.loc ((peer c (off (n + 1)) : Dev nD) : Thread nD τ)),
      (((rowM c).view.loc ((peer c (off (n + 1)) : Dev nD) : Thread nD τ)) ↦[(rowM c).view.set]{fullShare}
          ((rowM c).view.write (Elt F) fd ((rowM c).view.read (Elt F) (rowsOf m c c)) Finset.univ) : sProp 𝕄)
        ⊢ (Rd (F := F) m).payload (recvC (peer c (off (n + 1))) (off (n + 1))) 0 0 := by
    intro fd
    rw [stp_payload_recv m _ _ hdv]
    unfold recvPay
    rw [srcOf_peer]
    exact landed_row m c (peer c (off (n + 1))) fd
  unfold owesE SendSt SentCr rowPts
  rw [stp_Ioc_left n hn, stp_bigSep_insert (stp_notMem_left n), stp_Ioc_right n, stp_bigSep_insert (stp_notMem_right n)]
  iintro ⟨#Hrec, ⟨%W, HL⟩, ⟨⟨Hts, Htr, Hsrc, ⟨%fd, Hdst⟩⟩, Hrest⟩, Hcr⟩ Hk
  ihave #Hκs := (stp_inv_dma m K c (sendSem (off (n + 1))) hsv) $$ Hrec
  ihave #Hκr := (stp_inv_dma m K (peer c (off (n + 1))) (recvSem (off (n + 1))) hrv) $$ Hrec
  ihave #Hrs := (stp_reached_dma m K c (sendSem (off (n + 1))) hsv) $$ Hrec
  ihave #Hrr := (stp_reached_dma m K (peer c (off (n + 1))) (recvSem (off (n + 1))) hrv) $$ Hrec
  iapply (wp_send_pointsTo 𝒱₀ ER (Rd m) (c : Thread nD τ) none
      (c' := ((peer c (off (n + 1)) : Dev nD) : Thread nD τ)) (src := rowM c) (dst := rowM c)
      (sS := .dma (sendSem (off (n + 1)))) (sem := .dma (recvSem (off (n + 1))))
      (q := shareOf (off (n + 1)).val) (fs := rowsOf m c c) (fd := fd)
      (r₁ := 0) (r₂ := 0) (d₁ := 0) (d₂ := 0)
      (κ₁ := K (c, ⟨(sendSem (off (n + 1))).val, (sendSem (off (n + 1))).isLt⟩))
      (κ₂ := K (peer c (off (n + 1)), ⟨(recvSem (off (n + 1))).val, (recvSem (off (n + 1))).isLt⟩))
      hd₁ hd₂ () () N (stp_row_credit c) (stp_amount_send m c _) (stp_amount_recv m _ _)
      (owedT c (n + 1)) hO hpay₁ (hpay₂ fd))
    $$ [HL Hts Htr Hsrc Hdst]
  · isplitr; · iexact Hκs
    isplitr; · iexact Hκr
    isplitl [Hsrc]; · iexact Hsrc
    isplitl [Hdst]; · iexact Hdst
    isplitl [HL]; · iexact HL
    isplitl [Hts]; · iexact Hts
    isplitr; · iexact Hrs
    isplitl [Htr]; · iexact Htr
    iexact Hrr
  iintro ⟨Hc, HL⟩
  iapply Hk
  isplitl [HL]; · iexists _; iexact HL
  isplitl [Hrest]; · iexact Hrest
  isplitl [Hc]; · iexact Hc
  iexact Hcr

end Cert.KernelIdeal.DistSum

end
-- ==== Proof.Waits.lean ====
import proofs.«901078_g7700000000001079_dist_sum_ax0_shard0_i_m1536_n768_v7x_i32_f32_1_alg».proof.Proof.Steps

/-! A wait for an arrival or for a departure as a step of its phase; closing the cells at the end. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem wt_off_ne (n : ℕ) (hn : n < 31) : (off (n + 1)).val ≠ 0 := by
  rw [stp_off_val n hn]; omega

private theorem wt_duties_later (g : GSem nD τ sig) (r : ℕ) (hr : 1 ≤ r) : (Rd m).duties g r = ∅ := by
  show (if r = 0 then dutiesOf g else ∅) = ∅
  rw [if_neg (by omega)]

private theorem wt_expect_recv (c : Dev nD) (d : Fin 32) (hd : d.val ≠ 0) : (Rd m).expect (recvC c d) 0 = N := by
  unfold Schedule.expect Schedule.amountOf
  rw [stp_duties_recv m c d hd, Finset.sum_singleton]
  show (if recvSem d = cpySem then NX else N) = N
  rw [if_neg (stp_recv_ne_cpy d)]

private theorem wt_expect_send (c : Dev nD) (d : Fin 32) (hd : d.val ≠ 0) : (Rd m).expect (sendC c d) 0 = N := by
  unfold Schedule.expect Schedule.amountOf
  rw [stp_duties_send m c d hd, Finset.sum_singleton]
  show (if sendSem d = cpySem then NX else N) = N
  rw [if_neg (stp_send_ne_cpy d)]

private theorem wt_wait_one (K : Dev nD × Fin 66 → ℕ) (c : Dev nD) (q : DmaSem sig) (hq : q.val ≠ 0) (P : sProp 𝕄)
    (hdut : (Rd m).duties ((c : Thread nD τ), SemLoc.dma q) 0 = {0})
    (hexp : (Rd m).expect ((c : Thread nD τ), SemLoc.dma q) 0 = N)
    (hpay : (Rd m).payload ((c : Thread nD τ), SemLoc.dma q) 0 0 = P)
    {sp sp' : Space} {s s' : Shape} {e e' : EltTy} {src : Memref sig .tc sp' s' e'} {κ' : Kind} {dst : Memref sig κ' sp s e}
    {hs : src.view.WordExact} {hd : dst.view.WordExact} (hcr : dst.view.dmaCredit = N)
    {α : Type} {k : PUnit → Prog (TpuEff nD τ sig (Elt F) Λ₀ .tc) α} {Q : α → sProp 𝕄} :
    iprop(records m K ∗ owesE c 0 ∗ cred (tallyAt ((c : Thread nD τ), SemLoc.dma q) () N) ∗ atPos ER ((c : Thread nD τ), SemLoc.dma q) 0 ∅ 0)
      ⊢ iprop(((owesE c 0 ∗ atPos ER ((c : Thread nD τ), SemLoc.dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  have hrest : (bigSep ((Rd m).duties ((c : Thread nD τ), SemLoc.dma q) 0 \ ∅)
      fun d => (Rd m).payload ((c : Thread nD τ), SemLoc.dma q) 0 d) ⊢ P := by
    rw [Finset.sdiff_empty, hdut, bigSep_singleton, hpay]
  unfold owesE
  iintro ⟨#Hrec, ⟨%W, HL⟩, Hc, Hat⟩ Hk
  ihave #Hκ := (stp_inv_dma m K c q hq) $$ Hrec
  iapply (wp_wait_rest_token 𝒱₀ ER (Rd m) (c : Thread nD τ) none (κ := K (c, ⟨q.val, q.isLt⟩))
    (w := .waitDma2 q src dst hs hd)
    (wpE_waitDma2_eq 𝒱₀ (c : Thread nD τ) none Set.univ) (Set.mem_univ _) () (O := 0) (W := W)
    (R := 0) (T := ∅) (m := 0)
    (by rw [hcr, hexp, Nat.zero_add]))
    $$ [Hc HL Hat]
  · isplitr; · iexact Hκ
    isplitl [Hc]; · rw [hcr]; iexact Hc
    isplitl [HL]; · iexact HL
    isplitr; · rw [MayWait_zero]; iempintro
    iexact Hat
  iintro ⟨HL, Hat, -, Hrest⟩
  iapply Hk
  isplitl [HL]; · iexists _; iexact HL
  isplitl [Hat]; · iexact Hat
  iapply hrest $$ Hrest

/-- The cells of a phase of waits still to be waited for, each with its credit and at its start, -/
private abbrev WSt (cell : Fin 32 → GSem nD τ sig) (n : ℕ) : sProp 𝕄 :=
  bigSep (Finset.Ioc n 31) fun d => iprop(cred (tallyAt (cell (off d)) () N) ∗ atPos ER (cell (off d)) 0 ∅ 0)
/-- and those waited for, each past its one round with the payload the round handed over. -/
private abbrev WDone (cell : Fin 32 → GSem nD τ sig) (pay : Fin 32 → sProp 𝕄) (n : ℕ) : sProp 𝕄 :=
  bigSep (Finset.Ioc 0 n) fun d => iprop(atPos ER (cell (off d)) 1 ∅ 0 ∗ pay (off d))

/-- One wait of a phase: the cell of offset n + 1 passes from the first family to the second. -/
private theorem wt_phase_step (K : Dev nD × Fin 66 → ℕ) (c : Dev nD) (n : ℕ) (hn : n < 31) (sem : Fin 32 → DmaSem sig) (pay : Fin 32 → sProp 𝕄)
    (hq : ∀ d, (sem d).val ≠ 0)
    (hdut : ∀ d : Fin 32, d.val ≠ 0 → (Rd m).duties ((c : Thread nD τ), SemLoc.dma (sem d)) 0 = {0})
    (hexp : ∀ d : Fin 32, d.val ≠ 0 → (Rd m).expect ((c : Thread nD τ), SemLoc.dma (sem d)) 0 = N)
    (hpay : ∀ d : Fin 32, d.val ≠ 0 → (Rd m).payload ((c : Thread nD τ), SemLoc.dma (sem d)) 0 0 = pay d)
    {sp sp' : Space} {s s' : Shape} {e e' : EltTy} {src : Memref sig .tc sp' s' e'} {κ' : Kind} {dst : Memref sig κ' sp s e}
    {hs : src.view.WordExact} {hd : dst.view.WordExact} (hcr : dst.view.dmaCredit = N)
    {α : Type} {k : PUnit → Prog (TpuEff nD τ sig (Elt F) Λ₀ .tc) α} {Q : α → sProp 𝕄} :
    iprop(records m K ∗ owesE c 0 ∗ WSt (fun d => ((c : Thread nD τ), SemLoc.dma (sem d))) n
        ∗ WDone (fun d => ((c : Thread nD τ), SemLoc.dma (sem d))) pay n)
      ⊢ iprop(((owesE c 0 ∗ WSt (fun d => ((c : Thread nD τ), SemLoc.dma (sem d))) (n + 1)
              ∗ WDone (fun d => ((c : Thread nD τ), SemLoc.dma (sem d))) pay (n + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem (off (n + 1))) src dst hs hd) k) Q) := by
  have hd0 := wt_off_ne n hn
  unfold WSt WDone
  rw [stp_Ioc_left n hn, stp_Ioc_right n, stp_bigSep_insert (stp_notMem_left n), stp_bigSep_insert (stp_notMem_right n)]
  iintro ⟨#Hrec, HL, ⟨⟨Hc, Hat⟩, Hst⟩, Hdone⟩ Hk
  iapply (wt_wait_one m K c (sem (off (n + 1))) (hq _) (pay (off (n + 1)))
    (hdut _ hd0) (hexp _ hd0) (hpay _ hd0) hcr) $$ [HL Hc Hat]
  · isplitr; · iexact Hrec
    isplitl [HL]; · iexact HL
    isplitl [Hc]; · iexact Hc
    iexact Hat
  iintro ⟨HL, Hat, Hpay⟩
  iapply Hk
  isplitl [HL]; · iexact HL
  isplitl [Hst]; · iexact Hst
  isplitr [Hdone]
  · isplitl [Hat]; · iexact Hat
    iexact Hpay
  iexact Hdone

theorem recv_at (K : Dev nD × Fin 66 → ℕ) (c : Dev nD) (n : ℕ) (hn : n < 31) (d : Fin 32) (hd : d = off (n + 1)) {p q : Dev nD}
    {hs : (rowM p).view.WordExact} {hdd : (rowM q).view.WordExact}
    {α : Type} {k : PUnit → Prog (TpuEff nD τ sig (Elt F) Λ₀ .tc) α} {Q : α → sProp 𝕄} :
    iprop(records m K ∗ owesE c 0 ∗ RecvSt c n ∗ RecvDone m c n)
      ⊢ iprop(((owesE c 0 ∗ RecvSt c (n + 1) ∗ RecvDone m c (n + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem d) (rowM p) (rowM q) hs hdd) k) Q) := by
  subst hd
  exact wt_phase_step m K c n hn recvSem (recvPay m c) (fun d => by show 34 + d.val ≠ 0; omega)
    (stp_duties_recv m c) (wt_expect_recv m c) (stp_payload_recv m c) (stp_row_credit q)

theorem swait_at (K : Dev nD × Fin 66 → ℕ) (c : Dev nD) (n : ℕ) (hn : n < 31) (d : Fin 32) (hd : d = off (n + 1)) {p q : Dev nD}
    {hs : (rowM p).view.WordExact} {hdd : (rowM q).view.WordExact}
    {α : Type} {k : PUnit → Prog (TpuEff nD τ sig (Elt F) Λ₀ .tc) α} {Q : α → sProp 𝕄} :
    iprop(records m K ∗ owesE c 0 ∗ SWaitSt c n ∗ SWaitDone m c n)
      ⊢ iprop(((owesE c 0 ∗ SWaitSt c (n + 1) ∗ SWaitDone m c (n + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem d) (rowM p) (rowM q) hs hdd) k) Q) := by
  subst hd
  exact wt_phase_step m K c n hn sendSem (sendPay m c) (fun d => by show 2 + d.val ≠ 0; omega)
    (stp_duties_send m c) (wt_expect_send m c) (fun d _ => stp_payload_send m c d) (stp_row_credit q)

private theorem wt_close (K : Dev nD × Fin 66 → ℕ) (c : Dev nD) (q : DmaSem sig) (hq : q.val ≠ 0) (R : ℕ)
    (hR : ∀ r, R ≤ r → (Rd m).duties ((c : Thread nD τ), SemLoc.dma q) r = ∅) :
    iprop(records m K ∗ atPos ER ((c : Thread nD τ), SemLoc.dma q) R ∅ 0)
      ⊢ (|={Set.univ}=> semVal ((c : Thread nD τ), SemLoc.dma q) 0 : sProp 𝕄) := by
  iintro ⟨#Hrec, Hat⟩
  ihave #Hκ := (stp_inv_dma m K c q hq) $$ Hrec
  iapply (cell_close ER (Rd m) (g := ((c : Thread nD τ), SemLoc.dma q)) (κ := K (c, ⟨q.val, q.isLt⟩)) (Set.mem_univ _) (fun h => h) (R := R) hR) $$ [Hat]
  isplitr; · iexact Hκ
  iexact Hat

private theorem wt_close_all (K : Dev nD × Fin 66 → ℕ) (s : Finset ℕ) (g : ℕ → GSem nD τ sig) (R : ℕ)
    (hcl : ∀ d ∈ s, iprop(records m K ∗ atPos ER (g d) R ∅ 0) ⊢ (|={Set.univ}=> semVal (g d) 0 : sProp 𝕄)) :
    iprop(records m K ∗ bigSep s (fun d => atPos ER (g d) R ∅ 0))
      ⊢ (|={Set.univ}=> bigSep s (fun d => semVal (g d) 0) : sProp 𝕄) := by
  induction s using Finset.induction_on with
  | empty =>
    rw [bigSep_empty, bigSep_empty]
    iintro ⟨-, -⟩
    imodintro
    iempintro
  | insert d s hd ih =>
    rw [stp_bigSep_insert hd, stp_bigSep_insert hd]
    iintro ⟨#Hrec, Hd, Hs⟩
    imod (hcl d (Finset.mem_insert_self _ _)) $$ [Hd] with Hv
    · isplitr; · iexact Hrec
      iexact Hd
    imod (ih (fun d' hd' => hcl d' (Finset.mem_insert_of_mem hd'))) $$ [Hs] with Hvs
    · isplitr; · iexact Hrec
      iexact Hs
    imodintro
    isplitl [Hv]; · iexact Hv
    iexact Hvs

private theorem wt_duties_send0 (c : Dev nD) (r : ℕ) : (Rd m).duties (sendC c 0) r = ∅ := by
  show (if r = 0 then dutiesOf (sendC c 0) else ∅) = ∅
  split
  · unfold dutiesOf
    rw [if_pos rfl]
    show (if sendSem 0 = cpySem ∨ isSendIx (sendSem 0) ∨ isRecvIx (sendSem 0) then ({0} : Finset (Fin 32)) else ∅) = ∅
    rw [if_neg (by decide)]
  · rfl

private theorem wt_duties_recv0 (c : Dev nD) (r : ℕ) : (Rd m).duties (recvC c 0) r = ∅ := by
  show (if r = 0 then dutiesOf (recvC c 0) else ∅) = ∅
  split
  · unfold dutiesOf
    rw [if_pos rfl]
    show (if recvSem 0 = cpySem ∨ isSendIx (recvSem 0) ∨ isRecvIx (recvSem 0) then ({0} : Finset (Fin 32)) else ∅) = ∅
    rw [if_neg (by decide)]
  · rfl

private def wt_g1 (d : ℕ) : Fin 65 := ⟨(off d).val + 1, by have := (off d).isLt; omega⟩
private def wt_g2 (d : ℕ) : Fin 65 := ⟨(off d).val + 33, by have := (off d).isLt; omega⟩

private theorem wt_univ65 : (Finset.univ : Finset (Fin 65))
    = insert 0 (insert 1 (insert 33 ((Finset.Ioc 0 31).image wt_g1 ∪ (Finset.Ioc 0 31).image wt_g2))) := by
  decide

private theorem wt_bigSep_image {I J : Type} [DecidableEq J] (s : Finset I) (f : I → J)
    (hf : ∀ x ∈ s, ∀ y ∈ s, f x = f y → x = y) (Φ : J → sProp 𝕄) :
    bigSep (s.image f) Φ = bigSep s (fun i => Φ (f i)) :=
  Finset.fold_image hf

private theorem wt_split65 (Φ : Fin 65 → sProp 𝕄) :
    bigSep Finset.univ Φ = iprop(Φ 0 ∗ Φ 1 ∗ Φ 33 ∗ bigSep (Finset.Ioc 0 31) (fun d => Φ (wt_g1 d)) ∗ bigSep (Finset.Ioc 0 31) (fun d => Φ (wt_g2 d))) := by
  rw [wt_univ65, bigSep_insert (by decide), bigSep_insert (by decide), bigSep_insert (by decide), bigSep_union (by decide),
    wt_bigSep_image _ _ (by decide), wt_bigSep_image _ _ (by decide)]
  rfl

abbrev wt_osem (k : Fin 65) : SemLoc sig := .dma ⟨k.val + 1, by have := k.isLt; show k.val + 1 < 66; omega⟩

private theorem wt_osem_g1 (d : ℕ) : wt_osem (wt_g1 d) = .dma (sendSem (off d)) := by
  apply congrArg SemLoc.dma
  apply Fin.ext
  show (off d).val + 1 + 1 = 2 + (off d).val
  omega

private theorem wt_osem_g2 (d : ℕ) : wt_osem (wt_g2 d) = .dma (recvSem (off d)) := by
  apply congrArg SemLoc.dma
  apply Fin.ext
  show (off d).val + 33 + 1 = 34 + (off d).val
  omega

theorem close_cells (K : Dev nD × Fin 66 → ℕ) (c : Dev nD) :
    iprop(records m K ∗ atPos ER (cpyC c) 1 ∅ 0
        ∗ (bigSep (Finset.Ioc 0 31) fun d => atPos ER (sendC c (off d)) 1 ∅ 0)
        ∗ (bigSep (Finset.Ioc 0 31) fun d => atPos ER (recvC c (off d)) 1 ∅ 0)
        ∗ atPos ER (sendC c 0) 0 ∅ 0 ∗ atPos ER (recvC c 0) 0 ∅ 0)
      ⊢ (|={Set.univ}=> (bigSep Finset.univ fun k : Fin 65 => semVal ((c : Thread nD τ), wt_osem k) 0) : sProp 𝕄) := by
  rw [wt_split65]
  simp only [wt_osem_g1, wt_osem_g2]
  iintro ⟨#Hrec, Hcpy, Hsend, Hrecv, Hs0, Hr0⟩
  imod (wt_close m K c cpySem (by decide) 1 (fun r hr => wt_duties_later m _ r hr)) $$ [Hcpy] with Hv0
  · isplitr; · iexact Hrec
    iexact Hcpy
  imod (wt_close m K c (sendSem 0) (by decide) 0 (fun r _ => wt_duties_send0 m c r)) $$ [Hs0] with Hv1
  · isplitr; · iexact Hrec
    iexact Hs0
  imod (wt_close m K c (recvSem 0) (by decide) 0 (fun r _ => wt_duties_recv0 m c r)) $$ [Hr0] with Hv33
  · isplitr; · iexact Hrec
    iexact Hr0
  imod (wt_close_all m K (Finset.Ioc 0 31) (fun d => sendC c (off d)) 1
      (fun d _ => wt_close m K c (sendSem (off d)) (by show 2 + (off d).val ≠ 0; omega) 1 (fun r hr => wt_duties_later m _ r hr))) $$ [Hsend] with Hvs
  · isplitr; · iexact Hrec
    iexact Hsend
  imod (wt_close_all m K (Finset.Ioc 0 31) (fun d => recvC c (off d)) 1
      (fun d _ => wt_close m K c (recvSem (off d)) (by show 34 + (off d).val ≠ 0; omega) 1 (fun r hr => wt_duties_later m _ r hr))) $$ [Hrecv] with Hvr
  · isplitr; · iexact Hrec
    iexact Hrecv
  imodintro
  isplitl [Hv0]; · iexact Hv0
  isplitl [Hv1]; · iexact Hv1
  isplitl [Hv33]; · iexact Hv33
  isplitl [Hvs]; · iexact Hvs
  iexact Hvr

end Cert.KernelIdeal.DistSum

end
-- ==== Proof.Parts.lean ====
import proofs.«901078_g7700000000001079_dist_sum_ax0_shard0_i_m1536_n768_v7x_i32_f32_1_alg».proof.Proof.Steps
import proofs.«901078_g7700000000001079_dist_sum_ax0_shard0_i_m1536_n768_v7x_i32_f32_1_alg».proof.Proof.Waits

/-! The parts of the body that are runs of like steps: signals, copies, waits for arrivals, waits for departures. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One step of a run whose state is two assertions: the records are persistent, the rest R is carried along. -/
theorem go2 (K : Dev nD × Fin 66 → ℕ) {A B A' B' R W W' : sProp 𝕄}
    (hs : iprop(records m K ∗ A ∗ B) ⊢ iprop(((A' ∗ B') -∗ W') -∗ W))
    (h : iprop(records m K ∗ A' ∗ B' ∗ R) ⊢ W') : iprop(records m K ∗ A ∗ B ∗ R) ⊢ W := by
  iintro ⟨#HI, HA, HB, HR⟩
  iapply hs $$ [HA HB]
  · isplitr; · iexact HI
    isplitl [HA] <;> iassumption
  iintro ⟨HA, HB⟩
  iapply h $$ [HA HB HR]
  isplitr; · iexact HI
  isplitl [HA]; · iexact HA
  isplitl [HB] <;> iassumption

/-- The same for a state of three assertions. -/
theorem go3 (K : Dev nD × Fin 66 → ℕ) {A B C A' B' C' R W W' : sProp 𝕄}
    (hs : iprop(records m K ∗ A ∗ B ∗ C) ⊢ iprop(((A' ∗ B' ∗ C') -∗ W') -∗ W))
    (h : iprop(records m K ∗ A' ∗ B' ∗ C' ∗ R) ⊢ W') : iprop(records m K ∗ A ∗ B ∗ C ∗ R) ⊢ W := by
  iintro ⟨#HI, HA, HB, HC, HR⟩
  iapply hs $$ [HA HB HC]
  · isplitr; · iexact HI
    isplitl [HA]; · iexact HA
    isplitl [HB] <;> iassumption
  iintro ⟨HA, HB, HC⟩
  iapply h $$ [HA HB HC HR]
  isplitr; · iexact HI
  isplitl [HA]; · iexact HA
  isplitl [HB]; · iexact HB
  isplitl [HC] <;> iassumption

/-- A run ends by handing its state to the continuation. -/
theorem fin2 (K : Dev nD × Fin 66 → ℕ) {c : Dev nD} {A B : sProp 𝕄} {α : Type} {Kt : α → sProp 𝕄} (r : α) :
    iprop(records m K ∗ A ∗ B ∗ (∀ r, (A ∗ B) -∗ Kt r))
      ⊢ wp frame (wpE (defs₀ (F := F)) 𝒱₀ (c : Thread nD τ) none) Set.univ (.ret r) Kt := by
  iintro ⟨#HI, HA, HB, Hk⟩
  rw [wp_ret]; imodintro
  iapply Hk $$ [HA HB]
  isplitl [HA] <;> iassumption

theorem fin3 (K : Dev nD × Fin 66 → ℕ) {c : Dev nD} {A B C : sProp 𝕄} {α : Type} {Kt : α → sProp 𝕄} (r : α) :
    iprop(records m K ∗ A ∗ B ∗ C ∗ (∀ r, (A ∗ B ∗ C) -∗ Kt r))
      ⊢ wp frame (wpE (defs₀ (F := F)) 𝒱₀ (c : Thread nD τ) none) Set.univ (.ret r) Kt := by
  iintro ⟨#HI, HA, HB, HC, Hk⟩
  rw [wp_ret]; imodintro
  iapply Hk $$ [HA HB HC]
  isplitl [HA]; · iexact HA
  isplitl [HB] <;> iassumption

theorem part1 (K : Dev nD × Fin 66 → ℕ) (c : Dev nD) (Kt : (Σ' (d0 : Dev nD) (v2 : BitVec 32) (v3 : Sems sig S_) (v24 : BitVec 32), BitVec 32) → sProp 𝕄) :
    iprop(records m K ∗ owesE c (owedT c 0 + owedS c 0) ∗ SigSt c 0 ∗ (∀ v2 v24 c32, (owesE c (owedT c 0 + owedS c 5) ∗ SigSt c 5) -∗ Kt ⟨c, v2, SemArray.scalar (sig.barrier 0 rfl), v24, c32⟩))
      ⊢ wp frame (wpE (defs₀ (F := F)) 𝒱₀ (c : Thread nD τ) none) Set.univ (k0_part1 (F := F) xH (Memref.isWhole_whole _) A1 (Memref.isWhole_whole _) xV (Memref.isWhole_whole _) gbuf (Memref.isWhole_whole _) cc0_scratch2 cc0_scratch3 cc0_scratch4) Kt := by
  simp only [k0_part1_eq_skeleton]; unfold k0_part1_skel
  simp only [semSignalWord, semWaitWord, Prog.lift, Prog.bind_op, Prog.bind_ret, Prog.pure_eq_ret, wp_deviceId]
  simp only [devSig]
  refine go2 m K (sig_at m K c 0 (by decide) 1 (by decide)) ?_
  refine go2 m K (sig_at m K c 1 (by decide) 2 (by decide)) ?_
  refine go2 m K (sig_at m K c 2 (by decide) 3 (by decide)) ?_
  refine go2 m K (sig_at m K c 3 (by decide) 4 (by decide)) ?_
  refine go2 m K (sig_at m K c 4 (by decide) 5 (by decide)) ?_
  iintro ⟨#HI, HO, HS, Hk⟩
  rw [wp_ret]; imodintro
  iapply Hk $$ [HO HS]
  isplitl [HO] <;> iassumption

theorem part2 (K : Dev nD × Fin 66 → ℕ) (c : Dev nD) (v2 w1 w2 : BitVec 32) (Kt : (Σ' (v48 : BitVec 32), BitVec 32) → sProp 𝕄) :
    iprop(records m K ∗ owesE c (owedT c 0 + owedS c 5) ∗ SigSt c 5 ∗ (∀ r, (owesE c (owedT c 0 + owedS c 11) ∗ SigSt c 11) -∗ Kt r))
      ⊢ wp frame (wpE (defs₀ (F := F)) 𝒱₀ (c : Thread nD τ) none) Set.univ (k0_part2 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part2_eq_skeleton]; unfold k0_part2_skel
  simp only [semSignalWord, semWaitWord, Prog.lift, Prog.bind_op, Prog.bind_ret, Prog.pure_eq_ret, wp_deviceId]
  simp only [devSig]
  refine go2 m K (sig_at m K c 5 (by decide) 6 (by decide)) ?_
  refine go2 m K (sig_at m K c 6 (by decide) 7 (by decide)) ?_
  refine go2 m K (sig_at m K c 7 (by decide) 8 (by decide)) ?_
  refine go2 m K (sig_at m K c 8 (by decide) 9 (by decide)) ?_
  refine go2 m K (sig_at m K c 9 (by decide) 10 (by decide)) ?_
  refine go2 m K (sig_at m K c 10 (by decide) 11 (by decide)) ?_
  exact fin2 m K _

theorem part3 (K : Dev nD × Fin 66 → ℕ) (c : Dev nD) (v2 w1 w2 : BitVec 32) (Kt : (Σ' (v72 : BitVec 32), BitVec 32) → sProp 𝕄) :
    iprop(records m K ∗ owesE c (owedT c 0 + owedS c 11) ∗ SigSt c 11 ∗ (∀ r, (owesE c (owedT c 0 + owedS c 17) ∗ SigSt c 17) -∗ Kt r))
      ⊢ wp frame (wpE (defs₀ (F := F)) 𝒱₀ (c : Thread nD τ) none) Set.univ (k0_part3 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part3_eq_skeleton]; unfold k0_part3_skel
  simp only [semSignalWord, semWaitWord, Prog.lift, Prog.bind_op, Prog.bind_ret, Prog.pure_eq_ret, wp_deviceId]
  simp only [devSig]
  refine go2 m K (sig_at m K c 11 (by decide) 12 (by decide)) ?_
  refine go2 m K (sig_at m K c 12 (by decide) 13 (by decide)) ?_
  refine go2 m K (sig_at m K c 13 (by decide) 14 (by decide)) ?_
  refine go2 m K (sig_at m K c 14 (by decide) 15 (by decide)) ?_
  refine go2 m K (sig_at m K c 15 (by decide) 16 (by decide)) ?_
  refine go2 m K (sig_at m K c 16 (by decide) 17 (by decide)) ?_
  exact fin2 m K _

theorem part4 (K : Dev nD × Fin 66 → ℕ) (c : Dev nD) (v2 w1 w2 : BitVec 32) (Kt : (Σ' (v96 : BitVec 32), BitVec 32) → sProp 𝕄) :
    iprop(records m K ∗ owesE c (owedT c 0 + owedS c 17) ∗ SigSt c 17 ∗ (∀ r, (owesE c (owedT c 0 + owedS c 23) ∗ SigSt c 23) -∗ Kt r))
      ⊢ wp frame (wpE (defs₀ (F := F)) 𝒱₀ (c : Thread nD τ) none) Set.univ (k0_part4 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part4_eq_skeleton]; unfold k0_part4_skel
  simp only [semSignalWord, semWaitWord, Prog.lift, Prog.bind_op, Prog.bind_ret, Prog.pure_eq_ret, wp_deviceId]
  simp only [devSig]
  refine go2 m K (sig_at m K c 17 (by decide) 18 (by decide)) ?_
  refine go2 m K (sig_at m K c 18 (by decide) 19 (by decide)) ?_
  refine go2 m K (sig_at m K c 19 (by decide) 20 (by decide)) ?_
  refine go2 m K (sig_at m K c 20 (by decide) 21 (by decide)) ?_
  refine go2 m K (sig_at m K c 21 (by decide) 22 (by decide)) ?_
  refine go2 m K (sig_at m K c 22 (by decide) 23 (by decide)) ?_
  exact fin2 m K _

theorem part5 (K : Dev nD × Fin 66 → ℕ) (c : Dev nD) (v2 w1 w2 : BitVec 32) (Kt : (Σ' (v120 : BitVec 32), BitVec 32) → sProp 𝕄) :
    iprop(records m K ∗ owesE c (owedT c 0 + owedS c 23) ∗ SigSt c 23 ∗ (∀ r, (owesE c (owedT c 0 + owedS c 29) ∗ SigSt c 29) -∗ Kt r))
      ⊢ wp frame (wpE (defs₀ (F := F)) 𝒱₀ (c : Thread nD τ) none) Set.univ (k0_part5 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part5_eq_skeleton]; unfold k0_part5_skel
  simp only [semSignalWord, semWaitWord, Prog.lift, Prog.bind_op, Prog.bind_ret, Prog.pure_eq_ret, wp_deviceId]
  simp only [devSig]
  refine go2 m K (sig_at m K c 23 (by decide) 24 (by decide)) ?_
  refine go2 m K (sig_at m K c 24 (by decide) 25 (by decide)) ?_
  refine go2 m K (sig_at m K c 25 (by decide) 26 (by decide)) ?_
  refine go2 m K (sig_at m K c 26 (by decide) 27 (by decide)) ?_
  refine go2 m K (sig_at m K c 27 (by decide) 28 (by decide)) ?_
  refine go2 m K (sig_at m K c 28 (by decide) 29 (by decide)) ?_
  exact fin2 m K _

theorem part7 (K : Dev nD × Fin 66 → ℕ) (c : Dev nD) (v2 w1 w2 : BitVec 32) (Kt : PUnit → sProp 𝕄) :
    iprop(records m K ∗ owesE c (owedT c 1) ∗ SendSt m c 1 ∗ SentCr c 1 ∗ (∀ r, (owesE c (owedT c 4) ∗ SendSt m c 4 ∗ SentCr c 4) -∗ Kt r))
      ⊢ wp frame (wpE (defs₀ (F := F)) 𝒱₀ (c : Thread nD τ) none) Set.univ (k0_part7 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part7_eq_skeleton]; unfold k0_part7_skel
  simp only [semSignalWord, semWaitWord, Prog.lift, Prog.bind_op, Prog.bind_ret, Prog.pure_eq_ret, wp_deviceId]
  simp only [remoteSend, row2_eq, send_sem, recv_sem]
  refine go3 m K (send_at m K c 1 (by decide) 2 (by decide)) ?_
  refine go3 m K (send_at m K c 2 (by decide) 3 (by decide)) ?_
  refine go3 m K (send_at m K c 3 (by decide) 4 (by decide)) ?_
  exact fin3 m K _

theorem part8 (K : Dev nD × Fin 66 → ℕ) (c : Dev nD) (v2 w1 w2 : BitVec 32) (Kt : PUnit → sProp 𝕄) :
    iprop(records m K ∗ owesE c (owedT c 4) ∗ SendSt m c 4 ∗ SentCr c 4 ∗ (∀ r, (owesE c (owedT c 7) ∗ SendSt m c 7 ∗ SentCr c 7) -∗ Kt r))
      ⊢ wp frame (wpE (defs₀ (F := F)) 𝒱₀ (c : Thread nD τ) none) Set.univ (k0_part8 (F := F) xH (Memref.isWhole_whole _) A1 (Memref.isWhole_whole _) xV (Memref.isWhole_whole _) gbuf (Memref.isWhole_whole _) cc0_scratch2 cc0_scratch3 cc0_scratch4 c v2) Kt := by
  simp only [k0_part8_eq_skeleton]; unfold k0_part8_skel
  simp only [semSignalWord, semWaitWord, Prog.lift, Prog.bind_op, Prog.bind_ret, Prog.pure_eq_ret, wp_deviceId]
  simp only [remoteSend, row2_eq, send_sem, recv_sem]
  refine go3 m K (send_at m K c 4 (by decide) 5 (by decide)) ?_
  refine go3 m K (send_at m K c 5 (by decide) 6 (by decide)) ?_
  refine go3 m K (send_at m K c 6 (by decide) 7 (by decide)) ?_
  exact fin3 m K _

theorem part9 (K : Dev nD × Fin 66 → ℕ) (c : Dev nD) (v2 w1 w2 : BitVec 32) (Kt : PUnit → sProp 𝕄) :
    iprop(records m K ∗ owesE c (owedT c 7) ∗ SendSt m c 7 ∗ SentCr c 7 ∗ (∀ r, (owesE c (owedT c 10) ∗ SendSt m c 10 ∗ SentCr c 10) -∗ Kt r))
      ⊢ wp frame (wpE (defs₀ (F := F)) 𝒱₀ (c : Thread nD τ) none) Set.univ (k0_part9 (F := F) xH (Memref.isWhole_whole _) A1 (Memref.isWhole_whole _) xV (Memref.isWhole_whole _) gbuf (Memref.isWhole_whole _) cc0_scratch2 cc0_scratch3 cc0_scratch4 c v2) Kt := by
  simp only [k0_part9_eq_skeleton]; unfold k0_part9_skel
  simp only [semSignalWord, semWaitWord, Prog.lift, Prog.bind_op, Prog.bind_ret, Prog.pure_eq_ret, wp_deviceId]
  simp only [remoteSend, row2_eq, send_sem, recv_sem]
  refine go3 m K (send_at m K c 7 (by decide) 8 (by decide)) ?_
  refine go3 m K (send_at m K c 8 (by decide) 9 (by decide)) ?_
  refine go3 m K (send_at m K c 9 (by decide) 10 (by decide)) ?_
  exact fin3 m K _

theorem part10 (K : Dev nD × Fin 66 → ℕ) (c : Dev nD) (v2 w1 w2 : BitVec 32) (Kt : PUnit → sProp 𝕄) :
    iprop(records m K ∗ owesE c (owedT c 10) ∗ SendSt m c 10 ∗ SentCr c 10 ∗ (∀ r, (owesE c (owedT c 14) ∗ SendSt m c 14 ∗ SentCr c 14) -∗ Kt r))
      ⊢ wp frame (wpE (defs₀ (F := F)) 𝒱₀ (c : Thread nD τ) none) Set.univ (k0_part10 (F := F) xH (Memref.isWhole_whole _) A1 (Memref.isWhole_whole _) xV (Memref.isWhole_whole _) gbuf (Memref.isWhole_whole _) cc0_scratch2 cc0_scratch3 cc0_scratch4 c v2) Kt := by
  simp only [k0_part10_eq_skeleton]; unfold k0_part10_skel
  simp only [semSignalWord, semWaitWord, Prog.lift, Prog.bind_op, Prog.bind_ret, Prog.pure_eq_ret, wp_deviceId]
  simp only [remoteSend, row2_eq, send_sem, recv_sem]
  refine go3 m K (send_at m K c 10 (by decide) 11 (by decide)) ?_
  refine go3 m K (send_at m K c 11 (by decide) 12 (by decide)) ?_
  refine go3 m K (send_at m K c 12 (by decide) 13 (by decide)) ?_
  refine go3 m K (send_at m K c 13 (by decide) 14 (by decide)) ?_
  exact fin3 m K _

theorem part11 (K : Dev nD × Fin 66 → ℕ) (c : Dev nD) (v2 w1 w2 : BitVec 32) (Kt : (Σ' (v305 : BitVec 32), BitVec 32) → sProp 𝕄) :
    iprop(records m K ∗ owesE c (owedT c 14) ∗ SendSt m c 14 ∗ SentCr c 14 ∗ (∀ r, (owesE c (owedT c 17) ∗ SendSt m c 17 ∗ SentCr c 17) -∗ Kt r))
      ⊢ wp frame (wpE (defs₀ (F := F)) 𝒱₀ (c : Thread nD τ) none) Set.univ (k0_part11 (F := F) xH (Memref.isWhole_whole _) A1 (Memref.isWhole_whole _) xV (Memref.isWhole_whole _) gbuf (Memref.isWhole_whole _) cc0_scratch2 cc0_scratch3 cc0_scratch4 c v2) Kt := by
  simp only [k0_part11_eq_skeleton]; unfold k0_part11_skel
  simp only [semSignalWord, semWaitWord, Prog.lift, Prog.bind_op, Prog.bind_ret, Prog.pure_eq_ret, wp_deviceId]
  simp only [remoteSend, row2_eq, send_sem, recv_sem]
  refine go3 m K (send_at m K c 14 (by decide) 15 (by decide)) ?_
  refine go3 m K (send_at m K c 15 (by decide) 16 (by decide)) ?_
  refine go3 m K (send_at m K c 16 (by decide) 17 (by decide)) ?_
  exact fin3 m K _

theorem part12 (K : Dev nD × Fin 66 → ℕ) (c : Dev nD) (v2 w1 w2 : BitVec 32) (Kt : BitVec 32 → sProp 𝕄) :
    iprop(records m K ∗ owesE c (owedT c 17) ∗ SendSt m c 17 ∗ SentCr c 17 ∗ (∀ r, (owesE c (owedT c 20) ∗ SendSt m c 20 ∗ SentCr c 20) -∗ Kt r))
      ⊢ wp frame (wpE (defs₀ (F := F)) 𝒱₀ (c : Thread nD τ) none) Set.univ (k0_part12 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part12_eq_skeleton]; unfold k0_part12_skel
  simp only [semSignalWord, semWaitWord, Prog.lift, Prog.bind_op, Prog.bind_ret, Prog.pure_eq_ret, wp_deviceId]
  simp only [remoteSend, row2_eq, send_sem, recv_sem]
  refine go3 m K (send_at m K c 17 (by decide) 18 (by decide)) ?_
  refine go3 m K (send_at m K c 18 (by decide) 19 (by decide)) ?_
  refine go3 m K (send_at m K c 19 (by decide) 20 (by decide)) ?_
  exact fin3 m K _

theorem part13 (K : Dev nD × Fin 66 → ℕ) (c : Dev nD) (v2 w1 w2 : BitVec 32) (Kt : (Σ' (v367 : BitVec 32), BitVec 32) → sProp 𝕄) :
    iprop(records m K ∗ owesE c (owedT c 20) ∗ SendSt m c 20 ∗ SentCr c 20 ∗ (∀ r, (owesE c (owedT c 23) ∗ SendSt m c 23 ∗ SentCr c 23) -∗ Kt r))
      ⊢ wp frame (wpE (defs₀ (F := F)) 𝒱₀ (c : Thread nD τ) none) Set.univ (k0_part13 (F := F) xH (Memref.isWhole_whole _) A1 (Memref.isWhole_whole _) xV (Memref.isWhole_whole _) gbuf (Memref.isWhole_whole _) cc0_scratch2 cc0_scratch3 cc0_scratch4 c v2 w1) Kt := by
  simp only [k0_part13_eq_skeleton]; unfold k0_part13_skel
  simp only [semSignalWord, semWaitWord, Prog.lift, Prog.bind_op, Prog.bind_ret, Prog.pure_eq_ret, wp_deviceId]
  simp only [remoteSend, row2_eq, send_sem, recv_sem]
  refine go3 m K (send_at m K c 20 (by decide) 21 (by decide)) ?_
  refine go3 m K (send_at m K c 21 (by decide) 22 (by decide)) ?_
  refine go3 m K (send_at m K c 22 (by decide) 23 (by decide)) ?_
  exact fin3 m K _

theorem part14 (K : Dev nD × Fin 66 → ℕ) (c : Dev nD) (v2 w1 w2 : BitVec 32) (Kt : PUnit → sProp 𝕄) :
    iprop(records m K ∗ owesE c (owedT c 23) ∗ SendSt m c 23 ∗ SentCr c 23 ∗ (∀ r, (owesE c (owedT c 26) ∗ SendSt m c 26 ∗ SentCr c 26) -∗ Kt r))
      ⊢ wp frame (wpE (defs₀ (F := F)) 𝒱₀ (c : Thread nD τ) none) Set.univ (k0_part14 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part14_eq_skeleton]; unfold k0_part14_skel
  simp only [semSignalWord, semWaitWord, Prog.lift, Prog.bind_op, Prog.bind_ret, Prog.pure_eq_ret, wp_deviceId]
  simp only [remoteSend, row2_eq, send_sem, recv_sem]
  refine go3 m K (send_at m K c 23 (by decide) 24 (by decide)) ?_
  refine go3 m K (send_at m K c 24 (by decide) 25 (by decide)) ?_
  refine go3 m K (send_at m K c 25 (by decide) 26 (by decide)) ?_
  exact fin3 m K _

theorem part15 (K : Dev nD × Fin 66 → ℕ) (c : Dev nD) (v2 w1 w2 : BitVec 32) (Kt : PUnit → sProp 𝕄) :
    iprop(records m K ∗ owesE c (owedT c 26) ∗ SendSt m c 26 ∗ SentCr c 26 ∗ (∀ r, (owesE c (owedT c 29) ∗ SendSt m c 29 ∗ SentCr c 29) -∗ Kt r))
      ⊢ wp frame (wpE (defs₀ (F := F)) 𝒱₀ (c : Thread nD τ) none) Set.univ (k0_part15 (F := F) xH (Memref.isWhole_whole _) A1 (Memref.isWhole_whole _) xV (Memref.isWhole_whole _) gbuf (Memref.isWhole_whole _) cc0_scratch2 cc0_scratch3 cc0_scratch4 c v2) Kt := by
  simp only [k0_part15_eq_skeleton]; unfold k0_part15_skel
  simp only [semSignalWord, semWaitWord, Prog.lift, Prog.bind_op, Prog.bind_ret, Prog.pure_eq_ret, wp_deviceId]
  simp only [remoteSend, row2_eq, send_sem, recv_sem]
  refine go3 m K (send_at m K c 26 (by decide) 27 (by decide)) ?_
  refine go3 m K (send_at m K c 27 (by decide) 28 (by decide)) ?_
  refine go3 m K (send_at m K c 28 (by decide) 29 (by decide)) ?_
  exact fin3 m K _

theorem part17 (K : Dev nD × Fin 66 → ℕ) (c : Dev nD) (v2 w1 w2 : BitVec 32) (Kt : BitVec 32 → sProp 𝕄) :
    iprop(records m K ∗ owesE c 0 ∗ RecvSt c 1 ∗ RecvDone m c 1 ∗ (∀ r, (owesE c 0 ∗ RecvSt c 5 ∗ RecvDone m c 5) -∗ Kt r))
      ⊢ wp frame (wpE (defs₀ (F := F)) 𝒱₀ (c : Thread nD τ) none) Set.univ (k0_part17 (F := F) xH (Memref.isWhole_whole _) A1 (Memref.isWhole_whole _) xV (Memref.isWhole_whole _) gbuf (Memref.isWhole_whole _) cc0_scratch2 cc0_scratch3 cc0_scratch4 c v2) Kt := by
  simp only [k0_part17_eq_skeleton]; unfold k0_part17_skel
  simp only [semSignalWord, semWaitWord, Prog.lift, Prog.bind_op, Prog.bind_ret, Prog.pure_eq_ret, wp_deviceId]
  simp only [row2_eq, row3_eq, recv_sem]
  refine go3 m K (recv_at m K c 1 (by decide) 2 (by decide)) ?_
  refine go3 m K (recv_at m K c 2 (by decide) 3 (by decide)) ?_
  refine go3 m K (recv_at m K c 3 (by decide) 4 (by decide)) ?_
  refine go3 m K (recv_at m K c 4 (by decide) 5 (by decide)) ?_
  exact fin3 m K _

theorem part18 (K : Dev nD × Fin 66 → ℕ) (c : Dev nD) (v2 w1 w2 : BitVec 32) (Kt : (Σ' (v518 : BitVec 32), BitVec 32) → sProp 𝕄) :
    iprop(records m K ∗ owesE c 0 ∗ RecvSt c 5 ∗ RecvDone m c 5 ∗ (∀ r, (owesE c 0 ∗ RecvSt c 8 ∗ RecvDone m c 8) -∗ Kt r))
      ⊢ wp frame (wpE (defs₀ (F := F)) 𝒱₀ (c : Thread nD τ) none) Set.univ (k0_part18 (F := F) xH (Memref.isWhole_whole _) A1 (Memref.isWhole_whole _) xV (Memref.isWhole_whole _) gbuf (Memref.isWhole_whole _) cc0_scratch2 cc0_scratch3 cc0_scratch4 c v2 w1) Kt := by
  simp only [k0_part18_eq_skeleton]; unfold k0_part18_skel
  simp only [semSignalWord, semWaitWord, Prog.lift, Prog.bind_op, Prog.bind_ret, Prog.pure_eq_ret, wp_deviceId]
  simp only [row2_eq, row3_eq, recv_sem]
  refine go3 m K (recv_at m K c 5 (by decide) 6 (by decide)) ?_
  refine go3 m K (recv_at m K c 6 (by decide) 7 (by decide)) ?_
  refine go3 m K (recv_at m K c 7 (by decide) 8 (by decide)) ?_
  exact fin3 m K _

theorem part19 (K : Dev nD × Fin 66 → ℕ) (c : Dev nD) (v2 w1 w2 : BitVec 32) (Kt : PUnit → sProp 𝕄) :
    iprop(records m K ∗ owesE c 0 ∗ RecvSt c 8 ∗ RecvDone m c 8 ∗ (∀ r, (owesE c 0 ∗ RecvSt c 11 ∗ RecvDone m c 11) -∗ Kt r))
      ⊢ wp frame (wpE (defs₀ (F := F)) 𝒱₀ (c : Thread nD τ) none) Set.univ (k0_part19 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part19_eq_skeleton]; unfold k0_part19_skel
  simp only [semSignalWord, semWaitWord, Prog.lift, Prog.bind_op, Prog.bind_ret, Prog.pure_eq_ret, wp_deviceId]
  simp only [row2_eq, row3_eq, recv_sem]
  refine go3 m K (recv_at m K c 8 (by decide) 9 (by decide)) ?_
  refine go3 m K (recv_at m K c 9 (by decide) 10 (by decide)) ?_
  refine go3 m K (recv_at m K c 10 (by decide) 11 (by decide)) ?_
  exact fin3 m K _

theorem part20 (K : Dev nD × Fin 66 → ℕ) (c : Dev nD) (v2 w1 w2 : BitVec 32) (Kt : (Σ' (v574 : BitVec 32), BitVec 32) → sProp 𝕄) :
    iprop(records m K ∗ owesE c 0 ∗ RecvSt c 11 ∗ RecvDone m c 11 ∗ (∀ r, (owesE c 0 ∗ RecvSt c 14 ∗ RecvDone m c 14) -∗ Kt r))
      ⊢ wp frame (wpE (defs₀ (F := F)) 𝒱₀ (c : Thread nD τ) none) Set.univ (k0_part20 (F := F) xH (Memref.isWhole_whole _) A1 (Memref.isWhole_whole _) xV (Memref.isWhole_whole _) gbuf (Memref.isWhole_whole _) cc0_scratch2 cc0_scratch3 cc0_scratch4 c v2) Kt := by
  simp only [k0_part20_eq_skeleton]; unfold k0_part20_skel
  simp only [semSignalWord, semWaitWord, Prog.lift, Prog.bind_op, Prog.bind_ret, Prog.pure_eq_ret, wp_deviceId]
  simp only [row2_eq, row3_eq, recv_sem]
  refine go3 m K (recv_at m K c 11 (by decide) 12 (by decide)) ?_
  refine go3 m K (recv_at m K c 12 (by decide) 13 (by decide)) ?_
  refine go3 m K (recv_at m K c 13 (by decide) 14 (by decide)) ?_
  exact fin3 m K _

theorem part21 (K : Dev nD × Fin 66 → ℕ) (c : Dev nD) (v2 w1 w2 : BitVec 32) (Kt : PUnit → sProp 𝕄) :
    iprop(records m K ∗ owesE c 0 ∗ RecvSt c 14 ∗ RecvDone m c 14 ∗ (∀ r, (owesE c 0 ∗ RecvSt c 17 ∗ RecvDone m c 17) -∗ Kt r))
      ⊢ wp frame (wpE (defs₀ (F := F)) 𝒱₀ (c : Thread nD τ) none) Set.univ (k0_part21 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part21_eq_skeleton]; unfold k0_part21_skel
  simp only [semSignalWord, semWaitWord, Prog.lift, Prog.bind_op, Prog.bind_ret, Prog.pure_eq_ret, wp_deviceId]
  simp only [row2_eq, row3_eq, recv_sem]
  refine go3 m K (recv_at m K c 14 (by decide) 15 (by decide)) ?_
  refine go3 m K (recv_at m K c 15 (by decide) 16 (by decide)) ?_
  refine go3 m K (recv_at m K c 16 (by decide) 17 (by decide)) ?_
  exact fin3 m K _

theorem part22 (K : Dev nD × Fin 66 → ℕ) (c : Dev nD) (v2 w1 w2 : BitVec 32) (Kt : PUnit → sProp 𝕄) :
    iprop(records m K ∗ owesE c 0 ∗ RecvSt c 17 ∗ RecvDone m c 17 ∗ (∀ r, (owesE c 0 ∗ RecvSt c 20 ∗ RecvDone m c 20) -∗ Kt r))
      ⊢ wp frame (wpE (defs₀ (F := F)) 𝒱₀ (c : Thread nD τ) none) Set.univ (k0_part22 (F := F) xH (Memref.isWhole_whole _) A1 (Memref.isWhole_whole _) xV (Memref.isWhole_whole _) gbuf (Memref.isWhole_whole _) cc0_scratch2 cc0_scratch3 cc0_scratch4 c v2) Kt := by
  simp only [k0_part22_eq_skeleton]; unfold k0_part22_skel
  simp only [semSignalWord, semWaitWord, Prog.lift, Prog.bind_op, Prog.bind_ret, Prog.pure_eq_ret, wp_deviceId]
  simp only [row2_eq, row3_eq, recv_sem]
  refine go3 m K (recv_at m K c 17 (by decide) 18 (by decide)) ?_
  refine go3 m K (recv_at m K c 18 (by decide) 19 (by decide)) ?_
  refine go3 m K (recv_at m K c 19 (by decide) 20 (by decide)) ?_
  exact fin3 m K _

theorem part23 (K : Dev nD × Fin 66 → ℕ) (c : Dev nD) (v2 w1 w2 : BitVec 32) (Kt : BitVec 32 → sProp 𝕄) :
    iprop(records m K ∗ owesE c 0 ∗ RecvSt c 20 ∗ RecvDone m c 20 ∗ (∀ r, (owesE c 0 ∗ RecvSt c 24 ∗ RecvDone m c 24) -∗ Kt r))
      ⊢ wp frame (wpE (defs₀ (F := F)) 𝒱₀ (c : Thread nD τ) none) Set.univ (k0_part23 (F := F) xH (Memref.isWhole_whole _) A1 (Memref.isWhole_whole _) xV (Memref.isWhole_whole _) gbuf (Memref.isWhole_whole _) cc0_scratch2 cc0_scratch3 cc0_scratch4 c v2) Kt := by
  simp only [k0_part23_eq_skeleton]; unfold k0_part23_skel
  simp only [semSignalWord, semWaitWord, Prog.lift, Prog.bind_op, Prog.bind_ret, Prog.pure_eq_ret, wp_deviceId]
  simp only [row2_eq, row3_eq, recv_sem]
  refine go3 m K (recv_at m K c 20 (by decide) 21 (by decide)) ?_
  refine go3 m K (recv_at m K c 21 (by decide) 22 (by decide)) ?_
  refine go3 m K (recv_at m K c 22 (by decide) 23 (by decide)) ?_
  refine go3 m K (recv_at m K c 23 (by decide) 24 (by decide)) ?_
  exact fin3 m K _

theorem part24 (K : Dev nD × Fin 66 → ℕ) (c : Dev nD) (v2 w1 w2 : BitVec 32) (Kt : BitVec 32 → sProp 𝕄) :
    iprop(records m K ∗ owesE c 0 ∗ RecvSt c 24 ∗ RecvDone m c 24 ∗ (∀ r, (owesE c 0 ∗ RecvSt c 27 ∗ RecvDone m c 27) -∗ Kt r))
      ⊢ wp frame (wpE (defs₀ (F := F)) 𝒱₀ (c : Thread nD τ) none) Set.univ (k0_part24 (F := F) xH (Memref.isWhole_whole _) A1 (Memref.isWhole_whole _) xV (Memref.isWhole_whole _) gbuf (Memref.isWhole_whole _) cc0_scratch2 cc0_scratch3 cc0_scratch4 c v2 w1) Kt := by
  simp only [k0_part24_eq_skeleton]; unfold k0_part24_skel
  simp only [semSignalWord, semWaitWord, Prog.lift, Prog.bind_op, Prog.bind_ret, Prog.pure_eq_ret, wp_deviceId]
  simp only [row2_eq, row3_eq, recv_sem]
  refine go3 m K (recv_at m K c 24 (by decide) 25 (by decide)) ?_
  refine go3 m K (recv_at m K c 25 (by decide) 26 (by decide)) ?_
  refine go3 m K (recv_at m K c 26 (by decide) 27 (by decide)) ?_
  exact fin3 m K _

theorem part25 (K : Dev nD × Fin 66 → ℕ) (c : Dev nD) (v2 w1 w2 : BitVec 32) (Kt : PUnit → sProp 𝕄) :
    iprop(records m K ∗ owesE c 0 ∗ RecvSt c 27 ∗ RecvDone m c 27 ∗ (∀ r, (owesE c 0 ∗ RecvSt c 30 ∗ RecvDone m c 30) -∗ Kt r))
      ⊢ wp frame (wpE (defs₀ (F := F)) 𝒱₀ (c : Thread nD τ) none) Set.univ (k0_part25 (F := F) xH (Memref.isWhole_whole _) A1 (Memref.isWhole_whole _) xV (Memref.isWhole_whole _) gbuf (Memref.isWhole_whole _) cc0_scratch2 cc0_scratch3 cc0_scratch4 c v2 w1) Kt := by
  simp only [k0_part25_eq_skeleton]; unfold k0_part25_skel
  simp only [semSignalWord, semWaitWord, Prog.lift, Prog.bind_op, Prog.bind_ret, Prog.pure_eq_ret, wp_deviceId]
  simp only [row2_eq, row3_eq, recv_sem]
  refine go3 m K (recv_at m K c 27 (by decide) 28 (by decide)) ?_
  refine go3 m K (recv_at m K c 28 (by decide) 29 (by decide)) ?_
  refine go3 m K (recv_at m K c 29 (by decide) 30 (by decide)) ?_
  exact fin3 m K _

theorem part27 (K : Dev nD × Fin 66 → ℕ) (c : Dev nD) (v2 w1 w2 : BitVec 32) (Kt : PUnit → sProp 𝕄) :
    iprop(records m K ∗ owesE c 0 ∗ SWaitSt c 4 ∗ SWaitDone m c 4 ∗ (∀ r, (owesE c 0 ∗ SWaitSt c 10 ∗ SWaitDone m c 10) -∗ Kt r))
      ⊢ wp frame (wpE (defs₀ (F := F)) 𝒱₀ (c : Thread nD τ) none) Set.univ (k0_part27 (F := F) xH (Memref.isWhole_whole _) A1 (Memref.isWhole_whole _) xV (Memref.isWhole_whole _) gbuf (Memref.isWhole_whole _) cc0_scratch2 cc0_scratch3 cc0_scratch4 c) Kt := by
  simp only [k0_part27_eq_skeleton]; unfold k0_part27_skel
  simp only [semSignalWord, semWaitWord, Prog.lift, Prog.bind_op, Prog.bind_ret, Prog.pure_eq_ret, wp_deviceId]
  simp only [row2_eq, send_sem]
  refine go3 m K (swait_at m K c 4 (by decide) 5 (by decide)) ?_
  refine go3 m K (swait_at m K c 5 (by decide) 6 (by decide)) ?_
  refine go3 m K (swait_at m K c 6 (by decide) 7 (by decide)) ?_
  refine go3 m K (swait_at m K c 7 (by decide) 8 (by decide)) ?_
  refine go3 m K (swait_at m K c 8 (by decide) 9 (by decide)) ?_
  refine go3 m K (swait_at m K c 9 (by decide) 10 (by decide)) ?_
  exact fin3 m K _

theorem part28 (K : Dev nD × Fin 66 → ℕ) (c : Dev nD) (v2 w1 w2 : BitVec 32) (Kt : PUnit → sProp 𝕄) :
    iprop(records m K ∗ owesE c 0 ∗ SWaitSt c 10 ∗ SWaitDone m c 10 ∗ (∀ r, (owesE c 0 ∗ SWaitSt c 16 ∗ SWaitDone m c 16) -∗ Kt r))
      ⊢ wp frame (wpE (defs₀ (F := F)) 𝒱₀ (c : Thread nD τ) none) Set.univ (k0_part28 (F := F) xH (Memref.isWhole_whole _) A1 (Memref.isWhole_whole _) xV (Memref.isWhole_whole _) gbuf (Memref.isWhole_whole _) cc0_scratch2 cc0_scratch3 cc0_scratch4 c) Kt := by
  simp only [k0_part28_eq_skeleton]; unfold k0_part28_skel
  simp only [semSignalWord, semWaitWord, Prog.lift, Prog.bind_op, Prog.bind_ret, Prog.pure_eq_ret, wp_deviceId]
  simp only [row2_eq, send_sem]
  refine go3 m K (swait_at m K c 10 (by decide) 11 (by decide)) ?_
  refine go3 m K (swait_at m K c 11 (by decide) 12 (by decide)) ?_
  refine go3 m K (swait_at m K c 12 (by decide) 13 (by decide)) ?_
  refine go3 m K (swait_at m K c 13 (by decide) 14 (by decide)) ?_
  refine go3 m K (swait_at m K c 14 (by decide) 15 (by decide)) ?_
  refine go3 m K (swait_at m K c 15 (by decide) 16 (by decide)) ?_
  exact fin3 m K _

theorem part29 (K : Dev nD × Fin 66 → ℕ) (c : Dev nD) (v2 w1 w2 : BitVec 32) (Kt : PUnit → sProp 𝕄) :
    iprop(records m K ∗ owesE c 0 ∗ SWaitSt c 16 ∗ SWaitDone m c 16 ∗ (∀ r, (owesE c 0 ∗ SWaitSt c 22 ∗ SWaitDone m c 22) -∗ Kt r))
      ⊢ wp frame (wpE (defs₀ (F := F)) 𝒱₀ (c : Thread nD τ) none) Set.univ (k0_part29 (F := F) xH (Memref.isWhole_whole _) A1 (Memref.isWhole_whole _) xV (Memref.isWhole_whole _) gbuf (Memref.isWhole_whole _) cc0_scratch2 cc0_scratch3 cc0_scratch4 c) Kt := by
  simp only [k0_part29_eq_skeleton]; unfold k0_part29_skel
  simp only [semSignalWord, semWaitWord, Prog.lift, Prog.bind_op, Prog.bind_ret, Prog.pure_eq_ret, wp_deviceId]
  simp only [row2_eq, send_sem]
  refine go3 m K (swait_at m K c 16 (by decide) 17 (by decide)) ?_
  refine go3 m K (swait_at m K c 17 (by decide) 18 (by decide)) ?_
  refine go3 m K (swait_at m K c 18 (by decide) 19 (by decide)) ?_
  refine go3 m K (swait_at m K c 19 (by decide) 20 (by decide)) ?_
  refine go3 m K (swait_at m K c 20 (by decide) 21 (by decide)) ?_
  refine go3 m K (swait_at m K c 21 (by decide) 22 (by decide)) ?_
  exact fin3 m K _

theorem part30 (K : Dev nD × Fin 66 → ℕ) (c : Dev nD) (v2 w1 w2 : BitVec 32) (Kt : PUnit → sProp 𝕄) :
    iprop(records m K ∗ owesE c 0 ∗ SWaitSt c 22 ∗ SWaitDone m c 22 ∗ (∀ r, (owesE c 0 ∗ SWaitSt c 28 ∗ SWaitDone m c 28) -∗ Kt r))
      ⊢ wp frame (wpE (defs₀ (F := F)) 𝒱₀ (c : Thread nD τ) none) Set.univ (k0_part30 (F := F) xH (Memref.isWhole_whole _) A1 (Memref.isWhole_whole _) xV (Memref.isWhole_whole _) gbuf (Memref.isWhole_whole _) cc0_scratch2 cc0_scratch3 cc0_scratch4 c) Kt := by
  simp only [k0_part30_eq_skeleton]; unfold k0_part30_skel
  simp only [semSignalWord, semWaitWord, Prog.lift, Prog.bind_op, Prog.bind_ret, Prog.pure_eq_ret, wp_deviceId]
  simp only [row2_eq, send_sem]
  refine go3 m K (swait_at m K c 22 (by decide) 23 (by decide)) ?_
  refine go3 m K (swait_at m K c 23 (by decide) 24 (by decide)) ?_
  refine go3 m K (swait_at m K c 24 (by decide) 25 (by decide)) ?_
  refine go3 m K (swait_at m K c 25 (by decide) 26 (by decide)) ?_
  refine go3 m K (swait_at m K c 26 (by decide) 27 (by decide)) ?_
  refine go3 m K (swait_at m K c 27 (by decide) 28 (by decide)) ?_
  exact fin3 m K _

end Cert.KernelIdeal.DistSum

end
-- ==== Proof.Proto.lean ====
import proofs.«901078_g7700000000001079_dist_sum_ax0_shard0_i_m1536_n768_v7x_i32_f32_1_alg».proof.Proof.State

/-! What a device holds when it enters the kernel and when it leaves it. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ownPos (c : Dev nD) : sProp 𝕄 :=
  iprop(atPos ER (barC c) 0 ∅ 0 ∗ atPos ER (cpyC c) 0 ∅ 0 ∗ atPos ER (sendC c 0) 0 ∅ 0 ∗ atPos ER (recvC c 0) 0 ∅ 0
    ∗ SendPos c ∗ bigSep (Finset.Ioc 0 31) fun d => atPos ER (recvC c (off d)) 0 ∅ 0)

def payToks (c : Dev nD) : sProp 𝕄 :=
  iprop((bigSep (Finset.Ioc 0 31) fun d => dutyTok ER (barC (peer c (off d))) 0 (c : Fin 32))
    ∗ (bigSep (Finset.Ioc 0 31) fun d => dutyTok ER (recvC (peer c (off d)) (off d)) 0 0)
    ∗ (bigSep (Finset.Ioc 0 31) fun d => dutyTok ER (sendC c (off d)) 0 0)
    ∗ dutyTok ER (cpyC c) 0 0)

def ghost (K : Dev nD × Fin 66 → ℕ) (c : Dev nD) : sProp 𝕄 := iprop(records m K ∗ ownPos c ∗ payToks c)

def launchCreds (c : Dev nD) : sProp 𝕄 :=
  iprop(cred (tallyAt (barC c) () 31) ∗ bigSep (Finset.Ioc 0 31) fun d => cred (tallyAt (recvC c (off d)) () N))

def xPts (c : Dev nD) : sProp 𝕄 := ((c : Thread nD τ).loc main_arg0) ↦{fullShare} m ((c : Thread nD τ).loc main_arg0)

def start (c : Dev nD) : sProp 𝕄 :=
  iprop((∃ K, ghost m K c) ∗ launchCreds c ∗ levAts L lv ∗ xPts m c)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

abbrev osem : Fin 65 → SemLoc sig := fun k => .dma ⟨k.val + 1, by have := k.isLt; show k.val + 1 < 66; omega⟩

def Φ₀ (c : Dev nD) : sProp 𝕄 := iprop(start m c ∗ scratch c)
def Φ₁ (c : Dev nD) : sProp 𝕄 :=
  iprop(xPts m c ∗ scratch c ∗ bigSep Finset.univ fun k : Fin 65 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outVal m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (outVal m))

end Cert.KernelIdeal.DistSum

end
-- ==== Proof.Credit.lean ====
import proofs.«901078_g7700000000001079_dist_sum_ax0_shard0_i_m1536_n768_v7x_i32_f32_1_alg».proof.Proof.Proto
import Idealize.ShloMosaic.Lib.Pipeline.Launch

/-! Every wait is at a level below what the waiter still owes; the credit dealt at launch. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem ln_L_of_ne (g : GSem nD τ sig) (h : g.1.2 ≠ .tc) : L g = ∅ := if_neg h
omit [FloatOps F] in
theorem ln_L_tc (c : Dev nD) (sm : SemLoc sig) : L ((c : Thread nD τ), sm) = {()} := if_pos rfl

omit [FloatOps F] in
theorem ln_owed_pos {c : Dev nD} {n k : ℕ} {g : GSem nD τ sig} {u : Unit} (h : 0 < (owedT c n + owedS c k) g u) :
    (∃ d ∈ Finset.Ioc n 31, g = recvC (peer c (off d)) (off d)) ∨ (∃ d ∈ Finset.Ioc k 31, g = barC (peer c (off d))) := by
  rcases Pipeline.add_pos_cases h with h | h
  · left
    unfold owedT at h
    obtain ⟨d, hd, hp⟩ := Pipeline.sum_pos_exists h
    exact ⟨d, hd, (Pipeline.tallyAt_pos hp).1⟩
  · right
    unfold owedS at h
    obtain ⟨d, hd, hp⟩ := Pipeline.sum_pos_exists h
    exact ⟨d, hd, (Pipeline.tallyAt_pos hp).1⟩

omit [FloatOps F] in
theorem ln_isRecvIx_off {n d : ℕ} (hd : d ∈ Finset.Ioc n 31) : isRecvIx (recvSem (off d)) := by
  have h := Finset.mem_Ioc.mp hd
  unfold isRecvIx
  show 35 ≤ 34 + d % 32
  omega

omit [FloatOps F] in
theorem ln_mayWait_low (c : Dev nD) (q : DmaSem sig) (hq : ¬ isRecvIx q) (n k : ℕ) :
    (levAts L lv : sProp 𝕄) ⊢ MayWait (c : Thread nD τ) (.dma q) () (owedT c n + owedS c k) :=
  MayOwe.of_cut (L := L) (lev := lv) 0
    (fun p hp => by rw [Finset.mem_singleton.mp hp, ln_L_tc]; exact Finset.mem_singleton_self _)
    (fun g u hg => by
      rcases ln_owed_pos hg with ⟨d, _, rfl⟩ | ⟨d, _, rfl⟩ <;> (rw [ln_L_tc]; exact Finset.mem_singleton_self _))
    (fun p hp => by
      rw [Finset.mem_singleton.mp hp]
      show (if isRecvIx q then 2 else 0 : ℕ) ≤ 0
      rw [if_neg hq])
    (fun g u hg => by
      rcases ln_owed_pos hg with ⟨d, hd, rfl⟩ | ⟨d, hd, rfl⟩
      · show 0 < (if isRecvIx (recvSem (off d)) then 2 else 0 : ℕ)
        rw [if_pos (ln_isRecvIx_off hd)]; decide
      · show 0 < 1
        decide)

omit [FloatOps F] in
theorem ln_owedT_pos {c : Dev nD} {n : ℕ} {g : GSem nD τ sig} {u : Unit} (h : 0 < owedT c n g u) :
    ∃ d ∈ Finset.Ioc n 31, g = recvC (peer c (off d)) (off d) := by
  unfold owedT at h
  obtain ⟨d, hd, hp⟩ := Pipeline.sum_pos_exists h
  exact ⟨d, hd, (Pipeline.tallyAt_pos hp).1⟩

omit [FloatOps F] in
theorem ln_mayWait_bar (c : Dev nD) (n : ℕ) :
    (levAts L lv : sProp 𝕄) ⊢ MayWait (c : Thread nD τ) (.reg barS) () (owedT c n) :=
  MayOwe.of_cut (L := L) (lev := lv) 1
    (fun p hp => by rw [Finset.mem_singleton.mp hp, ln_L_tc]; exact Finset.mem_singleton_self _)
    (fun g u hg => by obtain ⟨d, _, rfl⟩ := ln_owedT_pos hg; rw [ln_L_tc]; exact Finset.mem_singleton_self _)
    (fun p hp => by
      rw [Finset.mem_singleton.mp hp]
      show (1 : ℕ) ≤ 1
      exact le_refl _)
    (fun g u hg => by
      obtain ⟨d, hd, rfl⟩ := ln_owedT_pos hg
      show 1 < (if isRecvIx (recvSem (off d)) then 2 else 0 : ℕ)
      rw [if_pos (ln_isRecvIx_off hd)]; decide)

omit [FloatOps F] in
theorem ln_sum_units (g : GSem nD τ sig) (k : ℕ) :
    (∑ _e ∈ Finset.Ioc 0 k, (tallyAt g () 1 : CellTallies nD τ sig Unit)) = tallyAt g () k := by
  induction k with
  | zero => rw [Finset.Ioc_self, Finset.sum_empty, tallyAt_zero]
  | succ k ih =>
    have hI : Finset.Ioc 0 (k + 1) = insert (k + 1) (Finset.Ioc 0 k) := by
      ext d; simp only [Finset.mem_Ioc, Finset.mem_insert]; omega
    rw [hI, Finset.sum_insert (by simp), ih, tallyAt_add, Nat.add_comm]

omit [FloatOps F] in
theorem ln_creds (c : Dev nD) : (Pipeline.launchCred O₀ c : sProp 𝕄) ⊢ launchCreds c := by
  have e : (O₀ : Dev nD → CellTallies nD τ sig Unit)
      = fun d => (∑ e ∈ Finset.Ioc 0 31, tallyAt (recvC (peer d (off e)) (off e)) () N)
          + ∑ e ∈ Finset.Ioc 0 31, tallyAt (barC (peer d (off e))) () 1 := rfl
  have hT : (bigSep (Finset.Ioc 0 31) fun e => Pipeline.launchCred (fun d : Dev nD => (tallyAt (recvC (peer d (off e)) (off e)) () N : CellTallies nD τ sig Unit)) c : sProp 𝕄)
      ⊢ bigSep (Finset.Ioc 0 31) fun e => cred (tallyAt (recvC c (off e)) () N) :=
    bigSep_mono fun e _ => Pipeline.launchCred_tallyAt (.dma (recvSem (off e))) (fun d => peer d (off e)) (fun p => srcOf p (off e))
      (fun p => peer_srcOf p (off e)) (fun d => srcOf_peer d (off e)) () N c
  have hsum : (bigSep (Finset.Ioc 0 31) fun _e : ℕ => (cred (tallyAt (barC c) () 1 : CellTallies nD τ sig Unit) : sProp 𝕄))
      = cred (tallyAt (barC c) () 31) := by
    rw [← Pipeline.cred_finsetSum, ln_sum_units]
  have hS : (bigSep (Finset.Ioc 0 31) fun e => Pipeline.launchCred (fun d : Dev nD => (tallyAt (barC (peer d (off e))) () 1 : CellTallies nD τ sig Unit)) c : sProp 𝕄)
      ⊢ cred (tallyAt (barC c) () 31) :=
    (bigSep_mono fun e _ => Pipeline.launchCred_tallyAt (.reg barS) (fun d => peer d (off e)) (fun p => srcOf p (off e))
      (fun p => peer_srcOf p (off e)) (fun d => srcOf_peer d (off e)) () 1 c).trans
      (Entails.of_eq hsum)
  rw [e, Pipeline.launchCred_add, Pipeline.launchCred_sum, Pipeline.launchCred_sum]
  unfold launchCreds
  iintro ⟨HT, HS⟩
  isplitl [HS]
  · iapply hS; iexact HS
  · iapply hT; iexact HT

end Cert.KernelIdeal.DistSum

end
-- ==== Proof.StepsB.lean ====
import proofs.«901078_g7700000000001079_dist_sum_ax0_shard0_i_m1536_n768_v7x_i32_f32_1_alg».proof.Proof.Proto
import proofs.«901078_g7700000000001079_dist_sum_ax0_shard0_i_m1536_n768_v7x_i32_f32_1_alg».proof.Proof.Rows
import proofs.«901078_g7700000000001079_dist_sum_ax0_shard0_i_m1536_n768_v7x_i32_f32_1_alg».proof.Proof.Credit

/-! The local copy of the block, its wait, and the wait at the barrier. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem sb_duties_bar : (Rd (F := F) m).duties (barC c) 0 = Finset.univ.erase (c : Fin 32) := by
  show (if (0 : ℕ) = 0 then dutiesOf (barC c) else ∅) = _
  rw [if_pos rfl]
  unfold dutiesOf
  rw [if_pos rfl]
  exact if_pos rfl

theorem sb_duties_cpy : (Rd (F := F) m).duties (cpyC c) 0 = {0} := by
  show (if (0 : ℕ) = 0 then dutiesOf (cpyC c) else ∅) = _
  rw [if_pos rfl]
  unfold dutiesOf
  rw [if_pos rfl]
  exact if_pos (Or.inl rfl)

theorem sb_amount_bar (r : ℕ) (p : Fin 32) : (Rd (F := F) m).amount (barC c) r p = 1 := rfl
theorem sb_amount_cpy (r : ℕ) (p : Fin 32) : (Rd (F := F) m).amount (cpyC c) r p = NX := by
  show (if (cpySem : DmaSem sig) = cpySem then NX else N) = NX
  exact if_pos rfl

theorem sb_expect_bar : (Rd (F := F) m).expect (barC c) 0 = 31 := by
  rw [Schedule.expect]
  show (∑ d ∈ (Rd (F := F) m).duties (barC c) 0, (Rd (F := F) m).amount (barC c) 0 d) = 31
  rw [sb_duties_bar m c, Finset.sum_congr rfl fun p _ => sb_amount_bar m c 0 p, Finset.sum_const, smul_eq_mul,
    Finset.card_erase_of_mem (Finset.mem_univ _), Finset.card_univ, Fintype.card_fin]
theorem sb_sum_cpy : (∑ d ∈ (Rd (F := F) m).duties (cpyC c) 0, (Rd (F := F) m).amount (cpyC c) 0 d) = NX := by
  rw [sb_duties_cpy m c, Finset.sum_singleton]
  exact sb_amount_cpy m c 0 0
theorem sb_expect_cpy : (Rd (F := F) m).expect (cpyC c) 0 = NX := by
  rw [Schedule.expect]
  exact sb_sum_cpy m c

theorem sb_payload_cpy : (Rd (F := F) m).payload (cpyC c) 0 0 = cpyPay m c := by
  show (if (cpySem : DmaSem sig) = cpySem then cpyPay m c
    else if isRecvIx (cpySem : DmaSem sig) then recvPay m c (recvOff cpySem) else sendPay m c (sendOff cpySem)) = cpyPay m c
  exact if_pos rfl

theorem sb_rest_cpy :
    bigSep ((Rd (F := F) m).duties (cpyC c) 0 \ ∅) (fun p => (Rd (F := F) m).payload (cpyC c) 0 p) = cpyPay m c := by
  rw [Finset.sdiff_empty, sb_duties_cpy, bigSep_singleton, sb_payload_cpy]

theorem sb_rest_bar :
    bigSep ((Rd (F := F) m).duties (barC c) 0 \ ∅) (fun p => (Rd (F := F) m).payload (barC c) 0 p)
      = bigSep (Finset.Ioc 0 31) fun d => (iprop(∃ f, rowPts (peer c (off d)) c fullShare f) : sProp 𝕄) := by
  classical
  have himg : (Finset.univ.erase (c : Fin 32)) = (Finset.Ioc 0 31).image fun d : ℕ => (peer c (off d) : Fin 32) := by
    ext p
    simp only [Finset.mem_erase, Finset.mem_univ, and_true, Finset.mem_image, Finset.mem_Ioc]
    constructor
    · intro hp
      obtain ⟨d, h0, h1, e⟩ := row_peer_surj c p hp
      exact ⟨d, ⟨h0, h1⟩, e⟩
    · rintro ⟨d, ⟨h0, h1⟩, rfl⟩
      exact row_peer_ne c d h0 h1
  rw [Finset.sdiff_empty, sb_duties_bar, himg, bigSep_image_of_injOn (fun d hd d' hd' e => by
    have h := Finset.mem_Ioc.mp (Finset.mem_coe.mp hd)
    have h' := Finset.mem_Ioc.mp (Finset.mem_coe.mp hd')
    exact row_peer_inj c d d' h.1 h.2 h'.1 h'.2 e)]
  rfl

end Tables

theorem sb_inv_at (K : Dev nD × Fin 66 → ℕ) (ck : Dev nD × Fin 66) :
    (bigSep Finset.univ fun ck : Dev nD × Fin 66 => (cellInv ER (Rd m) (K ck) (kcell ck) : sProp 𝕄)) ⊢ cellInv ER (Rd m) (K ck) (kcell ck) :=
  bigSep_elim (Finset.mem_univ ck)
omit [FloatOps F] in
theorem sb_reached_at (ck : Dev nD × Fin 66) :
    (bigSep Finset.univ fun ck : Dev nD × Fin 66 => (reached ER (kcell ck) 0 : sProp 𝕄)) ⊢ reached ER (kcell ck) 0 :=
  bigSep_elim (Finset.mem_univ ck)

theorem sb_inv_bar (K : Dev nD × Fin 66 → ℕ) (c : Dev nD) : records m K ⊢ cellInv ER (Rd m) (K (c, 0)) (barC c) := by
  show records m K ⊢ cellInv ER (Rd m) (K (c, 0)) (kcell (c, 0))
  unfold records
  iintro ⟨#HI, -⟩
  iapply (sb_inv_at m K (c, 0))
  iexact HI
theorem sb_inv_cpy (K : Dev nD × Fin 66 → ℕ) (c : Dev nD) : records m K ⊢ cellInv ER (Rd m) (K (c, 1)) (cpyC c) := by
  show records m K ⊢ cellInv ER (Rd m) (K (c, 1)) (kcell (c, 1))
  unfold records
  iintro ⟨#HI, -⟩
  iapply (sb_inv_at m K (c, 1))
  iexact HI
theorem sb_reached_cpy (K : Dev nD × Fin 66 → ℕ) (c : Dev nD) : records m K ⊢ reached ER (cpyC c) 0 := by
  show records m K ⊢ reached ER (kcell (c, 1)) 0
  unfold records
  iintro ⟨-, #HR⟩
  iapply (sb_reached_at (F := F) (c, 1))
  iexact HR

theorem bar_wait (K : Dev nD × Fin 66 → ℕ) (c : Dev nD)
    {α : Type} {Q : α → sProp 𝕄} {k : PUnit → Prog (TpuEff nD τ sig (Elt F) Λ₀ .tc) α} :
    iprop(records m K ∗ levAts L lv ∗ owesE c (owedT c 0) ∗ cred (tallyAt (barC c) () 31) ∗ atPos ER (barC c) 0 ∅ 0)
      ⊢ iprop(((owesE c (owedT c 0) ∗ atPos ER (barC c) 1 ∅ 0
            ∗ bigSep (Finset.Ioc 0 31) (fun d => iprop(∃ f, rowPts (peer c (off d)) c fullShare f)))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (31#32).toNat) k) Q) := by
  unfold owesE
  iintro ⟨#HR, #Hlev, ⟨%W, HO⟩, Hc, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := owedT c 0) (W := W) (R := 0) (m := 0) (T := ∅)
      (by rw [sb_expect_bar]; decide)) $$ [HO Hc Hat]
  · isplitr; · iapply (sb_inv_bar m K c); iexact HR
    isplitl [Hc]; · iexact Hc
    isplitl [HO]; · iexact HO
    isplitr; · iapply (ln_mayWait_bar (F := F) c 0); iexact Hlev
    iexact Hat
  iintro ⟨HO, Hat, -, Hpay⟩
  iapply Hk
  isplitl [HO]; · iexists _; iexact HO
  isplitl [Hat]; · iexact Hat
  iapply (Entails.of_eq (sb_rest_bar m c)); iexact Hpay

omit [FloatOps F] in
theorem sb_xH_eq (c : Dev nD) (g : Buf (Elt F) ((c : Thread nD τ).loc main_arg0)) :
    ((xH : Memref sig .tc .hbm S1536x768 .f32).view.loc (c : Thread nD τ) ↦[(xH : Memref sig .tc .hbm S1536x768 .f32).view.set]{fullShare} g : sProp 𝕄)
      = (((c : Thread nD τ).loc main_arg0) ↦{fullShare} g) := by
  rw [View.set_whole]
omit [FloatOps F] in
theorem sb_xV_eq (c : Dev nD) (g : Buf (Elt F) ((c : Thread nD τ).loc cc0_scratch0)) :
    ((xV : Memref sig .tc .vmem S1536x768 .f32).view.loc (c : Thread nD τ) ↦[(xV : Memref sig .tc .vmem S1536x768 .f32).view.set]{fullShare} g : sProp 𝕄)
      = (((c : Thread nD τ).loc cc0_scratch0) ↦{fullShare} g) := by
  rw [View.set_whole]

theorem sb_cpy_pay (c : Dev nD) (f : Buf (Elt F) ((c : Thread nD τ).loc cc0_scratch0)) :
    iprop(((xV : Memref sig .tc .vmem S1536x768 .f32).view.loc (c : Thread nD τ) ↦[(xV : Memref sig .tc .vmem S1536x768 .f32).view.set]{fullShare}
          ((xV : Memref sig .tc .vmem S1536x768 .f32).view.write (Elt F) f
            ((xH : Memref sig .tc .hbm S1536x768 .f32).view.read (Elt F) (m ((c : Thread nD τ).loc main_arg0))) Finset.univ))
        ∗ ((xH : Memref sig .tc .hbm S1536x768 .f32).view.loc (c : Thread nD τ) ↦[(xH : Memref sig .tc .hbm S1536x768 .f32).view.set]{fullShare} m ((c : Thread nD τ).loc main_arg0)))
      ⊢ (Rd (F := F) m).payload (cpyC c) 0 0 := by
  have e : ∀ (a b w : Buf (Elt F) ((c : Thread nD τ).loc cc0_scratch0)),
      (xV : Memref sig .tc .vmem S1536x768 .f32).view.write (Elt F) a w Finset.univ
        = (xV : Memref sig .tc .vmem S1536x768 .f32).view.write (Elt F) b w Finset.univ := fun a b w => by
    show (View.whole cc0_scratch0).write (Elt F) a w Finset.univ = (View.whole cc0_scratch0).write (Elt F) b w Finset.univ
    rw [View.write_whole_univ, View.write_whole_univ]
  rw [sb_payload_cpy]
  unfold cpyPay xblk
  rw [e f (m ((c : Thread nD τ).loc main_arg0))]

theorem cpy_step (K : Dev nD × Fin 66 → ℕ) (c : Dev nD) (f : Buf (Elt F) ((c : Thread nD τ).loc cc0_scratch0))
    {hsrc : (xH : Memref sig .tc .hbm S1536x768 .f32).view.WordExact} {hdst : (xV : Memref sig .tc .vmem S1536x768 .f32).view.WordExact}
    {hsem : DmaTarget.Typed .hbm (.dma cpySem) (DmaTarget.here xV : DmaTarget nD τ sig (Proc.tc : Proc τ) .vmem S1536x768 .f32)}
    {α : Type} {Q : α → sProp 𝕄} {k : PUnit → Prog (TpuEff nD τ sig (Elt F) Λ₀ .tc) α} :
    iprop(records m K ∗ (((c : Thread nD τ).loc main_arg0) ↦{fullShare} m ((c : Thread nD τ).loc main_arg0))
        ∗ (((c : Thread nD τ).loc cc0_scratch0) ↦{fullShare} f) ∗ dutyTok ER (cpyC c) 0 0)
      ⊢ iprop((cred (tallyAt (cpyC c) () NX) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma xH (.here xV) (.dma cpySem) hsrc hdst hsem) k) Q) := by
  iintro ⟨#HR, Hx, Hs, Htok⟩
  ihave Hx' := (Entails.of_eq (sb_xH_eq (F := F) c _).symm) $$ Hx
  ihave Hs' := (Entails.of_eq (sb_xV_eq (F := F) c _).symm) $$ Hs
  iapply (Rounds.wp_copy_pointsTo 𝒱₀ ER (Rd m) (c : Thread nD τ) none (src := xH) (dst := xV) (sem := .dma cpySem)
      (q := fullShare) (fs := m ((c : Thread nD τ).loc main_arg0)) (fd := f) (r := 0) (d := 0) (κ := K (c, 1))
      (by rw [sb_duties_cpy]; exact Finset.mem_singleton_self _) () NX rfl (sb_amount_cpy m c 0 0) (sb_cpy_pay m c f))
  isplitr; · iapply (sb_inv_cpy m K c); iexact HR
  isplitl [Hx']; · iexact Hx'
  isplitl [Hs']; · iexact Hs'
  isplitl [Htok]; · iexact Htok
  iapply (sb_reached_cpy m K c); iexact HR

omit [FloatOps F] in
theorem sb_not_recv_cpy : ¬ isRecvIx (cpySem : DmaSem sig) := by unfold isRecvIx cpySem; decide

theorem cpy_wait (K : Dev nD × Fin 66 → ℕ) (c : Dev nD) (n k' : ℕ)
    {hs : (xH : Memref sig .tc .hbm S1536x768 .f32).view.WordExact} {hd : (xV : Memref sig .tc .vmem S1536x768 .f32).view.WordExact}
    {α : Type} {Q : α → sProp 𝕄} {k : PUnit → Prog (TpuEff nD τ sig (Elt F) Λ₀ .tc) α} :
    iprop(records m K ∗ levAts L lv ∗ owesE c (owedT c n + owedS c k') ∗ cred (tallyAt (cpyC c) () NX) ∗ atPos ER (cpyC c) 0 ∅ 0)
      ⊢ iprop(((owesE c (owedT c n + owedS c k') ∗ atPos ER (cpyC c) 1 ∅ 0 ∗ cpyPay m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cpySem xH xV hs hd) k) Q) := by
  unfold owesE
  iintro ⟨#HR, #Hlev, ⟨%W, HO⟩, Hc, Hat⟩ Hk
  iapply (Rounds.wp_wait_rest_token 𝒱₀ ER (Rd m) (c : Thread nD τ) none (κ := K (c, 1))
      (wpE_waitDma2_eq 𝒱₀ (c : Thread nD τ) none Set.univ) (Set.mem_univ _) () (O := owedT c n + owedS c k') (W := W) (R := 0) (m := 0) (T := ∅)
      ((Nat.zero_add _).trans (sb_expect_cpy m c).symm)) $$ [HO Hc Hat]
  · isplitr; · iapply (sb_inv_cpy m K c); iexact HR
    isplitl [Hc]; · iexact Hc
    isplitl [HO]; · iexact HO
    isplitr; · iapply (ln_mayWait_low (F := F) c cpySem sb_not_recv_cpy n k'); iexact Hlev
    iexact Hat
  iintro ⟨HO, Hat, -, Hpay⟩
  iapply Hk
  isplitl [HO]; · iexists _; iexact HO
  isplitl [Hat]; · iexact Hat
  iapply (Entails.of_eq (sb_rest_cpy m c)); iexact Hpay

end Cert.KernelIdeal.DistSum

end
-- ==== Proof.RowAccess.lean ====
import proofs.«901078_g7700000000001079_dist_sum_ax0_shard0_i_m1536_n768_v7x_i32_f32_1_alg».proof.Proof.Cells
import proofs.«901078_g7700000000001079_dist_sum_ax0_shard0_i_m1536_n768_v7x_i32_f32_1_alg».proof.Proof.Rows
import proofs.«901078_g7700000000001079_dist_sum_ax0_shard0_i_m1536_n768_v7x_i32_f32_1_alg».proof.Proof.RingFacts

/-! Reading and writing the device's own row through the whole gather buffer. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ra_row_set (c : Dev nD) (h : ∀ a, rowOff c a + (![1, 768] : Fin 2 → Nat) a ≤ S32x768.size a) :
    (rowM c).view.set = (Rect.unit (s := S32x768) (rowOff c) ![1, 768] h).set :=
  View.set_slice_whole _ _

theorem ra_load_eq (c : Dev nD) (h : ∀ a, rowOff c a + (![1, 768] : Fin 2 → Nat) a ≤ S32x768.size a) :
    gbuf.view.setOn (Rect.unit (s := S32x768) (rowOff c) ![1, 768] h).toLoadRect.set = (rowM c).view.set := by
  rw [ra_row_set c h]
  show Finset.map (Function.Embedding.refl _) _ = _
  exact Finset.map_refl

theorem ra_load_sub (c : Dev nD) (h : ∀ a, rowOff c a + (![1, 768] : Fin 2 → Nat) a ≤ S32x768.size a) :
    gbuf.view.setOn (Rect.unit (s := S32x768) (rowOff c) ![1, 768] h).toLoadRect.set ⊆ (rowM c).view.set := by
  rw [ra_load_eq c h]

theorem ra_store_sub (c : Dev nD) (h : ∀ a, rowOff c a + (![1, 768] : Fin 2 → Nat) a ≤ S32x768.size a) :
    (gbuf.access (Rect.unit (s := S32x768) (rowOff c) ![1, 768] h)).setOn Finset.univ ⊆ (rowM c).view.set :=
  Finset.Subset.refl _

/-- A load of the device's own row, named at offsets equal to the row's, needs that row only. -/
theorem ra_wp_load_of {defs : Defs nD τ sig (Elt F) Λ₀} (𝒱 : Variants) (bd : Option 𝒱.V) {Γ : PendingWaitsCtx sig Unit} (E : Set ℕ)
    {α : Type} {Q : α → sProp 𝕄}
    (c : Dev nD) {off : Fin 2 → Nat} (hoff : off = rowOff c) (h : ∀ a, off a + (![1, 768] : Fin 2 → Nat) a ≤ S32x768.size a)
    {hl : gbuf.view.LoadsAt (Rect.unit (s := S32x768) off ![1, 768] h).toLoadRect}
    {k : ((Rect.unit (s := S32x768) off ![1, 768] h).toLoadRect.shape.Idx → Elt F .f32) → Prog (TpuEff nD τ sig (Elt F) Λ₀ .tc) α}
    (q : PosShare TreeShare) (f : Buf (Elt F) ((c : Thread nD τ).loc cc0_scratch1)) :
    (rowPts c c q f : sProp 𝕄)
      ⊢ iprop((rowPts c c q f -∗ wp frame (wpE' defs 𝒱 (c : Thread nD τ) bd Γ) E
          (k (gbuf.view.readAt (Elt F) (Rect.unit (s := S32x768) off ![1, 768] h).toLoadRect f)) Q)
        -∗ wp frame (wpE' defs 𝒱 (c : Thread nD τ) bd Γ) E
          (.op (.load gbuf (Rect.unit (s := S32x768) off ![1, 768] h).toLoadRect hl) k) Q) := by
  subst hoff
  unfold rowPts
  exact wp_load (cs := .vmem) (m := gbuf) (r := (Rect.unit (s := S32x768) (rowOff c) ![1, 768] h).toLoadRect) (hl := hl) (k := k)
    (S := (rowM c).view.set) (q := q) (f := f) (defs := defs) (Γ := Γ) (Q := Q) 𝒱 (c : Thread nD τ) bd E (ra_load_sub c h)

/-- The store of the block's column sums into the device's own row leaves that row holding them. -/
theorem ra_wp_store_sums_of {defs : Defs nD τ sig (Elt F) Λ₀} (𝒱 : Variants) (bd : Option 𝒱.V) {Γ : PendingWaitsCtx sig Unit} (E : Set ℕ)
    {α : Type} {Q : α → sProp 𝕄}
    (m : (ℓ : Loc nD τ sig) → Buf (Elt F) ℓ)
    (c : Dev nD) {off : Fin 2 → Nat} (hoff : off = rowOff c) (h : ∀ a, off a + (![1, 768] : Fin 2 → Nat) a ≤ S32x768.size a)
    {hx : (gbuf.access (Rect.unit (s := S32x768) off ![1, 768] h)).Stores Finset.univ}
    {hm : (Finset.univ : Finset (Rect.unit (s := S32x768) off ![1, 768] h).shape.Idx) = Finset.univ
      ∨ ∀ a, (Rect.unit (s := S32x768) off ![1, 768] h).stride a = 1}
    {k : PUnit → Prog (TpuEff nD τ sig (Elt F) Λ₀ .tc) α}
    (f : Buf (Elt F) ((c : Thread nD τ).loc cc0_scratch1)) :
    (rowPts c c fullShare f : sProp 𝕄)
      ⊢ iprop((rowPts c c fullShare (rowsOf m c c) -∗ wp frame (wpE' defs 𝒱 (c : Thread nD τ) bd Γ) E (k ⟨⟩) Q)
        -∗ wp frame (wpE' defs 𝒱 (c : Thread nD τ) bd Γ) E
          (.op (.store gbuf (Rect.unit (s := S32x768) off ![1, 768] h) (k0_pay1 (xblk m c)) Finset.univ hx hm) k) Q) := by
  subst hoff
  have e : (rowPts c c fullShare ((gbuf.access (Rect.unit (s := S32x768) (rowOff c) ![1, 768] h)).write (Elt F) f
      (k0_pay1 (xblk m c)) Finset.univ) : sProp 𝕄) = rowPts c c fullShare (rowsOf m c c) := stored_row m c fullShare f
  rw [← e]
  unfold rowPts
  exact wp_store (cs := .vmem) (m := gbuf) (r := Rect.unit (s := S32x768) (rowOff c) ![1, 768] h) (w := k0_pay1 (xblk m c)) (Mk := Finset.univ)
    (hx := hx) (hm := hm) (k := k) (S := (rowM c).view.set) (f := f) (defs := defs) (Γ := Γ) (Q := Q)
    𝒱 (c : Thread nD τ) bd E (ra_store_sub c h)

end Cert.KernelIdeal.DistSum

end
-- ==== Proof.Part6.lean ====
import proofs.«901078_g7700000000001079_dist_sum_ax0_shard0_i_m1536_n768_v7x_i32_f32_1_alg».proof.Proof.Steps
import proofs.«901078_g7700000000001079_dist_sum_ax0_shard0_i_m1536_n768_v7x_i32_f32_1_alg».proof.Proof.StepsB
import proofs.«901078_g7700000000001079_dist_sum_ax0_shard0_i_m1536_n768_v7x_i32_f32_1_alg».proof.Proof.Proto
import proofs.«901078_g7700000000001079_dist_sum_ax0_shard0_i_m1536_n768_v7x_i32_f32_1_alg».proof.Proof.RingFacts
import proofs.«901078_g7700000000001079_dist_sum_ax0_shard0_i_m1536_n768_v7x_i32_f32_1_alg».proof.Proof.Rows
import proofs.«901078_g7700000000001079_dist_sum_ax0_shard0_i_m1536_n768_v7x_i32_f32_1_alg».proof.Proof.RowAccess

/-! The part of the body that joins the signals to the copies: the last signals, the block copied in and summed by columns into the device's own row, the wait at the barrier, the first copy. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p6_owedS_31 (c : Dev nD) : owedS c 31 = 0 := by
  unfold owedS; rw [Finset.Ioc_self, Finset.sum_empty]

theorem p6_owes31 (c : Dev nD) : (owesE c (owedT c 0 + owedS c 31) : sProp 𝕄) = owesE c (owedT c 0) := by
  rw [p6_owedS_31, add_zero]

theorem p6_SigSt_31 (c : Dev nD) : (SigSt c 31 : sProp 𝕄) = (BI.emp : sProp 𝕄) := by
  unfold SigSt; rw [Finset.Ioc_self, bigSep_empty]

theorem p6_SentCr_0 (c : Dev nD) : (SentCr c 0 : sProp 𝕄) = (BI.emp : sProp 𝕄) := by
  unfold SentCr; rw [Finset.Ioc_self, bigSep_empty]

theorem p6_xPts (c : Dev nD) :
    xPts m c = (((c : Thread nD τ).loc main_arg0) ↦{fullShare} m ((c : Thread nD τ).loc main_arg0) : sProp 𝕄) := rfl

theorem p6_cpyPay (c : Dev nD) :
    cpyPay m c = iprop(((c : Thread nD τ).loc cc0_scratch0 ↦{fullShare} (xblk m c : Buf (Elt F) ((c : Thread nD τ).loc cc0_scratch0))) ∗ xPts m c) := by
  have e1 : (xV : Memref sig .tc .vmem S1536x768 .f32).view.set = Finset.univ := View.set_whole cc0_scratch0
  have e2 : (xH : Memref sig .tc .hbm S1536x768 .f32).view.set = Finset.univ := View.set_whole main_arg0
  have e3 : (xV : Memref sig .tc .vmem S1536x768 .f32).view.write (Elt F) (m ((c : Thread nD τ).loc main_arg0)) (xblk m c) Finset.univ
      = xblk m c := View.write_whole_univ cc0_scratch0 _ _
  unfold cpyPay xPts
  rw [e1, e2, e3]

theorem p6_SendSt_0 (c : Dev nD) :
    SendSt m c 0 = iprop((bigSep (Finset.Ioc 0 31) fun d => dutyTok ER (sendC c (off d)) 0 0)
      ∗ (bigSep (Finset.Ioc 0 31) fun d => dutyTok ER (recvC (peer c (off d)) (off d)) 0 0)
      ∗ (bigSep (Finset.Ioc 0 31) fun d => rowPts c c (shareOf (off d).val) (rowsOf m c c))
      ∗ bigSep (Finset.Ioc 0 31) fun d => iprop(∃ f, rowPts (peer c (off d)) c fullShare f)) := by
  unfold SendSt
  rw [bigSep_sep', bigSep_sep', bigSep_sep']

theorem p6_load_x (c : Dev nD) (off0 : Fin 2 → ℕ) (h0 : off0 = fun _ => 0)
    (inb0 : ∀ a, off0 a + (![1536, 768] : Fin 2 → ℕ) a ≤ S1536x768.size a)
    {α : Type} {Q : α → sProp 𝕄}
    {hl : (xV : Memref sig .tc .vmem S1536x768 .f32).view.LoadsAt (Rect.unit (s := S1536x768) off0 ![1536, 768] inb0).toLoadRect}
    {k : ((Rect.unit (s := S1536x768) off0 ![1536, 768] inb0).toLoadRect.shape.Idx → Elt F .f32) → Prog (TpuEff nD τ sig (Elt F) Λ₀ .tc) α} :
    (((c : Thread nD τ).loc cc0_scratch0) ↦{fullShare} (xblk m c : Buf (Elt F) ((c : Thread nD τ).loc cc0_scratch0)) : sProp 𝕄)
      ⊢ iprop(((((c : Thread nD τ).loc cc0_scratch0) ↦{fullShare} (xblk m c : Buf (Elt F) ((c : Thread nD τ).loc cc0_scratch0)))
            -∗ wp frame (wpE (defs₀ (F := F)) 𝒱₀ (c : Thread nD τ) none) Set.univ (k (xblk m c)) Q)
        -∗ wp frame (wpE (defs₀ (F := F)) 𝒱₀ (c : Thread nD τ) none) Set.univ
          (.op (.load xV (Rect.unit (s := S1536x768) off0 ![1536, 768] inb0).toLoadRect hl) k) Q) := by
  have h := wp_load (defs := defs₀ (F := F)) 𝒱₀ (c : Thread nD τ) none (Γ := .empty) Set.univ (Q := Q) (m := xV)
    (r := (Rect.unit (s := S1536x768) off0 ![1536, 768] inb0).toLoadRect) (hl := hl) (k := k) (q := fullShare)
    (f := (xblk m c : Buf (Elt F) ((c : Thread nD τ).loc cc0_scratch0))) (S := Finset.univ) (Finset.subset_univ _)
  have e : (xV : Memref sig .tc .vmem S1536x768 .f32).view.readAt (Elt F) (Rect.unit (s := S1536x768) off0 ![1536, 768] inb0).toLoadRect
      (xblk m c : Buf (Elt F) ((c : Thread nD τ).loc cc0_scratch0)) = xblk m c :=
    Memref.readAt_unit_zero (Elt F) cc0_scratch0 h0 inb0 _
  rw [e] at h
  exact h

set_option maxHeartbeats 1600000 in
theorem part6 (K : Dev nD × Fin 66 → ℕ) (c : Dev nD) (v2 w1 w2 : BitVec 32) (Kt : (Σ' (v146 : BitVec 32), BitVec 32) → sProp 𝕄) :
  iprop(records m K ∗ levAts L lv ∗ owesE c (owedT c 0 + owedS c 29) ∗ SigSt c 29
      ∗ xPts m c ∗ (∃ f : Buf (Elt F) ((c : Thread nD τ).loc cc0_scratch0), ((c : Thread nD τ).loc cc0_scratch0) ↦{fullShare} f) ∗ dutyTok ER (cpyC c) 0 0 ∗ atPos ER (cpyC c) 0 ∅ 0
      ∗ (∃ f0, rowPts c c fullShare f0)
      ∗ cred (tallyAt (barC c) () 31) ∗ atPos ER (barC c) 0 ∅ 0
      ∗ (bigSep (Finset.Ioc 0 31) fun d => dutyTok ER (sendC c (off d)) 0 0) ∗ (bigSep (Finset.Ioc 0 31) fun d => dutyTok ER (recvC (peer c (off d)) (off d)) 0 0)
      ∗ (∀ r, (owesE c (owedT c 1) ∗ SendSt m c 1 ∗ SentCr c 1
            ∗ xPts m c ∗ (∃ f : Buf (Elt F) ((c : Thread nD τ).loc cc0_scratch0), ((c : Thread nD τ).loc cc0_scratch0) ↦{fullShare} f) ∗ atPos ER (cpyC c) 1 ∅ 0
            ∗ atPos ER (barC c) 1 ∅ 0 ∗ rowPts c c (shareOf 0) (rowsOf m c c) ∗ rowPts c c (shareOf.restShare 31) (rowsOf m c c)) -∗ Kt r))
    ⊢ wp frame (wpE (defs₀ (F := F)) 𝒱₀ (c : Thread nD τ) none) Set.univ (k0_part6 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part6_eq_skeleton]; unfold k0_part6_skel
  simp only [semSignalWord, semWaitWord, Prog.lift, Prog.bind_op, Prog.bind_ret, Prog.pure_eq_ret, wp_deviceId]
  simp only [devSig, remoteSend, row2_eq, send_sem, recv_sem, cpy_sem]
  iintro ⟨#HI, #HL, HO, HS, HX, HV, HT, HP, HR, HC, HB, HTS, HTR, Hk⟩
  icases HV with ⟨%fv, HV⟩
  icases HR with ⟨%f0, HR⟩
  iapply (sig_at m K c 29 (by decide) 30 (by decide)) $$ [HO HS]
  · isplitr; · iexact HI
    isplitl [HO] <;> iassumption
  iintro ⟨HO, HS⟩
  iapply (sig_at m K c 30 (by decide) 31 (by decide)) $$ [HO HS]
  · isplitr; · iexact HI
    isplitl [HO] <;> iassumption
  iintro ⟨HO, HS⟩
  ihave HS := (Entails.of_eq (p6_SigSt_31 (F := F) c)) $$ HS
  iclear HS
  ihave HX := (Entails.of_eq (p6_xPts m c)) $$ HX
  iapply (cpy_step m K c fv) $$ [HX HV HT]
  · isplitr; · iexact HI
    isplitl [HX]; · iexact HX
    isplitl [HV] <;> iassumption
  iintro HCr
  iapply (cpy_wait m K c 0 31) $$ [HO HCr HP]
  · isplitr; · iexact HI
    isplitr; · iexact HL
    isplitl [HO]; · iexact HO
    isplitl [HCr] <;> iassumption
  iintro ⟨HO, HP, HPay⟩
  ihave HPay := (Entails.of_eq (p6_cpyPay m c)) $$ HPay
  icases HPay with ⟨HV, HX⟩
  ihave HO := (Entails.of_eq (p6_owes31 (F := F) c)) $$ HO
  iapply (p6_load_x m c ![0, 0] (by funext a; fin_cases a <;> rfl) _) $$ [HV]
  · iexact HV
  iintro HV
  iapply (ra_wp_load_of 𝒱₀ none Set.univ c (Gen.k0_off1_eq c) _ fullShare f0) $$ [HR]
  · iexact HR
  iintro HR
  iapply (ra_wp_store_sums_of 𝒱₀ none Set.univ m c (Gen.k0_off1_eq c) _ f0) $$ [HR]
  · iexact HR
  iintro HR
  iapply (bar_wait m K c) $$ [HO HC HB]
  · isplitr; · iexact HI
    isplitr; · iexact HL
    isplitl [HO]; · iexact HO
    isplitl [HC] <;> iassumption
  iintro ⟨HO, HB, HRows⟩
  ihave HR := (row_shares c (rowsOf m c c)) $$ HR
  icases HR with ⟨HSh, H0, HRest⟩
  iapply (send_at m K c 0 (by decide) 1 (by decide)) $$ [HO HTS HTR HSh HRows]
  · isplitr; · iexact HI
    isplitl [HO]; · iexact HO
    isplitl [HTS HTR HSh HRows]
    · iapply (Entails.of_eq (p6_SendSt_0 m c).symm)
      isplitl [HTS]; · iexact HTS
      isplitl [HTR]; · iexact HTR
      isplitl [HSh] <;> iassumption
    · iapply (Entails.of_eq (p6_SentCr_0 (F := F) c).symm)
      iempintro
  iintro ⟨HO, HT, HC⟩
  rw [wp_ret]; imodintro
  iapply Hk $$ [HO HT HC HX HV HP HB H0 HRest]
  isplitl [HO]; · iexact HO
  isplitl [HT]; · iexact HT
  isplitl [HC]; · iexact HC
  isplitl [HX]; · iexact HX
  isplitl [HV]
  · iexists _; iexact HV
  isplitl [HP]; · iexact HP
  isplitl [HB]; · iexact HB
  isplitl [H0] <;> iassumption

end Cert.KernelIdeal.DistSum

end
-- ==== Proof.PartsMixed.lean ====
import proofs.«901078_g7700000000001079_dist_sum_ax0_shard0_i_m1536_n768_v7x_i32_f32_1_alg».proof.Proof.Waits
import proofs.«901078_g7700000000001079_dist_sum_ax0_shard0_i_m1536_n768_v7x_i32_f32_1_alg».proof.Proof.RingFacts
import proofs.«901078_g7700000000001079_dist_sum_ax0_shard0_i_m1536_n768_v7x_i32_f32_1_alg».proof.Proof.Proto
import proofs.«901078_g7700000000001079_dist_sum_ax0_shard0_i_m1536_n768_v7x_i32_f32_1_alg».proof.Proof.Steps

/-! The two parts of the body in which one phase ends and the next begins. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem pm_owedT_last (c : Dev nD) : owedT c 31 = 0 := by
  unfold owedT
  rw [Finset.Ioc_self, Finset.sum_empty]

private theorem pm_owes_last (c : Dev nD) : (owesE c (owedT c 31) : sProp 𝕄) ⊢ owesE c 0 := by
  rw [pm_owedT_last]

theorem part16 (K : Dev nD × Fin 66 → ℕ) (c : Dev nD) (v2 w1 w2 : BitVec 32) (Kt : PUnit → sProp 𝕄) :
    iprop(records m K ∗ owesE c (owedT c 29) ∗ SendSt m c 29 ∗ SentCr c 29 ∗ RecvSt c 0 ∗ RecvDone m c 0
        ∗ (∀ r, (owesE c 0 ∗ SentCr c 31 ∗ RecvSt c 1 ∗ RecvDone m c 1) -∗ Kt r))
      ⊢ wp frame (wpE (defs₀ (F := F)) 𝒱₀ (c : Thread nD τ) none) Set.univ
          (k0_part16 (F := F) xH (Memref.isWhole_whole _) A1 (Memref.isWhole_whole _) xV (Memref.isWhole_whole _)
            gbuf (Memref.isWhole_whole _) cc0_scratch2 cc0_scratch3 cc0_scratch4 c v2) Kt := by
  simp only [k0_part16_eq_skeleton]; unfold k0_part16_skel
  simp only [semSignalWord, semWaitWord, Prog.lift, Prog.bind_op, Prog.bind_ret, Prog.pure_eq_ret, wp_deviceId]
  simp only [remoteSend, row2_eq, row3_eq, send_sem, recv_sem]
  iintro ⟨#HI, HO, HT, HC, HR, HD, Hk⟩
  iapply (send_at m K c 29 (by decide) 30 (by decide)) $$ [HO HT HC]
  · isplitr; · iexact HI
    isplitl [HO]; · iexact HO
    isplitl [HT] <;> iassumption
  iintro ⟨HO, HT, HC⟩
  iapply (send_at m K c 30 (by decide) 31 (by decide)) $$ [HO HT HC]
  · isplitr; · iexact HI
    isplitl [HO]; · iexact HO
    isplitl [HT] <;> iassumption
  iintro ⟨HO, -, HC⟩
  ihave HO := (pm_owes_last c) $$ HO
  iapply (recv_at m K c 0 (by decide) 1 (by decide)) $$ [HO HR HD]
  · isplitr; · iexact HI
    isplitl [HO]; · iexact HO
    isplitl [HR] <;> iassumption
  iintro ⟨HO, HR, HD⟩
  rw [wp_ret]; imodintro
  iapply Hk $$ [HO HC HR HD]
  isplitl [HO]; · iexact HO
  isplitl [HC]; · iexact HC
  isplitl [HR] <;> iassumption

theorem part26 (K : Dev nD × Fin 66 → ℕ) (c : Dev nD) (v2 w1 w2 : BitVec 32) (Kt : PUnit → sProp 𝕄) :
    iprop(records m K ∗ owesE c 0 ∗ RecvSt c 30 ∗ RecvDone m c 30 ∗ SWaitSt c 0 ∗ SWaitDone m c 0
        ∗ (∀ r, (owesE c 0 ∗ RecvDone m c 31 ∗ SWaitSt c 4 ∗ SWaitDone m c 4) -∗ Kt r))
      ⊢ wp frame (wpE (defs₀ (F := F)) 𝒱₀ (c : Thread nD τ) none) Set.univ
          (k0_part26 (F := F) xH (Memref.isWhole_whole _) A1 (Memref.isWhole_whole _) xV (Memref.isWhole_whole _)
            gbuf (Memref.isWhole_whole _) cc0_scratch2 cc0_scratch3 cc0_scratch4 c v2) Kt := by
  simp only [k0_part26_eq_skeleton]; unfold k0_part26_skel
  simp only [semSignalWord, semWaitWord, Prog.lift, Prog.bind_op, Prog.bind_ret, Prog.pure_eq_ret, wp_deviceId]
  simp only [row2_eq, row3_eq, send_sem, recv_sem]
  iintro ⟨#HI, HO, HR, HD, HW, HE, Hk⟩
  iapply (recv_at m K c 30 (by decide) 31 (by decide)) $$ [HO HR HD]
  · isplitr; · iexact HI
    isplitl [HO]; · iexact HO
    isplitl [HR] <;> iassumption
  iintro ⟨HO, -, HD⟩
  iapply (swait_at m K c 0 (by decide) 1 (by decide)) $$ [HO HW HE]
  · isplitr; · iexact HI
    isplitl [HO]; · iexact HO
    isplitl [HW] <;> iassumption
  iintro ⟨HO, HW, HE⟩
  iapply (swait_at m K c 1 (by decide) 2 (by decide)) $$ [HO HW HE]
  · isplitr; · iexact HI
    isplitl [HO]; · iexact HO
    isplitl [HW] <;> iassumption
  iintro ⟨HO, HW, HE⟩
  iapply (swait_at m K c 2 (by decide) 3 (by decide)) $$ [HO HW HE]
  · isplitr; · iexact HI
    isplitl [HO]; · iexact HO
    isplitl [HW] <;> iassumption
  iintro ⟨HO, HW, HE⟩
  iapply (swait_at m K c 3 (by decide) 4 (by decide)) $$ [HO HW HE]
  · isplitr; · iexact HI
    isplitl [HO]; · iexact HO
    isplitl [HW] <;> iassumption
  iintro ⟨HO, HW, HE⟩
  rw [wp_ret]; imodintro
  iapply Hk $$ [HO HD HW HE]
  isplitl [HO]; · iexact HO
  isplitl [HD]; · iexact HD
  isplitl [HW] <;> iassumption

end Cert.KernelIdeal.DistSum

end
-- ==== Proof.Glue.lean ====
import proofs.«901078_g7700000000001079_dist_sum_ax0_shard0_i_m1536_n768_v7x_i32_f32_1_alg».proof.Proof.Proto
import proofs.«901078_g7700000000001079_dist_sum_ax0_shard0_i_m1536_n768_v7x_i32_f32_1_alg».proof.Proof.Rows

/-! Entering each phase and leaving the last. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem RecvDone_0 (c : Dev nD) : (RecvDone m c 0 : sProp 𝕄) = iprop(emp) := by unfold RecvDone; rw [Finset.Ioc_self]; rfl
theorem SWaitDone_0 (c : Dev nD) : (SWaitDone m c 0 : sProp 𝕄) = iprop(emp) := by unfold SWaitDone; rw [Finset.Ioc_self]; rfl
omit [FloatOps F] in
theorem sigSt0_intro (c : Dev nD) (f : Buf (Elt F) ((c : Thread nD τ).loc cc0_scratch1)) :
    iprop((bigSep (Finset.Ioc 0 31) fun d => dutyTok ER (barC (peer c (off d))) 0 (c : Fin 32))
        ∗ bigSep (Finset.Ioc 0 31) fun d => rowPts c (peer c (off d)) fullShare f)
      ⊢ (SigSt c 0 : sProp 𝕄) := by
  unfold SigSt
  rw [bigSep_sep']
  refine BI.sep_mono (Entails.refl _) (bigSep_mono fun d _ => ?_)
  show (rowPts c (peer c (off d)) fullShare f : sProp 𝕄) ⊢ iprop(∃ f, rowPts c (peer c (off d)) fullShare f)
  iintro H; iexists f; iexact H

theorem recvSt0_intro (c : Dev nD) :
    iprop((bigSep (Finset.Ioc 0 31) fun d => cred (tallyAt (recvC c (off d)) () N))
        ∗ (bigSep (Finset.Ioc 0 31) fun d => atPos ER (recvC c (off d)) 0 ∅ 0))
      ⊢ iprop(RecvSt c 0 ∗ RecvDone m c 0) := by
  rw [RecvDone_0]
  unfold RecvSt
  rw [bigSep_sep']
  iintro H
  isplitl [H]; · iexact H
  iempintro

theorem swaitSt0_intro (c : Dev nD) :
    iprop(SentCr c 31 ∗ SendPos c) ⊢ iprop(SWaitSt c 0 ∗ SWaitDone m c 0) := by
  rw [SWaitDone_0]
  unfold SWaitSt SentCr SendPos
  rw [bigSep_sep']
  iintro H
  isplitl [H]; · iexact H
  iempintro

theorem recvDone_split (c : Dev nD) :
    (RecvDone m c 31 : sProp 𝕄)
      ⊢ iprop((bigSep (Finset.Ioc 0 31) fun d => atPos ER (recvC c (off d)) 1 ∅ 0) ∗ bigSep (Finset.Ioc 0 31) fun d => recvPay m c (off d)) := by
  unfold RecvDone
  rw [bigSep_sep']

theorem swaitDone_split (c : Dev nD) :
    (SWaitDone m c 31 : sProp 𝕄)
      ⊢ iprop((bigSep (Finset.Ioc 0 31) fun d => atPos ER (sendC c (off d)) 1 ∅ 0) ∗ bigSep (Finset.Ioc 0 31) fun d => sendPay m c (off d)) := by
  unfold SWaitDone
  rw [bigSep_sep']

theorem own_row_rejoin (c : Dev nD) :
    iprop(rowPts c c (shareOf 0) (rowsOf m c c) ∗ rowPts c c (shareOf.restShare 31) (rowsOf m c c)
        ∗ bigSep (Finset.Ioc 0 31) fun d => sendPay m c (off d))
      ⊢ (rowPts c c fullShare (rowsOf m c c) : sProp 𝕄) := by
  unfold sendPay
  iintro ⟨H0, HR, HS⟩
  iapply (row_unshares (F := F) c (rowsOf m c c))
  isplitl [HS]; · iexact HS
  isplitl [H0]; · iexact H0
  iexact HR

theorem body_enter (c : Dev nD) :
    bodyPre m ρ c ⊢ iprop(∃ K, records m K ∗ levAts L lv ∗ owesE c (owedT c 0 + owedS c 0) ∗ ownPos c ∗ payToks c
      ∗ launchCreds c ∗ xPts m c ∗ scratch c ∗ (∃ d, stg c cc0_stg0_0 ((dats m ρ 0 c).before (0 : Fin 1) t₀ d))) := by
  unfold bodyPre Φ₀ start ghost Dat.owesAt Pipeline.owesWithin
  rw [show (dats m ρ 0 c).owed t₀.castSucc = owedT c 0 + owedS c 0 from rfl]
  iintro ⟨⟨⟨⟨%K, HR, HP, HT⟩, HC, Hlev, Hx⟩, Hs⟩, ⟨%W, -, HO⟩, Hst⟩
  iexists K
  isplitl [HR]; · iexact HR
  isplitl [Hlev]; · iexact Hlev
  isplitl [HO]; · unfold owesE; iexists W; iexact HO
  isplitl [HP]; · iexact HP
  isplitl [HT]; · iexact HT
  isplitl [HC]; · iexact HC
  isplitl [Hx]; · iexact Hx
  isplitl [Hs]; · iexact Hs
  iexact Hst

theorem body_exit (c : Dev nD) :
    iprop(xPts m c ∗ scratch c ∗ (bigSep Finset.univ fun k : Fin 65 => semVal ((c : Thread nD τ), osem k) 0) ∗ owesE c 0
        ∗ stg c cc0_stg0_0 (outVal m))
      ⊢ bodyPost m ρ c := by
  unfold bodyPost Φ₁ Dat.owesAt Pipeline.owesWithin owesE
  rw [show (dats m ρ 0 c).owed t₀.succ = 0 from rfl]
  iintro ⟨Hx, Hs, Hv, ⟨%W, HO⟩, Hst⟩
  isplitl [Hx Hs Hv]
  · isplitl [Hx]; · iexact Hx
    isplitl [Hs]; · iexact Hs
    iexact Hv
  isplitl [HO]
  · iexists W
    isplitr; · ipureintro; exact fun _ _ => Or.inl trivial
    iexact HO
  iexact Hst

end Cert.KernelIdeal.DistSum

end
-- ==== Proof.Root.lean ====
import proofs.«901078_g7700000000001079_dist_sum_ax0_shard0_i_m1536_n768_v7x_i32_f32_1_alg».proof.Proof.Parts
import proofs.«901078_g7700000000001079_dist_sum_ax0_shard0_i_m1536_n768_v7x_i32_f32_1_alg».proof.Proof.Part6
import proofs.«901078_g7700000000001079_dist_sum_ax0_shard0_i_m1536_n768_v7x_i32_f32_1_alg».proof.Proof.PartsMixed
import proofs.«901078_g7700000000001079_dist_sum_ax0_shard0_i_m1536_n768_v7x_i32_f32_1_alg».proof.Proof.Rows
import proofs.«901078_g7700000000001079_dist_sum_ax0_shard0_i_m1536_n768_v7x_i32_f32_1_alg».proof.Proof.Glue

/-! The whole body: its parts run one after the other, each from the state the one before it left. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem hz2 : (![0, 0] : Fin 2 → Nat) = fun _ => 0 := funext fun a => by fin_cases a <;> rfl

omit [FloatOps F] in
theorem read_gbuf (c : Dev nD) (f : Buf (Elt F) ((c : Thread nD τ).loc cc0_scratch1)) :
    (gbuf : Memref sig .tc .vmem S32x768 .f32).view.readAt (Elt F) (Rect.unit (s := S32x768) ![0, 0] S32x768.size inb_S32x768_S32x768_0_0).toLoadRect f = f :=
  Memref.readAt_unit_zero (Elt F) cc0_scratch1 hz2 _ f

abbrev r1 : Rect S1x768 := Rect.unit (s := S1x768) ![0, 0] S1x768.size inb_S1x768_S1x768_0_0

omit [FloatOps F] in
theorem write_out (f w : (cc0_stg0_0 : Ref sig .tc).ty.Contents (Elt F)) :
    ((A1 : Memref sig .tc .vmem S1x768 .f32).access r1 : View sig .tc _ _ _).write (Elt F) f w Finset.univ = w :=
  Memref.write_access_unit_zero_univ (Elt F) cc0_stg0_0 hz2 _ f w

theorem part31 (K : Dev nD × Fin 66 → ℕ) (c : Dev nD) (Kt : FVec F S1x768 .f32 → sProp 𝕄) :
  iprop(records m K ∗ levAts L lv ∗ owesE c (owedT c 0 + owedS c 0) ∗ ownPos c ∗ payToks c ∗ launchCreds c ∗ xPts m c ∗ scratch c
      ∗ ((owesE c 0 ∗ xPts m c ∗ scratch c ∗ atPos ER (cpyC c) 1 ∅ 0
            ∗ (bigSep (Finset.Ioc 0 31) fun d => atPos ER (sendC c (off d)) 1 ∅ 0) ∗ (bigSep (Finset.Ioc 0 31) fun d => atPos ER (recvC c (off d)) 1 ∅ 0)
            ∗ atPos ER (sendC c 0) 0 ∅ 0 ∗ atPos ER (recvC c 0) 0 ∅ 0) -∗ Kt (outVal m)))
    ⊢ wp frame (wpE (defs₀ (F := F)) 𝒱₀ (c : Thread nD τ) none) Set.univ (k0_part31 (F := F) xH (Memref.isWhole_whole _) A1 (Memref.isWhole_whole _) xV (Memref.isWhole_whole _) gbuf (Memref.isWhole_whole _) cc0_scratch2 cc0_scratch3 cc0_scratch4) Kt := by
  simp only [k0_part31_eq_skeleton]; unfold k0_part31_skel
  unfold ownPos payToks launchCreds scratch
  iintro ⟨#HI, #Hlev, HO, ⟨HaB, HaC, HaS0, HaR0, HSP, HRP⟩, ⟨HtSig, HtRecv, HtSend, HtC⟩, ⟨HcB, HcR⟩, Hx, ⟨⟨%fx, HxV⟩, ⟨%fg, Hg⟩⟩, Hk⟩
  ihave Hsp := (gbuf_split c fg) $$ Hg
  icases Hsp with ⟨Hrow, Hrows⟩
  ihave HS := (sigSt0_intro c fg) $$ [HtSig Hrows]
  · isplitl [HtSig] <;> iassumption
  ihave HRD := (recvSt0_intro m c) $$ [HcR HRP]
  · isplitl [HcR] <;> iassumption
  icases HRD with ⟨HR, HD⟩

  rw [wp_bind]
  iapply (part1 m K c _)
  isplitr; · iexact HI
  isplitl [HO]; · iexact HO
  isplitl [HS]; · iexact HS
  iintro %v2 %w1 %w2 ⟨HO, HS⟩
  try dsimp only
  rw [wp_bind]
  iapply (part2 m K c v2 w1 w2 _)
  isplitr; · iexact HI
  isplitl [HO]; · iexact HO
  isplitl [HS]; · iexact HS
  iintro %r ⟨HO, HS⟩
  obtain ⟨w1, w2⟩ := r
  try dsimp only
  rw [wp_bind]
  iapply (part3 m K c v2 w1 w2 _)
  isplitr; · iexact HI
  isplitl [HO]; · iexact HO
  isplitl [HS]; · iexact HS
  iintro %r ⟨HO, HS⟩
  obtain ⟨w1, w2⟩ := r
  try dsimp only
  rw [wp_bind]
  iapply (part4 m K c v2 w1 w2 _)
  isplitr; · iexact HI
  isplitl [HO]; · iexact HO
  isplitl [HS]; · iexact HS
  iintro %r ⟨HO, HS⟩
  obtain ⟨w1, w2⟩ := r
  try dsimp only
  rw [wp_bind]
  iapply (part5 m K c v2 w1 w2 _)
  isplitr; · iexact HI
  isplitl [HO]; · iexact HO
  isplitl [HS]; · iexact HS
  iintro %r ⟨HO, HS⟩
  obtain ⟨w1, w2⟩ := r
  try dsimp only

  rw [wp_bind]
  iapply (part6 m K c v2 w1 w2 _)
  isplitr; · iexact HI
  isplitr; · iexact Hlev
  isplitl [HO]; · iexact HO
  isplitl [HS]; · iexact HS
  isplitl [Hx]; · iexact Hx
  isplitl [HxV]; · iexists fx; iexact HxV
  isplitl [HtC]; · iexact HtC
  isplitl [HaC]; · iexact HaC
  isplitl [Hrow]; · iexists fg; iexact Hrow
  isplitl [HcB]; · iexact HcB
  isplitl [HaB]; · iexact HaB
  isplitl [HtSend]; · iexact HtSend
  isplitl [HtRecv]; · iexact HtRecv
  iintro %r ⟨HO, HT, HC, Hx, HxV, HaC, HaB, Hsh0, Hrest⟩
  obtain ⟨w1, w2⟩ := r
  try dsimp only
  rw [wp_bind]
  iapply (part7 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part8 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part9 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part10 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part11 m K c v2 w1 w2 _)
  isplitr; · iexact HI
  isplitl [HO]; · iexact HO
  isplitl [HT]; · iexact HT
  isplitl [HC]; · iexact HC
  iintro %r ⟨HO, HT, HC⟩
  obtain ⟨w1, w2⟩ := r
  try dsimp only
  rw [wp_bind]
  iapply (part12 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part13 m K c v2 w1 w2 _)
  isplitr; · iexact HI
  isplitl [HO]; · iexact HO
  isplitl [HT]; · iexact HT
  isplitl [HC]; · iexact HC
  iintro %r ⟨HO, HT, HC⟩
  obtain ⟨w1, w2⟩ := r
  try dsimp only
  rw [wp_bind]
  iapply (part14 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part15 m K c v2 w1 w2 _)
  isplitr; · iexact HI
  isplitl [HO]; · iexact HO
  isplitl [HT]; · iexact HT
  isplitl [HC]; · iexact HC
  iintro %r ⟨HO, HT, HC⟩
  try dsimp only

  rw [wp_bind]
  iapply (part16 m K c v2 w1 w2 _)
  isplitr; · iexact HI
  isplitl [HO]; · iexact HO
  isplitl [HT]; · iexact HT
  isplitl [HC]; · iexact HC
  isplitl [HR]; · iexact HR
  isplitl [HD]; · iexact HD
  iintro %r ⟨HO, HC, HR, HD⟩
  try dsimp only
  rw [wp_bind]
  iapply (part17 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part18 m K c v2 w1 w2 _)
  isplitr; · iexact HI
  isplitl [HO]; · iexact HO
  isplitl [HR]; · iexact HR
  isplitl [HD]; · iexact HD
  iintro %r ⟨HO, HR, HD⟩
  obtain ⟨w1, w2⟩ := r
  try dsimp only
  rw [wp_bind]
  iapply (part19 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part20 m K c v2 w1 w2 _)
  isplitr; · iexact HI
  isplitl [HO]; · iexact HO
  isplitl [HR]; · iexact HR
  isplitl [HD]; · iexact HD
  iintro %r ⟨HO, HR, HD⟩
  obtain ⟨w1, w2⟩ := r
  try dsimp only
  rw [wp_bind]
  iapply (part21 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part22 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part23 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part24 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part25 m K c v2 w1 w2 _)
  isplitr; · iexact HI
  isplitl [HO]; · iexact HO
  isplitl [HR]; · iexact HR
  isplitl [HD]; · iexact HD
  iintro %r ⟨HO, HR, HD⟩
  try dsimp only

  ihave HWE := (swaitSt0_intro m c) $$ [HC HSP]
  · isplitl [HC] <;> iassumption
  icases HWE with ⟨HW, HE⟩
  rw [wp_bind]
  iapply (part26 m K c v2 w1 w2 _)
  isplitr; · iexact HI
  isplitl [HO]; · iexact HO
  isplitl [HR]; · iexact HR
  isplitl [HD]; · iexact HD
  isplitl [HW]; · iexact HW
  isplitl [HE]; · iexact HE
  iintro %r ⟨HO, HD, HW, HE⟩
  try dsimp only
  rw [wp_bind]
  iapply (part27 m K c v2 w1 w2 _)
  isplitr; · iexact HI
  isplitl [HO]; · iexact HO
  isplitl [HW]; · iexact HW
  isplitl [HE]; · iexact HE
  iintro %r ⟨HO, HW, HE⟩
  try dsimp only
  rw [wp_bind]
  iapply (part28 m K c v2 w1 w2 _)
  isplitr; · iexact HI
  isplitl [HO]; · iexact HO
  isplitl [HW]; · iexact HW
  isplitl [HE]; · iexact HE
  iintro %r ⟨HO, HW, HE⟩
  try dsimp only
  rw [wp_bind]
  iapply (part29 m K c v2 w1 w2 _)
  isplitr; · iexact HI
  isplitl [HO]; · iexact HO
  isplitl [HW]; · iexact HW
  isplitl [HE]; · iexact HE
  iintro %r ⟨HO, HW, HE⟩
  try dsimp only
  rw [wp_bind]
  iapply (part30 m K c v2 w1 w2 _)
  isplitr; · iexact HI
  isplitl [HO]; · iexact HO
  isplitl [HW]; · iexact HW
  isplitl [HE]; · iexact HE
  iintro %r ⟨HO, HW, HE⟩
  try dsimp only

  simp only [semSignalWord, semWaitWord, Prog.lift, Prog.bind_op, Prog.bind_ret, Prog.pure_eq_ret]
  simp only [row2_eq, send_sem]
  iapply (swait_at m K c 28 (by decide) 29 (by decide)) $$ [HO HW HE]
  · isplitr; · iexact HI
    isplitl [HO]; · iexact HO
    isplitl [HW] <;> iassumption
  iintro ⟨HO, HW, HE⟩
  iapply (swait_at m K c 29 (by decide) 30 (by decide)) $$ [HO HW HE]
  · isplitr; · iexact HI
    isplitl [HO]; · iexact HO
    isplitl [HW] <;> iassumption
  iintro ⟨HO, HW, HE⟩
  iapply (swait_at m K c 30 (by decide) 31 (by decide)) $$ [HO HW HE]
  · isplitr; · iexact HI
    isplitl [HO]; · iexact HO
    isplitl [HW] <;> iassumption
  iintro ⟨HO, HW, HE⟩

  ihave HpS := (swaitDone_split m c) $$ HE
  icases HpS with ⟨HposS, HpayS⟩
  ihave HpR := (recvDone_split m c) $$ HD
  icases HpR with ⟨HposR, HpayR⟩
  ihave Hrow := (own_row_rejoin m c) $$ [Hsh0 Hrest HpayS]
  · isplitl [Hsh0]; · iexact Hsh0
    isplitl [Hrest] <;> iassumption
  ihave Hg := (gather_join m c) $$ [Hrow HpayR]
  · isplitl [Hrow] <;> iassumption
  iapply (wp_load 𝒱₀ (c : Thread nD τ) none Set.univ (m := gbuf) (Finset.subset_univ _)) $$ Hg; iintro Hg
  rw [read_gbuf c, wp_ret]; imodintro
  rw [show k0_pay2 (gathered m) = outVal m from rfl]
  iapply Hk
  isplitl [HO]; · iexact HO
  isplitl [Hx]; · iexact Hx
  isplitl [HxV Hg]
  · isplitl [HxV]; · iexact HxV
    iexists _; iexact Hg
  isplitl [HaC]; · iexact HaC
  isplitl [HposS]; · iexact HposS
  isplitl [HposR]; · iexact HposR
  isplitl [HaS0] <;> iassumption

theorem sound_body (c : Dev nD) :
    bodyPre m ρ c ⊢ wp frame (wpE (defs₀ (F := F)) 𝒱₀ (c : Thread nD τ) none) Set.univ (cc0_body (F := F) xH (Memref.isWhole_whole _) A1 (Memref.isWhole_whole _) xV (Memref.isWhole_whole _) gbuf (Memref.isWhole_whole _) cc0_scratch2 cc0_scratch3 cc0_scratch4) (fun _ => bodyPost m ρ c) := by
  iintro Hpre
  ihave H := (body_enter m ρ c) $$ Hpre
  icases H with ⟨%K, #HI, #Hlev, HO, Hpos, Htok, Hcr, Hx, Hscr, ⟨%d0, %g0, %hg0, Hout⟩⟩
  simp only [cc0_body_eq_skeleton]; unfold cc0_body_skel
  simp only [Prog.lift, Prog.bind_op, Prog.bind_ret, Prog.pure_eq_ret]
  rw [wp_bind]
  iapply (part31 m K c _)
  isplitr; · iexact HI
  isplitr; · iexact Hlev
  isplitl [HO]; · iexact HO
  isplitl [Hpos]; · iexact Hpos
  isplitl [Htok]; · iexact Htok
  isplitl [Hcr]; · iexact Hcr
  isplitl [Hx]; · iexact Hx
  isplitl [Hscr]; · iexact Hscr
  iintro ⟨HO, Hx, Hscr, HaC, HposS, HposR, HaS0, HaR0⟩
  imod (close_cells m K c) $$ [HaC HposS HposR HaS0 HaR0] with Hsem
  · isplitr; · iexact HI
    isplitl [HaC]; · iexact HaC
    isplitl [HposS]; · iexact HposS
    isplitl [HposR]; · iexact HposR
    isplitl [HaS0] <;> iassumption
  iapply (wp_load 𝒱₀ (c : Thread nD τ) none Set.univ (m := A1) (Finset.subset_univ _)) $$ Hout; iintro Hout
  iapply (wp_store 𝒱₀ (c : Thread nD τ) none Set.univ (m := A1) (r := r1) (Mk := Finset.univ) (Finset.subset_univ _)) $$ Hout; iintro Hout
  rw [write_out, wp_ret]; imodintro
  iapply (body_exit m ρ c)
  isplitl [Hx]; · iexact Hx
  isplitl [Hscr]; · iexact Hscr
  isplitl [Hsem]; · iexact Hsem
  isplitl [HO]; · iexact HO
  iexists _; isplitr; · (ipureintro; rfl)
  iexact Hout

set_option maxRecDepth 65536 in

theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.KernelIdeal.DistSum

end
-- ==== Proof.Launch.lean ====
import proofs.«901078_g7700000000001079_dist_sum_ax0_shard0_i_m1536_n768_v7x_i32_f32_1_alg».proof.Proof.Proto
import proofs.«901078_g7700000000001079_dist_sum_ax0_shard0_i_m1536_n768_v7x_i32_f32_1_alg».proof.Proof.Credit
import proofs.«901078_g7700000000001079_dist_sum_ax0_shard0_i_m1536_n768_v7x_i32_f32_1_alg».proof.Proof.Gen.KernelIdeal.Points
import Idealize.ShloMosaic.Lib.Pipeline.Launch
import Idealize.ShloMosaic.Lib.Pipeline.Kit
import Idealize.ShloMosaic.Lib.Tactic

/-! The launch of the 32 devices: the ghost state dealt to them, each device's body run, and the result read back. -/

noncomputable section

namespace Cert.KernelIdeal.DistSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ln_barEquiv : Dev nD × Fin 32 ≃ Dev nD × Fin 32 where
  toFun x := (peer x.1 x.2, x.1)
  invFun y := (y.2, offOf y.2 y.1)
  left_inv x := by obtain ⟨c, d⟩ := x; exact Prod.ext rfl (offOf_peer c d)
  right_inv y := by obtain ⟨p, c⟩ := y; exact Prod.ext (peer_offOf c p) rfl

def ln_recvEquiv : Dev nD × Fin 32 ≃ Dev nD × Fin 32 where
  toFun x := (peer x.1 x.2, x.2)
  invFun y := (srcOf y.1 y.2, y.2)
  left_inv x := by obtain ⟨c, d⟩ := x; exact Prod.ext (srcOf_peer c d) rfl
  right_inv y := by obtain ⟨p, d⟩ := y; exact Prod.ext (peer_srcOf p d) rfl

omit [FloatOps F] in
theorem ln_csem_injective : Function.Injective csem := by
  intro a b h
  unfold csem at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h
    exact Fin.ext (congrArg Fin.val (SemLoc.dma.inj h))

theorem ln_kcell_injective : Function.Injective (kcell : Dev nD × Fin 66 → GSem nD τ sig) := by
  rintro ⟨c, k⟩ ⟨c', k'⟩ h
  have h1 : c = c' := congrArg (fun g : GSem nD τ sig => g.1.1) h
  subst h1
  have h2 : csem k = csem k' := congrArg Prod.snd h
  rw [ln_csem_injective h2]

def ringCells : Finset (GSem nD τ sig) := Finset.univ.map ⟨kcell, ln_kcell_injective⟩

abbrev TokIx : Type := Fin 32 ⊕ Fin 32 ⊕ Fin 32 ⊕ Unit

def tokOf (cj : Dev nD × TokIx) : GSem nD τ sig × ℕ × Fin 32 := match cj.2 with
  | .inl p => (barC cj.1, 0, p)
  | .inr (.inl d) => (recvC cj.1 d, 0, 0)
  | .inr (.inr (.inl d)) => (sendC cj.1 d, 0, 0)
  | .inr (.inr (.inr _)) => (cpyC cj.1, 0, 0)

def ln_code (x : GSem nD τ sig × ℕ × Fin 32) : ℕ × ℕ :=
  (match x.1.2 with | .reg _ => 0 | .dma q => q.val + 1, x.2.2.val)

theorem tokOf_injective : Function.Injective (tokOf : Dev nD × TokIx → GSem nD τ sig × ℕ × Fin 32) := by
  rintro ⟨c, j⟩ ⟨c', j'⟩ h
  have h1 : c = c' := by
    have := congrArg (fun x : GSem nD τ sig × ℕ × Fin 32 => x.1.1.1) h
    rcases j with p | d | d | u <;> rcases j' with p' | d' | d' | u' <;> exact this
  subst h1
  have h2 := congrArg ln_code h
  have : j = j' := by
    rcases j with p | d | d | u <;> rcases j' with p' | d' | d' | u' <;>
      simp only [ln_code, tokOf, sendSem, recvSem, cpySem, Prod.mk.injEq] at h2 <;>
      first
        | rfl
        | (exfalso; omega)
        | (obtain ⟨h3, h4⟩ := h2; first | (exfalso; omega) | (congr; apply Fin.ext; omega))
  subst this; rfl

def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

abbrev CellIx : Type := Unit ⊕ Unit ⊕ Fin 32 ⊕ Fin 32

def ln_ixFun : CellIx → Fin 66
  | .inl _ => ⟨0, by decide⟩
  | .inr (.inl _) => ⟨1, by decide⟩
  | .inr (.inr (.inl d)) => ⟨2 + d.val, by have := d.isLt; omega⟩
  | .inr (.inr (.inr d)) => ⟨34 + d.val, by have := d.isLt; omega⟩

def ln_ixInv (k : Fin 66) : CellIx :=
  if h0 : k.val = 0 then .inl () else if h1 : k.val = 1 then .inr (.inl ())
  else if h2 : k.val < 34 then .inr (.inr (.inl ⟨k.val - 2, by omega⟩))
  else .inr (.inr (.inr ⟨k.val - 34, by have := k.isLt; omega⟩))

def ln_ix : CellIx ≃ Fin 66 where
  toFun := ln_ixFun
  invFun := ln_ixInv
  left_inv x := by
    rcases x with u | u | d | d
    · rfl
    · rfl
    · have hd := d.isLt
      unfold ln_ixFun ln_ixInv
      rw [dif_neg (by show ¬ (2 + d.val = 0); omega), dif_neg (by show ¬ (2 + d.val = 1); omega), dif_pos (by show 2 + d.val < 34; omega)]
      exact congrArg (fun x => Sum.inr (Sum.inr (Sum.inl x))) (Fin.ext (by show 2 + d.val - 2 = d.val; omega))
    · have hd := d.isLt
      unfold ln_ixFun ln_ixInv
      rw [dif_neg (by show ¬ (34 + d.val = 0); omega), dif_neg (by show ¬ (34 + d.val = 1); omega), dif_neg (by show ¬ (34 + d.val < 34); omega)]
      exact congrArg (fun x => Sum.inr (Sum.inr (Sum.inr x))) (Fin.ext (by show 34 + d.val - 34 = d.val; omega))
  right_inv k := by
    have hk := k.isLt
    unfold ln_ixInv
    by_cases h0 : k.val = 0
    · rw [dif_pos h0]; exact Fin.ext h0.symm
    · rw [dif_neg h0]
      by_cases h1 : k.val = 1
      · rw [dif_pos h1]; exact Fin.ext h1.symm
      · rw [dif_neg h1]
        by_cases h2 : k.val < 34
        · rw [dif_pos h2]; exact Fin.ext (by show 2 + (k.val - 2) = k.val; omega)
        · rw [dif_neg h2]; exact Fin.ext (by show 34 + (k.val - 34) = k.val; omega)

omit [FloatOps F] in
theorem ln_kcell_bar (c : Dev nD) : kcell (c, ln_ix (.inl ())) = barC c := rfl
omit [FloatOps F] in
theorem ln_kcell_cpy (c : Dev nD) : kcell (c, ln_ix (.inr (.inl ()))) = cpyC c := rfl
omit [FloatOps F] in
theorem ln_kcell_send (c : Dev nD) (d : Fin 32) : kcell (c, ln_ix (.inr (.inr (.inl d)))) = sendC c d := by
  show ((c : Thread nD τ), csem ⟨2 + d.val, _⟩) = ((c : Thread nD τ), SemLoc.dma (sendSem d))
  unfold csem; rw [if_neg (by show ¬ (2 + d.val = 0); omega)]; rfl
omit [FloatOps F] in
theorem ln_kcell_recv (c : Dev nD) (d : Fin 32) : kcell (c, ln_ix (.inr (.inr (.inr d)))) = recvC c d := by
  show ((c : Thread nD τ), csem ⟨34 + d.val, _⟩) = ((c : Thread nD τ), SemLoc.dma (recvSem d))
  unfold csem; rw [if_neg (by show ¬ (34 + d.val = 0); omega)]; rfl

omit [FloatOps F] in
theorem ln_bigSep_cells (c : Dev nD) (Φ : GSem nD τ sig → sProp 𝕄) :
    (bigSep Finset.univ fun k : Fin 66 => Φ (kcell (c, k)))
      = iprop(Φ (barC c) ∗ Φ (cpyC c) ∗ (bigSep Finset.univ fun d : Fin 32 => Φ (sendC c d)) ∗ bigSep Finset.univ fun d : Fin 32 => Φ (recvC c d)) := by
  rw [bigSep_univ_equiv ln_ix (fun k : Fin 66 => Φ (kcell (c, k))), bigSep_univ_sum, bigSep_univ_sum, bigSep_univ_sum,
    bigSep_univ_of_subsingleton (), bigSep_univ_of_subsingleton ()]
  simp only [ln_kcell_bar, ln_kcell_cpy, ln_kcell_send, ln_kcell_recv]
  rfl

omit [FloatOps F] in
theorem ln_Ioc_eq : Finset.Ioc 0 31 = (Finset.univ : Finset (Fin 31)).map ⟨fun i => i.val + 1, fun a b h => Fin.ext (Nat.succ.inj h)⟩ := by
  decide

omit [FloatOps F] in
theorem ln_bigSep_fin32 (Φ : Fin 32 → sProp 𝕄) :
    bigSep Finset.univ Φ = iprop(Φ 0 ∗ bigSep (Finset.Ioc 0 31) fun d => Φ (off d)) := by
  rw [ln_Ioc_eq, bigSep_map, Fin.univ_succ, Finset.cons_eq_insert, bigSep_insert (by simp), bigSep_map]
  refine congrArg (BI.sep (Φ 0)) (bigSep_congr fun i _ => congrArg Φ (Fin.ext ?_))
  have hi := i.isLt
  show i.val + 1 = (i.val + 1) % 32
  omega

def toks (c : Dev nD) : sProp 𝕄 :=
  iprop((bigSep Finset.univ fun p : Fin 32 => dutyTok ER (barC c) 0 p)
    ∗ (bigSep Finset.univ fun d : Fin 32 => dutyTok ER (recvC c d) 0 0)
    ∗ (bigSep Finset.univ fun d : Fin 32 => dutyTok ER (sendC c d) 0 0)
    ∗ dutyTok ER (cpyC c) 0 0)

def G (c : Dev nD) : sProp 𝕄 :=
  iprop((bigSep Finset.univ fun k : Fin 66 => roundState ER (Rd m) (kcell (c, k)) 0)
    ∗ (bigSep Finset.univ fun k : Fin 66 => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_univ_sum, bigSep_univ_of_subsingleton ()]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSemFacts : Pipeline.OwnSemFacts cfg0.spec osem := by decide

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem ln_fin66_succ (Φ : Fin 66 → sProp 𝕄) :
    bigSep Finset.univ Φ = iprop(Φ 0 ∗ bigSep Finset.univ fun k : Fin 65 => Φ k.succ) := by
  rw [Fin.univ_succ, Finset.cons_eq_insert, bigSep_insert (by simp), bigSep_map]
  rfl

omit [FloatOps F] in
theorem ln_kcell_zero (c : Dev nD) : kcell (c, (0 : Fin 66)) = barC c := rfl
omit [FloatOps F] in
theorem ln_osem_cell (c : Dev nD) (k : Fin 65) : ((c : Thread nD τ), osem k) = kcell (c, k.succ) := by
  show ((c : Thread nD τ), osem k) = ((c : Thread nD τ), csem k.succ)
  unfold csem; rw [if_neg (by show ¬ (k.val + 1 = 0); omega)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  have e : (bigSep Finset.univ fun k : Fin 65 => (semVal (kcell (c, k.succ)) 0 : sProp 𝕄))
      = bigSep Finset.univ fun k : Fin 65 => semVal ((c : Thread nD τ), osem k) 0 :=
    bigSep_congr fun k _ => by rw [ln_osem_cell]
  rw [unscopedSems0_eq, ln_fin66_succ, e, ln_kcell_zero]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k : Fin 66 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem ln_drop0 (Φ : Fin 32 → sProp 𝕄) : bigSep Finset.univ Φ ⊢ bigSep (Finset.Ioc 0 31) fun d => Φ (off d) := by
  rw [ln_bigSep_fin32]; iintro ⟨-, H⟩; iexact H

omit [FloatOps F] in
theorem toks_around : (bigSep Finset.univ fun c : Dev nD => (toks c : sProp 𝕄)) ⊢ bigSep Finset.univ fun c : Dev nD => payToks c := by
  have hB : (bigSep Finset.univ fun c : Dev nD => bigSep Finset.univ fun p : Fin 32 => (dutyTok ER (barC c) 0 p : sProp 𝕄))
      = bigSep Finset.univ fun c : Dev nD => bigSep Finset.univ fun d : Fin 32 => (dutyTok ER (barC (peer c d)) 0 (c : Fin 32) : sProp 𝕄) := by
    rw [← bigSep_univ_prod (fun x : Dev nD × Fin 32 => (dutyTok ER (barC x.1) 0 x.2 : sProp 𝕄)),
      bigSep_univ_equiv ln_barEquiv (fun x : Dev nD × Fin 32 => (dutyTok ER (barC x.1) 0 x.2 : sProp 𝕄)), bigSep_univ_prod]
    rfl
  have hR : (bigSep Finset.univ fun c : Dev nD => bigSep Finset.univ fun d : Fin 32 => (dutyTok ER (recvC c d) 0 0 : sProp 𝕄))
      = bigSep Finset.univ fun c : Dev nD => bigSep Finset.univ fun d : Fin 32 => (dutyTok ER (recvC (peer c d) d) 0 0 : sProp 𝕄) := by
    rw [← bigSep_univ_prod (fun x : Dev nD × Fin 32 => (dutyTok ER (recvC x.1 x.2) 0 0 : sProp 𝕄)),
      bigSep_univ_equiv ln_recvEquiv (fun x : Dev nD × Fin 32 => (dutyTok ER (recvC x.1 x.2) 0 0 : sProp 𝕄)), bigSep_univ_prod]
    rfl
  unfold toks payToks
  rw [bigSep_sep', bigSep_sep', bigSep_sep', bigSep_sep', bigSep_sep', bigSep_sep', hB, hR]
  exact BI.sep_mono (bigSep_mono fun c _ => ln_drop0 (fun d : Fin 32 => (dutyTok ER (barC (peer c d)) 0 (c : Fin 32) : sProp 𝕄)))
    (BI.sep_mono (bigSep_mono fun c _ => ln_drop0 (fun d : Fin 32 => (dutyTok ER (recvC (peer c d) d) 0 0 : sProp 𝕄)))
      (BI.sep_mono (bigSep_mono fun c _ => ln_drop0 (fun d : Fin 32 => (dutyTok ER (sendC c d) 0 0 : sProp 𝕄))) (Entails.refl _)))

omit [FloatOps F] in
theorem ownPos_intro (c : Dev nD) : (bigSep Finset.univ fun k : Fin 66 => (atPos ER (kcell (c, k)) 0 ∅ 0 : sProp 𝕄)) ⊢ ownPos c := by
  rw [ln_bigSep_cells c (fun g => (atPos ER g 0 ∅ 0 : sProp 𝕄)), ln_bigSep_fin32, ln_bigSep_fin32]
  unfold ownPos SendPos
  iintro ⟨HB, HC, ⟨HS0, HS⟩, HR0, HR⟩
  isplitl [HB]; · iexact HB
  isplitl [HC]; · iexact HC
  isplitl [HS0]; · iexact HS0
  isplitl [HR0]; · iexact HR0
  isplitl [HS]; · iexact HS
  iexact HR

omit [FloatOps F] in
theorem ownPos_all : (bigSep Finset.univ fun c : Dev nD => bigSep Finset.univ fun k : Fin 66 => (atPos ER (kcell (c, k)) 0 ∅ 0 : sProp 𝕄))
    ⊢ bigSep Finset.univ fun c : Dev nD => ownPos c :=
  bigSep_mono fun c _ => ownPos_intro c

theorem ghost_intro (K : Dev nD × Fin 66 → ℕ) (c : Dev nD) : iprop(records m K ∗ (ownPos c ∗ payToks c)) ⊢ G' m c := by
  unfold G' ghost
  iintro ⟨#HR, HP, HT⟩
  iexists K
  isplitr; · iexact HR
  isplitl [HP] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 66 => iprop(∃ κ : ℕ, cellInv ER (Rd m) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (Rd m) κ (kcell ck) : sProp 𝕄))) $$ HI
  icases HK with ⟨%K, #HI⟩
  ihave Htk := (toks_around (F := F)) $$ Htok
  ihave Hps := (ownPos_all (F := F)) $$ Hat
  iapply (bigSep_with_persistent (R := records m K) fun c _ => ghost_intro m K c)
  isplitr
  · unfold records; isplitl; · iexact HI
    iexact HR
  · rw [bigSep_sep']
    isplitl [Hps] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem share_eq (c : Dev nD) (w : Fin cfg0.W) : (dats m ρ 0 c).share w = fullShare := by unfold Dat.share; split <;> rfl

theorem start_intro (hcreds : ∀ c : Dev nD, (Pipeline.launchCred O₀ c : sProp 𝕄) ⊢ launchCreds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (hcreds c) $$ Hcr
  imodintro
  unfold start G' xPts
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Hx, Hs, Ho⟩
  isplitl [Hx]; · iexact Hx
  isplitl [Ho]; · iexact Ho
  iexact Hs

theorem waits (hlow : ∀ (c : Dev nD) (q : DmaSem sig), ¬ isRecvIx q → ∀ n k : ℕ,
      (levAts L lv : sProp 𝕄) ⊢ MayWait (c : Thread nD τ) (.dma q) () (owedT c n + owedS c k)) (c : Dev nD) :
    (levAts L lv : sProp 𝕄) ⊢ Pipeline.cellsWaits cfgs (dats m ρ) () 0 c :=
  Pipeline.cellsWaits_intro cfgs (dats m ρ) () 0 c fun w s t => by
    rcases t with ⟨_ | _, ht⟩
    · exact hlow c _ (by fin_cases w; fin_cases s; decide) 0 0
    · show (levAts L lv : sProp 𝕄) ⊢ MayWait (c : Thread nD τ) _ () 0
      rw [MayWait_zero]; iintro -; iempintro

set_option maxRecDepth 8000 in

theorem run_main (hcreds : ∀ c : Dev nD, (Pipeline.launchCred O₀ c : sProp 𝕄) ⊢ launchCreds c)
    (hlow : ∀ (c : Dev nD) (q : DmaSem sig), ¬ isRecvIx q → ∀ n k : ℕ,
      (levAts L lv : sProp 𝕄) ⊢ MayWait (c : Thread nD τ) (.dma q) () (owedT c n + owedS c k))
    (hLne : ∀ g : GSem nD τ sig, g.1.2 ≠ .tc → L g = ∅)
    (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (dats m ρ 0 c).arrAt (0 : Fin 1) cfg0.N
        ∧ r.2.mem ((c : Thread nD τ).loc main_arg0) = m ((c : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := hLne) (hwaits := waits m ρ hlow)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := xPts m) (Z := fun _ => iprop(emp))
    (hX := start_intro m ρ hcreds) (hin := phi0_intro m ρ) (hout := phi1_exit m ρ)
    (QY := fun c s => s.mem ((c : Thread nD τ).loc main_arg0) = m ((c : Thread nD τ).loc main_arg0))
    (hY := fun c s' => by
      iintro ⟨Hx, -, HSI⟩
      unfold xPts
      icombine HSI Hx gives %hx
      imodintro
      isplitr; · ipureintro; exact Buf.eq_of_forall_mem_univ hx
      iexact HSI)
    (hQ := fun _ h c => ⟨(h c).1 0, (h c).2.2⟩)

theorem final_out (c : Dev nD) :
    (dats m ρ 0 c).arrAt (0 : Fin 1) cfg0.N = (outVal m : Buf (Elt F) ((c : Thread nD τ).loc main_v1)) := by
  have h := (dats m ρ 0 c).arrAt_succ (0 : Fin 1) t₀
  rw [show cfg0.N = t₀.val + 1 from rfl, h, if_pos (flush0_0 t₀)]
  show ((cfg0.win 0).blk t₀).view.write (Elt F) ((dats m ρ 0 c).arrAt 0 0) (outVal m) Finset.univ = _
  exact Memref.write_access_unit_zero_univ (Elt F) main_v1 (funext fun a => Nat.zero_mul _) _ _ _

theorem run_out (hcreds : ∀ c : Dev nD, (Pipeline.launchCred O₀ c : sProp 𝕄) ⊢ launchCreds c)
    (hlow : ∀ (c : Dev nD) (q : DmaSem sig), ¬ isRecvIx q → ∀ n k : ℕ,
      (levAts L lv : sProp 𝕄) ⊢ MayWait (c : Thread nD τ) (.dma q) () (owedT c n + owedS c k))
    (hLne : ∀ g : GSem nD τ sig, g.1.2 ≠ .tc → L g = ∅)
    (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (outVal m : Buf (Elt F) ((c : Thread nD τ).loc main_v1))
        ∧ r.2.mem ((c : Thread nD τ).loc main_arg0) = m ((c : Thread nD τ).loc main_arg0)) :=
  (θ_run defs _ _).mono (fun _ h c => ⟨((h c).1).trans (final_out m ρ c), (h c).2⟩) (run_main m ρ hcreds hlow hLne hbody)

theorem run_out_closed (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (outVal m : Buf (Elt F) ((c : Thread nD τ).loc main_v1))
        ∧ r.2.mem ((c : Thread nD τ).loc main_arg0) = m ((c : Thread nD τ).loc main_arg0)) :=
  run_out m ρ (fun c => ln_creds c) (fun c q hq n k => ln_mayWait_low c q hq n k) ln_L_of_ne hbody

end Cert.KernelIdeal.DistSum

end
-- ==== Proof.RefValue.lean ====
import proofs.«901078_g7700000000001079_dist_sum_ax0_shard0_i_m1536_n768_v7x_i32_f32_1_alg».proof.Proof.Gen.ReferenceIdeal.Run
import proofs.«901078_g7700000000001079_dist_sum_ax0_shard0_i_m1536_n768_v7x_i32_f32_1_alg».proof.Proof.Gen.ReferenceIdeal.Read
import Idealize.ShloMosaic.Lib.ValueIdx
import Idealize.ShloMosaic.PureOps.Ideal.Laws

/-! The reference's result: the sum of the whole array's rows, column by column. -/

noncomputable section

namespace Cert.DistSum

open Idealize.ShloMosaic Idealize.SL.Sem Idealize.ShloMosaic.ValueIdx
open Cert.ReferenceIdeal Cert.ReferenceIdeal.Gen

def refResult {F : FTy → Type} [FloatOps F]
    (X : (⟨S49152x768, .f32⟩ : BufTy).Contents (Elt F)) : (⟨S1x768, .f32⟩ : BufTy).Contents (Elt F) :=
  broadcastInDim S1x768 ![1] bcast_S768_S1x768_1
    (Host.reduceAdd X (constant S_ .f32 0x00000000#32) reducesTo_S49152x768_S768_d0 h_S_)

theorem ref_run {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v1)
            = refResult (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  Cert.ReferenceIdeal.Value.run (F := F) m ρ

theorem ref_frame {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ fun r => ∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run _ _ _).mono (fun _ h c => (h c).2) (ref_run (F := F) m ρ)

theorem refResult_apply (X : (⟨S49152x768, .f32⟩ : BufTy).Contents (Elt Ideal)) (j : Fin 768) :
    refResult (F := Ideal) X (ix2 (0 : Fin 1) j) = (0 : EReal) + ∑ k : Fin 49152, (X (ix2 k j) : EReal) := by
  unfold refResult
  rw [Cert.ReferenceIdeal.Read.val_main_v1_eq, Cert.ReferenceIdeal.Read.val_main_v1_apply,
    Cert.ReferenceIdeal.Read.val_main_v0_apply, Cert.ReferenceIdeal.Read.val_main_cst_apply]
  refine congrArg₂ (· + ·) Ideal.ofBits_zero_f32 (Finset.sum_congr rfl fun k _ => congrArg X ?_)
  funext a
  match a with
  | ⟨0, _⟩ => rfl
  | ⟨1, _⟩ => rfl

end Cert.DistSum

end
-- ==== Proof.SumValue.lean ====
import proofs.«901078_g7700000000001079_dist_sum_ax0_shard0_i_m1536_n768_v7x_i32_f32_1_alg».proof.Proof.Gen.KernelIdeal.Skeleton
import proofs.«901078_g7700000000001079_dist_sum_ax0_shard0_i_m1536_n768_v7x_i32_f32_1_alg».proof.Proof.RefValue
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

/-! The sum over all rows is the sum over the devices of the sums over their blocks. -/

noncomputable section

namespace Cert.DistSum

open Idealize.ShloMosaic Idealize.SL.Sem Idealize.ShloMosaic.ValueIdx

theorem sum_rows {M : Type} [AddCommMonoid M] (f : Fin 49152 → M) :
    ∑ k : Fin 49152, f k = ∑ p : Fin 32, ∑ r : Fin 1536, f ⟨p.val * 1536 + r.val, by omega⟩ := by
  have e := Fintype.sum_equiv (finProdFinEquiv : Fin 32 × Fin 1536 ≃ Fin 49152)
    (fun q => f ⟨q.1.val * 1536 + q.2.val, by omega⟩) f
    (fun q => congrArg f (Fin.ext (show q.1.val * 1536 + q.2.val = q.2.val + 1536 * q.1.val by omega)))
  rw [← e, Fintype.sum_prod_type]

theorem pay1_apply (B : Vec Ideal Cert.KernelIdeal.S1536x768 .f32) (j : Fin 768) :
    Cert.KernelIdeal.Gen.k0_pay1 (F := Ideal) B (ix2 (0 : Fin 1) j) = ∑ r : Fin 1536, (B (ix2 r j) : EReal) := by
  unfold Cert.KernelIdeal.Gen.k0_pay1
  refine (congrFun (shapeCast_self _ _) _).trans ?_
  refine (shapeCast_addUnit_apply ![768] _ _ (ix2 (0 : Fin 1) j)).trans ?_
  refine (Ideal.multiReduction_add_single (φ := .f32) B _ _ _ _ _).trans ?_
  refine Finset.sum_congr rfl fun r _ => congrArg B (funext fun a => ?_)
  match a with
  | ⟨0, _⟩ => exact Fin.ext rfl
  | ⟨1, _⟩ => exact Fin.ext rfl

theorem pay2_apply (G : Vec Ideal Cert.KernelIdeal.S32x768 .f32) (j : Fin 768) :
    Cert.KernelIdeal.Gen.k0_pay2 (F := Ideal) G (ix2 (0 : Fin 1) j) = ∑ p : Fin 32, (G (ix2 p j) : EReal) := by
  unfold Cert.KernelIdeal.Gen.k0_pay2
  refine (shapeCast_addUnit_apply ![768] _ _ (ix2 (0 : Fin 1) j)).trans ?_
  refine (Ideal.multiReduction_add_single (φ := .f32) G _ _ _ _ _).trans ?_
  refine Finset.sum_congr rfl fun p _ => congrArg G (funext fun a => ?_)
  match a with
  | ⟨0, _⟩ => exact Fin.ext rfl
  | ⟨1, _⟩ => exact Fin.ext rfl

theorem block_row (X : (⟨Cert.ReferenceIdeal.S49152x768, .f32⟩ : BufTy).Contents (Elt Ideal))
    (p : Fin 32) (r : Fin 1536) (j : Fin 768) :
    (Layout.block ⟨2, ![1536, 768]⟩ ⟨2, ![49152, 768]⟩ 0 32 p X) (ix2 r j)
      = X (ix2 (⟨p.val * 1536 + r.val, by omega⟩ : Fin 49152) j) := by
  refine congrArg X (funext fun a => ?_)
  match a with
  | ⟨0, _⟩ => exact Fin.ext rfl
  | ⟨1, _⟩ => exact Fin.ext rfl

theorem result_eq (X : (⟨Cert.ReferenceIdeal.S49152x768, .f32⟩ : BufTy).Contents (Elt Ideal))
    (G : Vec Ideal Cert.KernelIdeal.S32x768 .f32)
    (hG : ∀ (p : Fin 32) (j : Fin 768), G (ix2 p j)
      = Cert.KernelIdeal.Gen.k0_pay1 (F := Ideal) (Layout.block ⟨2, ![1536, 768]⟩ ⟨2, ![49152, 768]⟩ 0 32 p X) (ix2 (0 : Fin 1) j)) :
    Cert.KernelIdeal.Gen.k0_pay2 (F := Ideal) G
      = broadcastInDim Cert.ReferenceIdeal.S1x768 ![1] Cert.ReferenceIdeal.Gen.bcast_S768_S1x768_1
          (Host.reduceAdd X (constant (F := Ideal) Cert.ReferenceIdeal.S_ .f32 0x00000000#32)
            Cert.ReferenceIdeal.Gen.reducesTo_S49152x768_S768_d0 Cert.ReferenceIdeal.Gen.h_S_) := by
  funext i
  obtain ⟨z, j, rfl⟩ : ∃ (z : Fin 1) (j : Fin 768), i = ix2 z j := ⟨i 0, i 1, eq_ix2 i⟩
  obtain rfl : z = 0 := Subsingleton.elim _ _
  refine (pay2_apply G j).trans (Eq.trans ?_ (refResult_apply X j).symm)
  have hrow : ∀ p : Fin 32, (G (ix2 p j) : EReal)
      = ∑ r : Fin 1536, (X (ix2 (⟨p.val * 1536 + r.val, by omega⟩ : Fin 49152) j) : EReal) := fun p =>
    (hG p j).trans ((pay1_apply _ j).trans (Finset.sum_congr rfl fun r _ => block_row X p r j))
  rw [zero_add, Finset.sum_congr rfl fun p _ => hrow p]
  exact (sum_rows fun k => (X (ix2 k j) : EReal)).symm

theorem result_eq_refResult (X : (⟨Cert.ReferenceIdeal.S49152x768, .f32⟩ : BufTy).Contents (Elt Ideal))
    (G : Vec Ideal Cert.KernelIdeal.S32x768 .f32)
    (hG : ∀ (p : Fin 32) (j : Fin 768), G (ix2 p j)
      = Cert.KernelIdeal.Gen.k0_pay1 (F := Ideal) (Layout.block ⟨2, ![1536, 768]⟩ ⟨2, ![49152, 768]⟩ 0 32 p X) (ix2 (0 : Fin 1) j)) :
    Cert.KernelIdeal.Gen.k0_pay2 (F := Ideal) G = refResult (F := Ideal) X :=
  result_eq X G hG

end Cert.DistSum

end
-- ==== Proof.OutValue.lean ====
import proofs.«901078_g7700000000001079_dist_sum_ax0_shard0_i_m1536_n768_v7x_i32_f32_1_alg».proof.Proof.Cells
import proofs.«901078_g7700000000001079_dist_sum_ax0_shard0_i_m1536_n768_v7x_i32_f32_1_alg».proof.Proof.SumValue

/-! The kernel's result is the reference's. -/

noncomputable section

namespace Cert.KernelIdeal.DistSum

open Cert.KernelIdeal Cert.KernelIdeal.Gen
open Idealize.ShloMosaic Idealize.ShloMosaic.TcCoe Idealize.SL.Sem Idealize.ShloMosaic.ValueIdx

theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hblk : ∀ c : Dev Cert.KernelIdeal.nD,
      m ((c.tc : Thread Cert.KernelIdeal.nD Cert.KernelIdeal.τ).loc Cert.KernelIdeal.main_arg0)
        = Layout.block ⟨2, ![1536, 768]⟩ ⟨2, ![49152, 768]⟩ 0 32 c
            (m' (((0 : Dev Cert.ReferenceIdeal.nD).tc : Thread Cert.ReferenceIdeal.nD Cert.ReferenceIdeal.τ).loc Cert.ReferenceIdeal.main_arg0))) :
    outVal (F := Ideal) m
      = Cert.DistSum.refResult (F := Ideal)
          (m' (((0 : Dev Cert.ReferenceIdeal.nD).tc : Thread Cert.ReferenceIdeal.nD Cert.ReferenceIdeal.τ).loc Cert.ReferenceIdeal.main_arg0)) := by
  refine Cert.DistSum.result_eq_refResult _ (gathered m) fun p j => ?_
  have hx : xblk m p = Layout.block ⟨2, ![1536, 768]⟩ ⟨2, ![49152, 768]⟩ 0 32 p
      (m' (((0 : Dev Cert.ReferenceIdeal.nD).tc : Thread Cert.ReferenceIdeal.nD Cert.ReferenceIdeal.τ).loc Cert.ReferenceIdeal.main_arg0)) :=
    (show xblk m p = m ((Dev.tc p : Thread Cert.KernelIdeal.nD Cert.KernelIdeal.τ).loc Cert.KernelIdeal.main_arg0) from rfl).trans (hblk p)
  show k0_pay1 (xblk m p) (ix2 (0 : Fin 1) j) = _
  rw [hx]

end Cert.KernelIdeal.DistSum

end
-- ==== Proof.Bits.Base.lean ====
import proofs.«901078_g7700000000001079_dist_sum_ax0_shard0_i_m1536_n768_v7x_i32_f32_1_alg».proof.Proof.Gen.Kernel

/-! The ring of 32 devices (peer c d is d steps ahead of c, srcOf c d is d steps behind it, offOf c p is the offset from c to p), the semaphores of the copy with offset d, and the gather buffer with its rows. -/

noncomputable section

namespace Cert.Kernel.DistSum

open Cert.Kernel Cert.Kernel.Gen
open Idealize.ShloMosaic Idealize.SL.Sem

def peer (c : Dev nD) (d : Fin 32) : Dev nD := ⟨(c.val + d.val) % 32, Nat.mod_lt _ (by decide)⟩

def srcOf (c : Dev nD) (d : Fin 32) : Dev nD := ⟨(c.val + 32 - d.val) % 32, Nat.mod_lt _ (by decide)⟩

def offOf (c p : Dev nD) : Fin 32 := ⟨(p.val + 32 - c.val) % 32, Nat.mod_lt _ (by decide)⟩

theorem srcOf_peer (c : Dev nD) (d : Fin 32) : srcOf (peer c d) d = c := by
  have hc : c.val < 32 := c.isLt
  have hd : d.val < 32 := d.isLt
  apply Fin.ext
  show ((c.val + d.val) % 32 + 32 - d.val) % 32 = c.val
  omega
theorem peer_srcOf (p : Dev nD) (d : Fin 32) : peer (srcOf p d) d = p := by
  have hp : p.val < 32 := p.isLt
  have hd : d.val < 32 := d.isLt
  apply Fin.ext
  show ((p.val + 32 - d.val) % 32 + d.val) % 32 = p.val
  omega
theorem offOf_peer (c : Dev nD) (d : Fin 32) : offOf c (peer c d) = d := by
  have hc : c.val < 32 := c.isLt
  have hd : d.val < 32 := d.isLt
  apply Fin.ext
  show ((c.val + d.val) % 32 + 32 - c.val) % 32 = d.val
  omega
theorem peer_offOf (c p : Dev nD) : peer c (offOf c p) = p := by
  have hc : c.val < 32 := c.isLt
  have hp : p.val < 32 := p.isLt
  apply Fin.ext
  show (c.val + (p.val + 32 - c.val) % 32) % 32 = p.val
  omega

def sendSem (d : Fin 32) : DmaSem sig := ⟨2 + d.val, by have := d.isLt; show 2 + d.val < 66; omega⟩

def recvSem (d : Fin 32) : DmaSem sig := ⟨34 + d.val, by have := d.isLt; show 34 + d.val < 66; omega⟩

def cpySem : DmaSem sig := ⟨1, by decide⟩

def rowOff (p : Dev nD) : Fin 2 → Nat := ![p.val, 0]
theorem rowOff_inb (p : Dev nD) : ∀ a, rowOff p a + S1x768.size a ≤ S32x768.size a := by
  revert p; decide

abbrev gbuf : Memref sig .tc .vmem S32x768 .f32 := Memref.whole cc0_scratch1

abbrev rowM (p : Dev nD) : Memref sig .tc .vmem S1x768 .f32 :=
  gbuf.slice (Rect.unit (s := S32x768) (rowOff p) S1x768.size (rowOff_inb p)) (fun _ => rfl)

end Cert.Kernel.DistSum

end
-- ==== Proof.Bits.Cells.lean ====
import proofs.«901078_g7700000000001079_dist_sum_ax0_shard0_i_m1536_n768_v7x_i32_f32_1_alg».proof.Proof.Bits.Base
import proofs.«901078_g7700000000001079_dist_sum_ax0_shard0_i_m1536_n768_v7x_i32_f32_1_alg».proof.Proof.Gen.Kernel.Skeleton
import proofs.«901078_g7700000000001079_dist_sum_ax0_shard0_i_m1536_n768_v7x_i32_f32_1_alg».proof.Proof.Gen.Kernel.Launch
import Idealize.ShloMosaic.Lib.Pipeline.Launch
import Idealize.ShloMosaic.Lib.Pipeline.Kit
import Idealize.ShloMosaic.Lib.ValueIdx
import Idealize.ShloMosaic.Lib.Tactic

/-! The cells of the protocol (the barrier, the local copy, the sending and the receiving side of each offset) and the table of what each cell's rounds carry. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

abbrev barC (c : Dev nD) : GSem nD τ sig := ((c : Thread nD τ), .reg barS)
abbrev sendC (c : Dev nD) (d : Fin 32) : GSem nD τ sig := ((c : Thread nD τ), .dma (sendSem d))
abbrev recvC (c : Dev nD) (d : Fin 32) : GSem nD τ sig := ((c : Thread nD τ), .dma (recvSem d))
abbrev cpyC (c : Dev nD) : GSem nD τ sig := ((c : Thread nD τ), .dma cpySem)

abbrev xH : Memref sig .tc .hbm S1536x768 .f32 := Memref.whole main_arg0
abbrev xV : Memref sig .tc .vmem S1536x768 .f32 := Memref.whole cc0_scratch0

abbrev N : ℕ := (rowM 0).view.dmaCredit
abbrev NX : ℕ := (xV : Memref sig .tc .vmem S1536x768 .f32).view.dmaCredit

def xblk (c : Dev nD) : Vec F S1536x768 .f32 :=
  (xH : Memref sig .tc .hbm S1536x768 .f32).view.read (Elt F) (m ((c : Thread nD τ).loc main_arg0))

def partialOf (p : Dev nD) : FVec F S1x768 .f32 := k0_pay1 (xblk m p)

def rowsOfV (p : Dev nD) : Vec F S32x768 .f32 := fun i => partialOf m p (ValueIdx.ix2 (0 : Fin 1) (i 1))

def rowsOf (c p : Dev nD) : Buf (Elt F) ((c : Thread nD τ).loc cc0_scratch1) := rowsOfV m p

def gathered : Vec F S32x768 .f32 := fun i => partialOf m (i 0) (ValueIdx.ix2 (0 : Fin 1) (i 1))

def outVal : FVec F S1x768 .f32 := k0_pay2 (gathered m)

def rowPts (c p : Dev nD) (q : PosShare TreeShare) (f : Buf (Elt F) ((c : Thread nD τ).loc cc0_scratch1)) : sProp 𝕄 :=
  (c : Thread nD τ).loc cc0_scratch1 ↦[(rowM p).view.set]{q} f

def shareOf : ℕ → PosShare TreeShare
  | 0 => fullShare.left
  | n + 1 => (restShare n).left
where restShare : ℕ → PosShare TreeShare
  | 0 => fullShare.right
  | n + 1 => (restShare n).right

def barPay (c p : Dev nD) : sProp 𝕄 := iprop(∃ f, rowPts p c fullShare f)

def recvPay (c : Dev nD) (d : Fin 32) : sProp 𝕄 := rowPts c (srcOf c d) fullShare (rowsOf m c (srcOf c d))

def sendPay (c : Dev nD) (d : Fin 32) : sProp 𝕄 := rowPts c c (shareOf d.val) (rowsOf m c c)

def cpyPay (c : Dev nD) : sProp 𝕄 :=
  iprop(((xV : Memref sig .tc .vmem S1536x768 .f32).view.loc (c : Thread nD τ) ↦[(xV : Memref sig .tc .vmem S1536x768 .f32).view.set]{fullShare}
        (xV : Memref sig .tc .vmem S1536x768 .f32).view.write (Elt F) (m ((c : Thread nD τ).loc main_arg0)) (xblk m c) Finset.univ)
    ∗ ((xH : Memref sig .tc .hbm S1536x768 .f32).view.loc (c : Thread nD τ) ↦[(xH : Memref sig .tc .hbm S1536x768 .f32).view.set]{fullShare} m ((c : Thread nD τ).loc main_arg0)))

def isSendIx (q : DmaSem sig) : Prop := 3 ≤ q.val ∧ q.val ≤ 33
def isRecvIx (q : DmaSem sig) : Prop := 35 ≤ q.val
instance (q : DmaSem sig) : Decidable (isSendIx q) := by unfold isSendIx; infer_instance
instance (q : DmaSem sig) : Decidable (isRecvIx q) := by unfold isRecvIx; infer_instance
def sendOff (q : DmaSem sig) : Fin 32 := ⟨(q.val - 2) % 32, Nat.mod_lt _ (by decide)⟩
def recvOff (q : DmaSem sig) : Fin 32 := ⟨(q.val - 34) % 32, Nat.mod_lt _ (by decide)⟩

def dutiesOf (g : GSem nD τ sig) : Finset (Fin 32) :=
  if g.1.2 = .tc then
    match g.2 with
    | .reg s => if s = barS then Finset.univ.erase g.1.1 else ∅
    | .dma q => if q = cpySem ∨ isSendIx q ∨ isRecvIx q then {0} else ∅
  else ∅

def amountOfCell (g : GSem nD τ sig) : ℕ :=
  match g.2 with
  | .reg _ => 1
  | .dma q => if q = cpySem then NX else N

def payloadOf (g : GSem nD τ sig) (d : Fin 32) : sProp 𝕄 :=
  match g.2 with
  | .reg _ => barPay g.1.1 d
  | .dma q => if q = cpySem then cpyPay m g.1.1 else if isRecvIx q then recvPay m g.1.1 (recvOff q) else sendPay m g.1.1 (sendOff q)

theorem N_pos : 0 < N := View.dmaCredit_pos _ (by decide)
theorem NX_pos : 0 < NX := View.dmaCredit_pos _ (by decide)

def Rd : Rounds.Schedule (GSem nD τ sig) (Fin 32) 𝕄 where
  duties g r := if r = 0 then dutiesOf g else ∅
  unitless _ := False
  amount g _ _ := amountOfCell g
  payload g _ d := payloadOf m g d
  amount_pos g _ _ _ := by
    unfold amountOfCell
    split
    · exact Nat.one_pos
    · split
      · exact NX_pos
      · exact N_pos

instance Rd_payload_storable (g : GSem nD τ sig) (r : ℕ) (d : Fin 32) :
    BI.Storable (upEmb : UEmb _ 𝕄) ((Rd (F := F) m).payload g r d) := by
  show BI.Storable upEmb (payloadOf m g d)
  unfold payloadOf barPay cpyPay recvPay sendPay rowPts
  (repeat' split) <;> infer_instance

end Cert.Kernel.DistSum

end
-- ==== Proof.Bits.State.lean ====
import proofs.«901078_g7700000000001079_dist_sum_ax0_shard0_i_m1536_n768_v7x_i32_f32_1_alg».proof.Proof.Bits.Cells

/-! The records of the cells, what a device still owes, and the families of assertions that hold after n steps of each phase. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def csem (k : Fin 66) : SemLoc sig := if k.val = 0 then .reg barS else .dma ⟨k.val, k.isLt⟩
abbrev kcell (ck : Dev nD × Fin 66) : GSem nD τ sig := ((ck.1 : Thread nD τ), csem ck.2)

def records (K : Dev nD × Fin 66 → ℕ) : sProp 𝕄 :=
  iprop((bigSep Finset.univ fun ck : Dev nD × Fin 66 => cellInv ER (Rd m) (K ck) (kcell ck))
    ∗ bigSep Finset.univ fun ck : Dev nD × Fin 66 => reached ER (kcell ck) 0)

instance records_persistent (K : Dev nD × Fin 66 → ℕ) : BI.Persistent (records m K) := by unfold records; infer_instance

def off (d : ℕ) : Fin 32 := ⟨d % 32, Nat.mod_lt _ (by decide)⟩

def owedS (c : Dev nD) (n : ℕ) : CellTallies nD τ sig Unit :=
  ∑ d ∈ Finset.Ioc n 31, tallyAt (barC (peer c (off d))) () 1

def owedT (c : Dev nD) (n : ℕ) : CellTallies nD τ sig Unit :=
  ∑ d ∈ Finset.Ioc n 31, tallyAt (recvC (peer c (off d)) (off d)) () N

def O₀ (c : Dev nD) : CellTallies nD τ sig Unit := owedT c 0 + owedS c 0

def owesE (c : Dev nD) (O : CellTallies nD τ sig Unit) : sProp 𝕄 := iprop(∃ W, owes (c : Thread nD τ) O W)

def SigSt (c : Dev nD) (n : ℕ) : sProp 𝕄 :=
  bigSep (Finset.Ioc n 31) fun d => iprop(dutyTok ER (barC (peer c (off d))) 0 (c : Fin 32) ∗ ∃ f, rowPts c (peer c (off d)) fullShare f)

def SendSt (c : Dev nD) (n : ℕ) : sProp 𝕄 :=
  bigSep (Finset.Ioc n 31) fun d => iprop(dutyTok ER (sendC c (off d)) 0 0 ∗ dutyTok ER (recvC (peer c (off d)) (off d)) 0 0
    ∗ rowPts c c (shareOf (off d).val) (rowsOf m c c) ∗ ∃ f, rowPts (peer c (off d)) c fullShare f)

def RecvSt (c : Dev nD) (n : ℕ) : sProp 𝕄 :=
  bigSep (Finset.Ioc n 31) fun d => iprop(cred (tallyAt (recvC c (off d)) () N) ∗ atPos ER (recvC c (off d)) 0 ∅ 0)

def RecvDone (c : Dev nD) (n : ℕ) : sProp 𝕄 :=
  bigSep (Finset.Ioc 0 n) fun d => iprop(atPos ER (recvC c (off d)) 1 ∅ 0 ∗ recvPay m c (off d))

def SWaitSt (c : Dev nD) (n : ℕ) : sProp 𝕄 :=
  bigSep (Finset.Ioc n 31) fun d => iprop(cred (tallyAt (sendC c (off d)) () N) ∗ atPos ER (sendC c (off d)) 0 ∅ 0)

def SWaitDone (c : Dev nD) (n : ℕ) : sProp 𝕄 :=
  bigSep (Finset.Ioc 0 n) fun d => iprop(atPos ER (sendC c (off d)) 1 ∅ 0 ∗ sendPay m c (off d))

def SentCr (c : Dev nD) (n : ℕ) : sProp 𝕄 :=
  bigSep (Finset.Ioc 0 n) fun d => cred (tallyAt (sendC c (off d)) () N)
def SendPos (c : Dev nD) : sProp 𝕄 :=
  bigSep (Finset.Ioc 0 31) fun d => atPos ER (sendC c (off d)) 0 ∅ 0

def L (g : GSem nD τ sig) : Finset Unit := if g.1.2 = .tc then {()} else ∅
def lv (g : GSem nD τ sig) (_ : Unit) : ℕ :=
  match g.2 with
  | .reg _ => 1
  | .dma q => if isRecvIx q then 2 else 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.DistSum

end
-- ==== Proof.Bits.RingFacts.lean ====
import proofs.«901078_g7700000000001079_dist_sum_ax0_shard0_i_m1536_n768_v7x_i32_f32_1_alg».proof.Proof.Bits.Base

/-! Every device, row and semaphore the program computes, in closed form over the ring. -/

noncomputable section

namespace Cert.Kernel.DistSum

open Cert.Kernel Cert.Kernel.Gen
open Idealize.ShloMosaic Idealize.SL.Sem

@[simp] theorem peer_val (c : Dev nD) (d : Fin 32) : (peer c d).val = (c.val + d.val) % 32 := rfl
@[simp] theorem srcOf_val (c : Dev nD) (d : Fin 32) : (srcOf c d).val = (c.val + 32 - d.val) % 32 := rfl

theorem peer_ne (c : Dev nD) {d : Fin 32} (hd : d ≠ 0) : peer c d ≠ c := by
  have hc : c.val < 32 := c.isLt
  have hd' : d.val < 32 := d.isLt
  have h0 : d.val ≠ 0 := fun h => hd (Fin.ext h)
  intro h
  have := congrArg Fin.val h
  simp only [peer_val] at this; omega

/-- The number n, with any evidence that it is a device, names the device d steps ahead of c. -/
abbrev DevIs (c : Dev nD) (n : ℕ) (d : Fin 32) : Prop := ∀ h, (⟨n, h⟩ : Dev nD) = peer c d

theorem devIs {c : Dev nD} {n : ℕ} {d : Fin 32} (e : n = (c.val + d.val) % 32) : DevIs c n d := fun _ => Fin.ext e

/-- The N-th signalled device, computed by the program as (c + N) mod 32, is peer c N. -/
theorem devSig (c : Dev nD) :
    DevIs c (k0_dev1 c) 1 ∧ DevIs c (k0_dev2 c) 2 ∧ DevIs c (k0_dev3 c) 3 ∧
    DevIs c (k0_dev4 c) 4 ∧ DevIs c (k0_dev5 c) 5 ∧ DevIs c (k0_dev6 c) 6 ∧
    DevIs c (k0_dev7 c) 7 ∧ DevIs c (k0_dev8 c) 8 ∧ DevIs c (k0_dev9 c) 9 ∧
    DevIs c (k0_dev10 c) 10 ∧ DevIs c (k0_dev11 c) 11 ∧ DevIs c (k0_dev12 c) 12 ∧
    DevIs c (k0_dev13 c) 13 ∧ DevIs c (k0_dev14 c) 14 ∧ DevIs c (k0_dev15 c) 15 ∧
    DevIs c (k0_dev16 c) 16 ∧ DevIs c (k0_dev17 c) 17 ∧ DevIs c (k0_dev18 c) 18 ∧
    DevIs c (k0_dev19 c) 19 ∧ DevIs c (k0_dev20 c) 20 ∧ DevIs c (k0_dev21 c) 21 ∧
    DevIs c (k0_dev22 c) 22 ∧ DevIs c (k0_dev23 c) 23 ∧ DevIs c (k0_dev24 c) 24 ∧
    DevIs c (k0_dev25 c) 25 ∧ DevIs c (k0_dev26 c) 26 ∧ DevIs c (k0_dev27 c) 27 ∧
    DevIs c (k0_dev28 c) 28 ∧ DevIs c (k0_dev29 c) 29 ∧ DevIs c (k0_dev30 c) 30 ∧
    DevIs c (k0_dev31 c) 31 :=
  ⟨devIs (k0_dev1_eq c), devIs (k0_dev2_eq c), devIs (k0_dev3_eq c), devIs (k0_dev4_eq c), devIs (k0_dev5_eq c), devIs (k0_dev6_eq c),
   devIs (k0_dev7_eq c), devIs (k0_dev8_eq c), devIs (k0_dev9_eq c), devIs (k0_dev10_eq c), devIs (k0_dev11_eq c), devIs (k0_dev12_eq c),
   devIs (k0_dev13_eq c), devIs (k0_dev14_eq c), devIs (k0_dev15_eq c), devIs (k0_dev16_eq c), devIs (k0_dev17_eq c), devIs (k0_dev18_eq c),
   devIs (k0_dev19_eq c), devIs (k0_dev20_eq c), devIs (k0_dev21_eq c), devIs (k0_dev22_eq c), devIs (k0_dev23_eq c), devIs (k0_dev24_eq c),
   devIs (k0_dev25_eq c), devIs (k0_dev26_eq c), devIs (k0_dev27_eq c), devIs (k0_dev28_eq c), devIs (k0_dev29_eq c), devIs (k0_dev30_eq c),
   devIs (k0_dev31_eq c)⟩

/-- A remote destination on the device numbered n is the same destination on peer c d; the destination's memref
    is typed at the addressed thread, so the device is rewritten together with the destination that names it. -/
abbrev RemoteIs (c : Dev nD) (n : ℕ) (d : Fin 32) : Prop :=
  ∀ (p : Proc τ) (sp : Space) (s : Shape) (e : EltTy) (h : n < nD) (dst : Memref sig Kind.tc sp s e) (sem : SemLoc sig)
    (hd : dst.view.ref.isScScratch = false),
    (DmaTarget.remote (Dev.tc ⟨n, h⟩) dst sem hd : DmaTarget nD τ sig p sp s e) = DmaTarget.remote (Dev.tc (peer c d)) dst sem hd

theorem remoteIs {c : Dev nD} {n : ℕ} {d : Fin 32} (e : n = (c.val + d.val) % 32) : RemoteIs c n d := by
  intro p sp s el h dst sem hd
  have hdd : (⟨n, h⟩ : Dev nD) = peer c d := Fin.ext e
  rw [hdd]

/-- The N-th remote copy is addressed to peer c N. -/
theorem remoteSend (c : Dev nD) :
    RemoteIs c (k0_dev32 c) 1 ∧ RemoteIs c (k0_dev33 c) 2 ∧ RemoteIs c (k0_dev34 c) 3 ∧
    RemoteIs c (k0_dev35 c) 4 ∧ RemoteIs c (k0_dev36 c) 5 ∧ RemoteIs c (k0_dev37 c) 6 ∧
    RemoteIs c (k0_dev38 c) 7 ∧ RemoteIs c (k0_dev39 c) 8 ∧ RemoteIs c (k0_dev40 c) 9 ∧
    RemoteIs c (k0_dev41 c) 10 ∧ RemoteIs c (k0_dev42 c) 11 ∧ RemoteIs c (k0_dev43 c) 12 ∧
    RemoteIs c (k0_dev44 c) 13 ∧ RemoteIs c (k0_dev45 c) 14 ∧ RemoteIs c (k0_dev46 c) 15 ∧
    RemoteIs c (k0_dev47 c) 16 ∧ RemoteIs c (k0_dev48 c) 17 ∧ RemoteIs c (k0_dev49 c) 18 ∧
    RemoteIs c (k0_dev50 c) 19 ∧ RemoteIs c (k0_dev51 c) 20 ∧ RemoteIs c (k0_dev52 c) 21 ∧
    RemoteIs c (k0_dev53 c) 22 ∧ RemoteIs c (k0_dev54 c) 23 ∧ RemoteIs c (k0_dev55 c) 24 ∧
    RemoteIs c (k0_dev56 c) 25 ∧ RemoteIs c (k0_dev57 c) 26 ∧ RemoteIs c (k0_dev58 c) 27 ∧
    RemoteIs c (k0_dev59 c) 28 ∧ RemoteIs c (k0_dev60 c) 29 ∧ RemoteIs c (k0_dev61 c) 30 ∧
    RemoteIs c (k0_dev62 c) 31 :=
  ⟨remoteIs (k0_dev32_eq c), remoteIs (k0_dev33_eq c), remoteIs (k0_dev34_eq c), remoteIs (k0_dev35_eq c), remoteIs (k0_dev36_eq c), remoteIs (k0_dev37_eq c),
   remoteIs (k0_dev38_eq c), remoteIs (k0_dev39_eq c), remoteIs (k0_dev40_eq c), remoteIs (k0_dev41_eq c), remoteIs (k0_dev42_eq c), remoteIs (k0_dev43_eq c),
   remoteIs (k0_dev44_eq c), remoteIs (k0_dev45_eq c), remoteIs (k0_dev46_eq c), remoteIs (k0_dev47_eq c), remoteIs (k0_dev48_eq c), remoteIs (k0_dev49_eq c),
   remoteIs (k0_dev50_eq c), remoteIs (k0_dev51_eq c), remoteIs (k0_dev52_eq c), remoteIs (k0_dev53_eq c), remoteIs (k0_dev54_eq c), remoteIs (k0_dev55_eq c),
   remoteIs (k0_dev56_eq c), remoteIs (k0_dev57_eq c), remoteIs (k0_dev58_eq c), remoteIs (k0_dev59_eq c), remoteIs (k0_dev60_eq c), remoteIs (k0_dev61_eq c),
   remoteIs (k0_dev62_eq c)⟩

/-- (c + 31 - r) mod 32 is the device that addresses c with offset 1 + r. -/
theorem off3_eq (c : Dev nD) (r : Fin 31) :
    k0_off3 c (BitVec.ofNat 32 (1 + r.val)) = rowOff (srcOf c ⟨1 + r.val, by have := r.isLt; omega⟩) := by
  rw [Gen.k0_off3_eq c r]
  have hc : c.val < 32 := c.isLt
  have hr : r.val < 31 := r.isLt
  simp only [rowOff, srcOf]
  congr 2
  omega

/-- The one-row slice of the gather buffer at the offsets o is row p. -/
abbrev RowIs (o : Fin 2 → Nat) (p : Dev nD) : Prop :=
  ∀ h hs, gbuf.slice (Rect.unit (s := S32x768) o (![1, 768] : Fin 2 → Nat) h) hs = rowM p

theorem rowIs {o : Fin 2 → Nat} {p : Dev nD} (e : o = rowOff p) : RowIs o p :=
  fun _ _ => Memref.slice_unit_congr _ e _ _ _ (fun _ => rfl)

theorem row2_eq (c : Dev nD) : RowIs (k0_off2 c) c := rowIs (Gen.k0_off2_eq c)

/-- The copy with offset N lands in the row of the device that addresses c with offset N. -/
theorem row3_eq (c : Dev nD) :
    RowIs (k0_off3 c 1#32) (srcOf c 1) ∧ RowIs (k0_off3 c 2#32) (srcOf c 2) ∧
    RowIs (k0_off3 c 3#32) (srcOf c 3) ∧ RowIs (k0_off3 c 4#32) (srcOf c 4) ∧
    RowIs (k0_off3 c 5#32) (srcOf c 5) ∧ RowIs (k0_off3 c 6#32) (srcOf c 6) ∧
    RowIs (k0_off3 c 7#32) (srcOf c 7) ∧ RowIs (k0_off3 c 8#32) (srcOf c 8) ∧
    RowIs (k0_off3 c 9#32) (srcOf c 9) ∧ RowIs (k0_off3 c 10#32) (srcOf c 10) ∧
    RowIs (k0_off3 c 11#32) (srcOf c 11) ∧ RowIs (k0_off3 c 12#32) (srcOf c 12) ∧
    RowIs (k0_off3 c 13#32) (srcOf c 13) ∧ RowIs (k0_off3 c 14#32) (srcOf c 14) ∧
    RowIs (k0_off3 c 15#32) (srcOf c 15) ∧ RowIs (k0_off3 c 16#32) (srcOf c 16) ∧
    RowIs (k0_off3 c 17#32) (srcOf c 17) ∧ RowIs (k0_off3 c 18#32) (srcOf c 18) ∧
    RowIs (k0_off3 c 19#32) (srcOf c 19) ∧ RowIs (k0_off3 c 20#32) (srcOf c 20) ∧
    RowIs (k0_off3 c 21#32) (srcOf c 21) ∧ RowIs (k0_off3 c 22#32) (srcOf c 22) ∧
    RowIs (k0_off3 c 23#32) (srcOf c 23) ∧ RowIs (k0_off3 c 24#32) (srcOf c 24) ∧
    RowIs (k0_off3 c 25#32) (srcOf c 25) ∧ RowIs (k0_off3 c 26#32) (srcOf c 26) ∧
    RowIs (k0_off3 c 27#32) (srcOf c 27) ∧ RowIs (k0_off3 c 28#32) (srcOf c 28) ∧
    RowIs (k0_off3 c 29#32) (srcOf c 29) ∧ RowIs (k0_off3 c 30#32) (srcOf c 30) ∧
    RowIs (k0_off3 c 31#32) (srcOf c 31) :=
  ⟨rowIs (off3_eq c ⟨0, by decide⟩), rowIs (off3_eq c ⟨1, by decide⟩), rowIs (off3_eq c ⟨2, by decide⟩), rowIs (off3_eq c ⟨3, by decide⟩),
   rowIs (off3_eq c ⟨4, by decide⟩), rowIs (off3_eq c ⟨5, by decide⟩), rowIs (off3_eq c ⟨6, by decide⟩), rowIs (off3_eq c ⟨7, by decide⟩),
   rowIs (off3_eq c ⟨8, by decide⟩), rowIs (off3_eq c ⟨9, by decide⟩), rowIs (off3_eq c ⟨10, by decide⟩), rowIs (off3_eq c ⟨11, by decide⟩),
   rowIs (off3_eq c ⟨12, by decide⟩), rowIs (off3_eq c ⟨13, by decide⟩), rowIs (off3_eq c ⟨14, by decide⟩), rowIs (off3_eq c ⟨15, by decide⟩),
   rowIs (off3_eq c ⟨16, by decide⟩), rowIs (off3_eq c ⟨17, by decide⟩), rowIs (off3_eq c ⟨18, by decide⟩), rowIs (off3_eq c ⟨19, by decide⟩),
   rowIs (off3_eq c ⟨20, by decide⟩), rowIs (off3_eq c ⟨21, by decide⟩), rowIs (off3_eq c ⟨22, by decide⟩), rowIs (off3_eq c ⟨23, by decide⟩),
   rowIs (off3_eq c ⟨24, by decide⟩), rowIs (off3_eq c ⟨25, by decide⟩), rowIs (off3_eq c ⟨26, by decide⟩), rowIs (off3_eq c ⟨27, by decide⟩),
   rowIs (off3_eq c ⟨28, by decide⟩), rowIs (off3_eq c ⟨29, by decide⟩), rowIs (off3_eq c ⟨30, by decide⟩)⟩

theorem rowMajor_rank1 (d : Fin 1 → Nat) (x : (⟨1, d⟩ : Shape).Idx) :
    ((⟨1, d⟩ : Shape).rowMajor x).val = (x 0).val := by
  have h := Shape.rowMajorPi_succ_val (n := 0) d x
  have h2 := (Shape.rowMajorPi (fun a : Fin 0 => d a.succ) (fun a => x a.succ)).isLt
  simp only [Finset.univ_eq_empty, Finset.prod_empty] at h h2
  show ((Shape.rowMajorPi d) x).val = _
  omega

/-- A semaphore array laid on the pool from a base index, sliced at position k and squeezed to rank zero, names
    the pool's semaphore base + k. -/
theorem sem_unit_val (base : Nat) (h : base + S32.numel ≤ 66) (k : Nat)
    (h₁ : ∀ a, (![k] : Fin 1 → Nat) a + (![1] : Fin 1 → Nat) a ≤ S32.size a) (h₂ : S1.Squeezes S_) :
    ((((SemArray.consecutive base S32 h : DmaSems sig S32).slice (Rect.unit (s := S32) ![k] (![1] : Fin 1 → Nat) h₁)).squeeze S_ h₂).sem).val
      = base + k := by
  show base + (S32.rowMajor ((Rect.unit (s := S32) ![k] (![1] : Fin 1 → Nat) h₁).emb
    (Shape.reshapeEquiv h₂.numel_eq fun i => i.elim0))).val = base + k
  rw [rowMajor_rank1, Rect.emb_apply]
  have := ((Shape.reshapeEquiv h₂.numel_eq fun i => i.elim0) 0).isLt
  simp only [Rect.unit] at this ⊢
  simp at this ⊢
  omega

abbrev SemIs (A : DmaSems sig S32) (k : ℕ) (s : DmaSem sig) : Prop :=
  ∀ h₁ h₂, ((A.slice (Rect.unit (s := S32) ![k] (![1] : Fin 1 → Nat) h₁)).squeeze S_ h₂).sem = s

theorem semIs (base : ℕ) (h : base + S32.numel ≤ 66) (k : ℕ) (s : DmaSem sig) (e : s.val = base + k) :
    SemIs (SemArray.consecutive base S32 h) k s :=
  fun h₁ h₂ => Fin.ext ((sem_unit_val base h k h₁ h₂).trans e.symm)

section
variable [Facts₀]

theorem cpy_sem : (cc0_scratch2 : DmaSems sig S_).sem = cpySem := by
  apply Fin.ext
  show 1 + (S_.rowMajor _).val = 1
  have h := (S_.rowMajor (fun i => i.elim0)).isLt
  have h1 : S_.numel = 1 := by decide
  omega

/-- The sending-side semaphores are the pool's 2 + d, -/
theorem send_sem :
    SemIs cc0_scratch3 1 (sendSem 1) ∧ SemIs cc0_scratch3 2 (sendSem 2) ∧ SemIs cc0_scratch3 3 (sendSem 3) ∧
    SemIs cc0_scratch3 4 (sendSem 4) ∧ SemIs cc0_scratch3 5 (sendSem 5) ∧ SemIs cc0_scratch3 6 (sendSem 6) ∧
    SemIs cc0_scratch3 7 (sendSem 7) ∧ SemIs cc0_scratch3 8 (sendSem 8) ∧ SemIs cc0_scratch3 9 (sendSem 9) ∧
    SemIs cc0_scratch3 10 (sendSem 10) ∧ SemIs cc0_scratch3 11 (sendSem 11) ∧ SemIs cc0_scratch3 12 (sendSem 12) ∧
    SemIs cc0_scratch3 13 (sendSem 13) ∧ SemIs cc0_scratch3 14 (sendSem 14) ∧ SemIs cc0_scratch3 15 (sendSem 15) ∧
    SemIs cc0_scratch3 16 (sendSem 16) ∧ SemIs cc0_scratch3 17 (sendSem 17) ∧ SemIs cc0_scratch3 18 (sendSem 18) ∧
    SemIs cc0_scratch3 19 (sendSem 19) ∧ SemIs cc0_scratch3 20 (sendSem 20) ∧ SemIs cc0_scratch3 21 (sendSem 21) ∧
    SemIs cc0_scratch3 22 (sendSem 22) ∧ SemIs cc0_scratch3 23 (sendSem 23) ∧ SemIs cc0_scratch3 24 (sendSem 24) ∧
    SemIs cc0_scratch3 25 (sendSem 25) ∧ SemIs cc0_scratch3 26 (sendSem 26) ∧ SemIs cc0_scratch3 27 (sendSem 27) ∧
    SemIs cc0_scratch3 28 (sendSem 28) ∧ SemIs cc0_scratch3 29 (sendSem 29) ∧ SemIs cc0_scratch3 30 (sendSem 30) ∧
    SemIs cc0_scratch3 31 (sendSem 31) :=
  ⟨semIs 2 _ 1 _ rfl, semIs 2 _ 2 _ rfl, semIs 2 _ 3 _ rfl, semIs 2 _ 4 _ rfl, semIs 2 _ 5 _ rfl, semIs 2 _ 6 _ rfl, semIs 2 _ 7 _ rfl, semIs 2 _ 8 _ rfl,
   semIs 2 _ 9 _ rfl, semIs 2 _ 10 _ rfl, semIs 2 _ 11 _ rfl, semIs 2 _ 12 _ rfl, semIs 2 _ 13 _ rfl, semIs 2 _ 14 _ rfl, semIs 2 _ 15 _ rfl, semIs 2 _ 16 _ rfl,
   semIs 2 _ 17 _ rfl, semIs 2 _ 18 _ rfl, semIs 2 _ 19 _ rfl, semIs 2 _ 20 _ rfl, semIs 2 _ 21 _ rfl, semIs 2 _ 22 _ rfl, semIs 2 _ 23 _ rfl, semIs 2 _ 24 _ rfl,
   semIs 2 _ 25 _ rfl, semIs 2 _ 26 _ rfl, semIs 2 _ 27 _ rfl, semIs 2 _ 28 _ rfl, semIs 2 _ 29 _ rfl, semIs 2 _ 30 _ rfl, semIs 2 _ 31 _ rfl⟩

/-- and the receiving-side ones its 34 + d. -/
theorem recv_sem :
    SemIs cc0_scratch4 1 (recvSem 1) ∧ SemIs cc0_scratch4 2 (recvSem 2) ∧ SemIs cc0_scratch4 3 (recvSem 3) ∧
    SemIs cc0_scratch4 4 (recvSem 4) ∧ SemIs cc0_scratch4 5 (recvSem 5) ∧ SemIs cc0_scratch4 6 (recvSem 6) ∧
    SemIs cc0_scratch4 7 (recvSem 7) ∧ SemIs cc0_scratch4 8 (recvSem 8) ∧ SemIs cc0_scratch4 9 (recvSem 9) ∧
    SemIs cc0_scratch4 10 (recvSem 10) ∧ SemIs cc0_scratch4 11 (recvSem 11) ∧ SemIs cc0_scratch4 12 (recvSem 12) ∧
    SemIs cc0_scratch4 13 (recvSem 13) ∧ SemIs cc0_scratch4 14 (recvSem 14) ∧ SemIs cc0_scratch4 15 (recvSem 15) ∧
    SemIs cc0_scratch4 16 (recvSem 16) ∧ SemIs cc0_scratch4 17 (recvSem 17) ∧ SemIs cc0_scratch4 18 (recvSem 18) ∧
    SemIs cc0_scratch4 19 (recvSem 19) ∧ SemIs cc0_scratch4 20 (recvSem 20) ∧ SemIs cc0_scratch4 21 (recvSem 21) ∧
    SemIs cc0_scratch4 22 (recvSem 22) ∧ SemIs cc0_scratch4 23 (recvSem 23) ∧ SemIs cc0_scratch4 24 (recvSem 24) ∧
    SemIs cc0_scratch4 25 (recvSem 25) ∧ SemIs cc0_scratch4 26 (recvSem 26) ∧ SemIs cc0_scratch4 27 (recvSem 27) ∧
    SemIs cc0_scratch4 28 (recvSem 28) ∧ SemIs cc0_scratch4 29 (recvSem 29) ∧ SemIs cc0_scratch4 30 (recvSem 30) ∧
    SemIs cc0_scratch4 31 (recvSem 31) :=
  ⟨semIs 34 _ 1 _ rfl, semIs 34 _ 2 _ rfl, semIs 34 _ 3 _ rfl, semIs 34 _ 4 _ rfl, semIs 34 _ 5 _ rfl, semIs 34 _ 6 _ rfl, semIs 34 _ 7 _ rfl, semIs 34 _ 8 _ rfl,
   semIs 34 _ 9 _ rfl, semIs 34 _ 10 _ rfl, semIs 34 _ 11 _ rfl, semIs 34 _ 12 _ rfl, semIs 34 _ 13 _ rfl, semIs 34 _ 14 _ rfl, semIs 34 _ 15 _ rfl, semIs 34 _ 16 _ rfl,
   semIs 34 _ 17 _ rfl, semIs 34 _ 18 _ rfl, semIs 34 _ 19 _ rfl, semIs 34 _ 20 _ rfl, semIs 34 _ 21 _ rfl, semIs 34 _ 22 _ rfl, semIs 34 _ 23 _ rfl, semIs 34 _ 24 _ rfl,
   semIs 34 _ 25 _ rfl, semIs 34 _ 26 _ rfl, semIs 34 _ 27 _ rfl, semIs 34 _ 28 _ rfl, semIs 34 _ 29 _ rfl, semIs 34 _ 30 _ rfl, semIs 34 _ 31 _ rfl⟩

end

end Cert.Kernel.DistSum

end
-- ==== Proof.Bits.Rows.lean ====
import proofs.«901078_g7700000000001079_dist_sum_ax0_shard0_i_m1536_n768_v7x_i32_f32_1_alg».proof.Proof.Bits.State
import Idealize.ShloMosaic.Rules.PointsTo

/-! The gather buffer as 32 rows: each row apart, a row shared among its 31 readers, and the contents of a row once it is written. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem row_mem (p : Dev nD) (i : S32x768.Idx) : i ∈ (rowM p).view.set ↔ (i 0).val = p.val := by
  rw [show (rowM p).view.set = (Rect.unit (s := S32x768) (rowOff p) S1x768.size (rowOff_inb p)).set from
    View.set_slice_whole _ _, Rect.mem_set_unit, Fin.forall_fin_two]
  have h1 : (i 1).val < 768 := (i 1).isLt
  show (p.val ≤ (i 0).val ∧ (i 0).val < p.val + 1) ∧ (0 ≤ (i 1).val ∧ (i 1).val < 0 + 768) ↔ _
  omega

theorem row_disjoint (p p' : Dev nD) (h : p ≠ p') : Disjoint (rowM p).view.set (rowM p').view.set :=
  Finset.disjoint_left.mpr fun i hi hi' =>
    h (Fin.ext (((row_mem p i).mp hi).symm.trans ((row_mem p' i).mp hi')))

theorem row_cover : (Finset.univ : Finset S32x768.Idx) = Finset.univ.biUnion fun p : Dev nD => (rowM p).view.set :=
  Finset.ext fun i => ⟨fun _ => Finset.mem_biUnion.mpr ⟨⟨(i 0).val, (i 0).isLt⟩, Finset.mem_univ _, (row_mem _ i).mpr rfl⟩,
    fun _ => Finset.mem_univ _⟩

theorem row_univ_eq (c : Dev nD) (q : PosShare TreeShare) (f : Buf (Elt F) ((c : Thread nD τ).loc cc0_scratch1)) :
    ((c : Thread nD τ).loc cc0_scratch1 ↦{q} f : sProp 𝕄) = bigSep Finset.univ fun p : Dev nD => rowPts c p q f := by
  unfold rowPts
  rw [← pointsTo_biUnion (ℓ := (c : Thread nD τ).loc cc0_scratch1) (q := q) (f := f) (Finset.univ : Finset (Dev nD))
    (fun p => (rowM p).view.set) (fun p _ p' _ hne => row_disjoint p p' hne)]
  exact congrArg (fun S => ((c : Thread nD τ).loc cc0_scratch1 ↦[S]{q} f : sProp 𝕄)) row_cover

theorem row_reindex (c : Dev nD) (φ : ℕ → Dev nD)
    (hsurj : ∀ p : Dev nD, p ≠ c → ∃ d, 0 < d ∧ d ≤ 31 ∧ φ d = p)
    (hne : ∀ d, 0 < d → d ≤ 31 → φ d ≠ c)
    (hinj : ∀ d d', 0 < d → d ≤ 31 → 0 < d' → d' ≤ 31 → φ d = φ d' → d = d')
    (Φ : Dev nD → sProp 𝕄) :
    bigSep Finset.univ Φ = iprop(Φ c ∗ bigSep (Finset.Ioc 0 31) fun d => Φ (φ d)) := by
  classical
  have himg : (Finset.univ.erase c : Finset (Dev nD)) = (Finset.Ioc 0 31).image φ := by
    ext p
    simp only [Finset.mem_erase, Finset.mem_univ, and_true, Finset.mem_image, Finset.mem_Ioc]
    constructor
    · intro hp
      obtain ⟨d, h0, h1, e⟩ := hsurj p hp
      exact ⟨d, ⟨h0, h1⟩, e⟩
    · rintro ⟨d, ⟨h0, h1⟩, rfl⟩
      exact hne d h0 h1
  rw [bigSep_univ_split c, himg, bigSep_image_of_injOn (fun d hd d' hd' e => by
    have h := Finset.mem_Ioc.mp (Finset.mem_coe.mp hd)
    have h' := Finset.mem_Ioc.mp (Finset.mem_coe.mp hd')
    exact hinj d d' h.1 h.2 h'.1 h'.2 e)]
  rfl

theorem row_peer_surj (c p : Dev nD) (h : p ≠ c) : ∃ d, 0 < d ∧ d ≤ 31 ∧ peer c (off d) = p := by
  have hc : c.val < 32 := c.isLt
  have hp : p.val < 32 := p.isLt
  have hne : p.val ≠ c.val := fun e => h (Fin.ext e)
  refine ⟨(p.val + 32 - c.val) % 32, by omega, by omega, Fin.ext ?_⟩
  show (c.val + ((p.val + 32 - c.val) % 32) % 32) % 32 = p.val
  omega

theorem row_peer_ne (c : Dev nD) (d : ℕ) (h0 : 0 < d) (h1 : d ≤ 31) : peer c (off d) ≠ c := by
  have hc : c.val < 32 := c.isLt
  intro e
  have e' : (c.val + d % 32) % 32 = c.val := congrArg Fin.val e
  omega

theorem row_peer_inj (c : Dev nD) (d d' : ℕ) (h0 : 0 < d) (h1 : d ≤ 31) (h0' : 0 < d') (h1' : d' ≤ 31)
    (e : peer c (off d) = peer c (off d')) : d = d' := by
  have hc : c.val < 32 := c.isLt
  have e' : (c.val + d % 32) % 32 = (c.val + d' % 32) % 32 := congrArg Fin.val e
  omega

theorem row_src_surj (c p : Dev nD) (h : p ≠ c) : ∃ d, 0 < d ∧ d ≤ 31 ∧ srcOf c (off d) = p := by
  have hc : c.val < 32 := c.isLt
  have hp : p.val < 32 := p.isLt
  have hne : p.val ≠ c.val := fun e => h (Fin.ext e)
  refine ⟨(c.val + 32 - p.val) % 32, by omega, by omega, Fin.ext ?_⟩
  show (c.val + 32 - ((c.val + 32 - p.val) % 32) % 32) % 32 = p.val
  omega

theorem row_src_ne (c : Dev nD) (d : ℕ) (h0 : 0 < d) (h1 : d ≤ 31) : srcOf c (off d) ≠ c := by
  have hc : c.val < 32 := c.isLt
  intro e
  have e' : (c.val + 32 - d % 32) % 32 = c.val := congrArg Fin.val e
  omega

theorem row_src_inj (c : Dev nD) (d d' : ℕ) (h0 : 0 < d) (h1 : d ≤ 31) (h0' : 0 < d') (h1' : d' ≤ 31)
    (e : srcOf c (off d) = srcOf c (off d')) : d = d' := by
  have hc : c.val < 32 := c.isLt
  have e' : (c.val + 32 - d % 32) % 32 = (c.val + 32 - d' % 32) % 32 := congrArg Fin.val e
  omega

theorem gbuf_split_eq (c : Dev nD) (q : PosShare TreeShare) (f : Buf (Elt F) ((c : Thread nD τ).loc cc0_scratch1)) :
    ((c : Thread nD τ).loc cc0_scratch1 ↦{q} f : sProp 𝕄)
      = iprop(rowPts c c q f ∗ bigSep (Finset.Ioc 0 31) fun d => rowPts c (peer c (off d)) q f) :=
  (row_univ_eq c q f).trans (row_reindex c (fun d => peer c (off d)) (row_peer_surj c) (row_peer_ne c) (row_peer_inj c)
    fun p => rowPts c p q f)

theorem gbuf_split_src_eq (c : Dev nD) (q : PosShare TreeShare) (f : Buf (Elt F) ((c : Thread nD τ).loc cc0_scratch1)) :
    ((c : Thread nD τ).loc cc0_scratch1 ↦{q} f : sProp 𝕄)
      = iprop(rowPts c c q f ∗ bigSep (Finset.Ioc 0 31) fun d => rowPts c (srcOf c (off d)) q f) :=
  (row_univ_eq c q f).trans (row_reindex c (fun d => srcOf c (off d)) (row_src_surj c) (row_src_ne c) (row_src_inj c)
    fun p => rowPts c p q f)

theorem gbuf_split (c : Dev nD) (f : Buf (Elt F) ((c : Thread nD τ).loc cc0_scratch1)) :
    ((c : Thread nD τ).loc cc0_scratch1 ↦{fullShare} f : sProp 𝕄)
      ⊢ iprop(rowPts c c fullShare f ∗ bigSep (Finset.Ioc 0 31) fun d => rowPts c (peer c (off d)) fullShare f) :=
  Entails.of_eq (gbuf_split_eq c fullShare f)

theorem row_congr (c p : Dev nD) (q : PosShare TreeShare) (f g : Buf (Elt F) ((c : Thread nD τ).loc cc0_scratch1))
    (h : ∀ i ∈ (rowM p).view.set, f i = g i) : (rowPts c p q f : sProp 𝕄) = rowPts c p q g :=
  pointsTo_congr h

theorem row_sep_rot (B S0 S' R' : sProp 𝕄) : iprop(B ∗ S0 ∗ S' ∗ R') = iprop((S' ∗ B) ∗ S0 ∗ R') :=
  have x : BIBase.BiEntails iprop(B ∗ S0 ∗ S' ∗ R') iprop((S' ∗ B) ∗ S0 ∗ R') :=
    (Laws.sep_congr_right Laws.sep_left_comm).trans (Laws.sep_left_comm.trans Laws.sep_assoc.symm)
  BI.equiv_iff.mp ⟨x.1, x.2⟩

theorem row_shares_upto (c : Dev nD) (f : Buf (Elt F) ((c : Thread nD τ).loc cc0_scratch1)) (k : ℕ) :
    (rowPts c c fullShare f : sProp 𝕄)
      = iprop((bigSep (Finset.Ioc 0 k) fun d => rowPts c c (shareOf d) f) ∗ rowPts c c (shareOf 0) f
          ∗ rowPts c c (shareOf.restShare k) f) := by
  induction k with
  | zero =>
    have h := pointsTo_share (nD := nD) (τ := τ) (sig := sig) (Ix := Unit) (Val := Elt F) (Name := ℕ) (U := UU) (Lvl := ℕ)
      (ℓ := (c : Thread nD τ).loc cc0_scratch1) (I := (rowM c).view.set) (f := f)
      (PosShare.mem_left_op_right fullShare)
    rw [Finset.Ioc_self, bigSep_empty]
    exact (BI.equiv_iff.mp ⟨h.1, h.2⟩).trans (BI.equiv_iff.mp BI.emp_sep).symm
  | succ k ih =>
    have h := pointsTo_share (nD := nD) (τ := τ) (sig := sig) (Ix := Unit) (Val := Elt F) (Name := ℕ) (U := UU) (Lvl := ℕ)
      (ℓ := (c : Thread nD τ).loc cc0_scratch1) (I := (rowM c).view.set) (f := f)
      (PosShare.mem_left_op_right (shareOf.restShare k))
    have hR : (rowPts c c (shareOf.restShare k) f : sProp 𝕄)
        = iprop(rowPts c c (shareOf (k + 1)) f ∗ rowPts c c (shareOf.restShare (k + 1)) f) :=
      BI.equiv_iff.mp ⟨h.1, h.2⟩
    have hI : Finset.Ioc 0 (k + 1) = insert (k + 1) (Finset.Ioc 0 k) := by
      ext d; simp only [Finset.mem_Ioc, Finset.mem_insert]; omega
    rw [hI, bigSep_insert (by simp), ih, hR]
    exact row_sep_rot _ _ _ _

theorem row_shares_eq (c : Dev nD) (f : Buf (Elt F) ((c : Thread nD τ).loc cc0_scratch1)) :
    (rowPts c c fullShare f : sProp 𝕄)
      = iprop((bigSep (Finset.Ioc 0 31) fun d => rowPts c c (shareOf (off d).val) f) ∗ rowPts c c (shareOf 0) f
          ∗ rowPts c c (shareOf.restShare 31) f) := by
  have hb : (bigSep (Finset.Ioc 0 31) fun d => rowPts c c (shareOf (off d).val) f : sProp 𝕄)
      = bigSep (Finset.Ioc 0 31) fun d => rowPts c c (shareOf d) f :=
    bigSep_congr fun d hd => by
      have h := Finset.mem_Ioc.mp hd
      have e : (off d).val = d := Nat.mod_eq_of_lt (by omega)
      rw [e]
  rw [hb]
  exact row_shares_upto c f 31

theorem row_shares (c : Dev nD) (f : Buf (Elt F) ((c : Thread nD τ).loc cc0_scratch1)) :
    (rowPts c c fullShare f : sProp 𝕄)
      ⊢ iprop((bigSep (Finset.Ioc 0 31) fun d => rowPts c c (shareOf (off d).val) f) ∗ rowPts c c (shareOf 0) f
          ∗ rowPts c c (shareOf.restShare 31) f) :=
  Entails.of_eq (row_shares_eq c f)

theorem row_unshares (c : Dev nD) (f : Buf (Elt F) ((c : Thread nD τ).loc cc0_scratch1)) :
    iprop((bigSep (Finset.Ioc 0 31) fun d => rowPts c c (shareOf (off d).val) f) ∗ rowPts c c (shareOf 0) f
          ∗ rowPts c c (shareOf.restShare 31) f)
      ⊢ (rowPts c c fullShare f : sProp 𝕄) :=
  Entails.of_eq (row_shares_eq c f).symm

theorem landed_row_agree (c p : Dev nD) (fd : Buf (Elt F) ((rowM c).view.loc (p : Thread nD τ))) :
    ∀ i ∈ (rowM c).view.set,
      (rowM c).view.write (Elt F) fd ((rowM c).view.read (Elt F) (rowsOf m c c)) Finset.univ i = rowsOf m p c i := by
  intro i hi
  rw [View.write_read_eq_piecewise]
  exact Finset.piecewise_eq_of_mem _ _ _ hi

theorem landed_row (c p : Dev nD) (fd : Buf (Elt F) ((rowM c).view.loc (p : Thread nD τ))) :
    ((rowM c).view.loc (p : Thread nD τ) ↦[(rowM c).view.set]{fullShare}
        (rowM c).view.write (Elt F) fd ((rowM c).view.read (Elt F) (rowsOf m c c)) Finset.univ : sProp 𝕄)
      ⊢ rowPts p c fullShare (rowsOf m p c) :=
  Entails.of_eq (pointsTo_congr (landed_row_agree m c p fd))

theorem stored_row_agree (c : Dev nD) (f0 : Buf (Elt F) ((c : Thread nD τ).loc cc0_scratch1)) :
    ∀ i ∈ (rowM c).view.set,
      (gbuf.access (Rect.unit (s := S32x768) (rowOff c) S1x768.size (rowOff_inb c))).write (Elt F) f0 (partialOf m c) Finset.univ i
        = rowsOf m c c i := by
  intro i hi
  obtain ⟨x, -, rfl⟩ := Finset.mem_map.mp hi
  refine (View.write_emb_of_mem _ _ (Finset.mem_univ x)).trans ((cast_eq _ _).trans ?_)
  show partialOf m c x = partialOf m c (ValueIdx.ix2 (0 : Fin 1) (((rowM c).view.emb x) 1))
  refine congrArg (partialOf m c) (funext fun a => ?_)
  match a with
  | ⟨0, h0⟩ => exact Fin.ext (Nat.lt_one_iff.mp (x ⟨0, h0⟩).isLt)
  | ⟨1, h1⟩ => exact Fin.ext (show (x ⟨1, h1⟩).val = 0 + 1 * (x ⟨1, h1⟩).val by omega)

theorem stored_row (c : Dev nD) (q : PosShare TreeShare) (f0 : Buf (Elt F) ((c : Thread nD τ).loc cc0_scratch1)) :
    (rowPts c c q ((gbuf.access (Rect.unit (s := S32x768) (rowOff c) S1x768.size (rowOff_inb c))).write (Elt F) f0
        (partialOf m c) Finset.univ) : sProp 𝕄) = rowPts c c q (rowsOf m c c) :=
  row_congr c c q _ _ (stored_row_agree m c f0)

theorem row_gathered (c p : Dev nD) (q : PosShare TreeShare) :
    (rowPts c p q (rowsOf m c p) : sProp 𝕄) = rowPts c p q (gathered m : Buf (Elt F) ((c : Thread nD τ).loc cc0_scratch1)) :=
  row_congr c p q _ _ fun i hi => by
    have e : (i 0 : Dev nD) = p := Fin.ext ((row_mem p i).mp hi)
    show partialOf m p _ = partialOf m (i 0) _
    rw [e]

theorem gather_join (c : Dev nD) :
    iprop(rowPts c c fullShare (rowsOf m c c) ∗ bigSep (Finset.Ioc 0 31) fun d => recvPay m c (off d))
      ⊢ ((c : Thread nD τ).loc cc0_scratch1 ↦{fullShare} (gathered m : Buf (Elt F) ((c : Thread nD τ).loc cc0_scratch1)) : sProp 𝕄) := by
  rw [gbuf_split_src_eq c fullShare, ← row_gathered m c c fullShare,
    bigSep_congr (fun d _ => (row_gathered m c (srcOf c (off d)) fullShare).symm)]
  exact .rfl

end Cert.Kernel.DistSum

end
-- ==== Proof.Bits.Steps.lean ====
import proofs.«901078_g7700000000001079_dist_sum_ax0_shard0_i_m1536_n768_v7x_i32_f32_1_alg».proof.Proof.Bits.State
import proofs.«901078_g7700000000001079_dist_sum_ax0_shard0_i_m1536_n768_v7x_i32_f32_1_alg».proof.Proof.Bits.RingFacts
import proofs.«901078_g7700000000001079_dist_sum_ax0_shard0_i_m1536_n768_v7x_i32_f32_1_alg».proof.Proof.Bits.Rows

/-! One signal and one remote copy as steps of their phases, with the facts about the table that they and the waits share. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem stp_ent {P R : sProp 𝕄} (h : Idealize.SL.BI.Entails P R) : P ⊢ R := h

theorem stp_bigSep_insert {I : Type} [DecidableEq I] {s : Finset I} {i : I} (hi : i ∉ s) (Φ : I → sProp 𝕄) :
    bigSep (insert i s) Φ = iprop(Φ i ∗ bigSep s Φ) := BI.bigSep_insert hi

theorem stp_off_val (n : ℕ) (hn : n < 31) : (off (n + 1)).val = n + 1 := by
  show (n + 1) % 32 = n + 1
  exact Nat.mod_eq_of_lt (by omega)

private theorem stp_off_ne (n : ℕ) (hn : n < 31) : off (n + 1) ≠ 0 := by
  intro h
  have h' : (off (n + 1)).val = ((0 : Fin 32) : ℕ) := congrArg Fin.val h
  rw [stp_off_val n hn] at h'
  have h0 : ((0 : Fin 32) : ℕ) = 0 := rfl
  omega

theorem stp_Ioc_left (n : ℕ) (hn : n < 31) : Finset.Ioc n 31 = insert (n + 1) (Finset.Ioc (n + 1) 31) := by
  ext x; simp only [Finset.mem_Ioc, Finset.mem_insert]; omega

theorem stp_Ioc_right (n : ℕ) : Finset.Ioc 0 (n + 1) = insert (n + 1) (Finset.Ioc 0 n) := by
  ext x; simp only [Finset.mem_Ioc, Finset.mem_insert]; omega

theorem stp_notMem_left (n : ℕ) : n + 1 ∉ Finset.Ioc (n + 1) 31 := by
  simp only [Finset.mem_Ioc]; omega

theorem stp_notMem_right (n : ℕ) : n + 1 ∉ Finset.Ioc 0 n := by
  simp only [Finset.mem_Ioc]; omega

private theorem stp_owedS_succ (c : Dev nD) (n : ℕ) (hn : n < 31) :
    owedS c n = owedS c (n + 1) + tallyAt (barC (peer c (off (n + 1)))) () 1 := by
  unfold owedS
  rw [stp_Ioc_left n hn, Finset.sum_insert (stp_notMem_left n), add_comm]

private theorem stp_owedT_succ (c : Dev nD) (n : ℕ) (hn : n < 31) :
    owedT c n = owedT c (n + 1) + tallyAt (recvC (peer c (off (n + 1))) (off (n + 1))) () N := by
  unfold owedT
  rw [stp_Ioc_left n hn, Finset.sum_insert (stp_notMem_left n), add_comm]

private theorem stp_duties_bar (p : Dev nD) : (Rd (F := F) m).duties (barC p) 0 = Finset.univ.erase (p : Fin 32) := by
  show (if (0 : ℕ) = 0 then dutiesOf (barC p) else ∅) = _
  rw [if_pos rfl]
  unfold dutiesOf
  rw [if_pos rfl]
  show (if barS = barS then Finset.univ.erase (p : Fin 32) else ∅) = _
  rw [if_pos rfl]

private theorem stp_payload_bar (p : Dev nD) (d : Fin 32) : (Rd (F := F) m).payload (barC p) 0 d = barPay p d := rfl

private theorem stp_kcell_bar (p : Dev nD) : kcell (p, (0 : Fin 66)) = barC p := by
  show ((p : Thread nD τ), csem 0) = _
  unfold csem
  rw [if_pos (by rfl : ((0 : Fin 66) : ℕ) = 0)]

private theorem stp_inv_bar (K : Dev nD × Fin 66 → ℕ) (p : Dev nD) :
    records m K ⊢ cellInv ER (Rd m) (K (p, 0)) (barC p) := by
  rw [← stp_kcell_bar p]
  unfold records
  iintro ⟨H, -⟩
  iapply (stp_ent (bigSep_elim (Φ := fun ck : Dev nD × Fin 66 => cellInv ER (Rd m) (K ck) (kcell ck))
    (Finset.mem_univ (p, (0 : Fin 66))))) $$ H

private theorem stp_reached_bar (K : Dev nD × Fin 66 → ℕ) (p : Dev nD) :
    records m K ⊢ reached ER (barC p) 0 := by
  rw [← stp_kcell_bar p]
  unfold records
  iintro ⟨-, H⟩
  iapply (stp_ent (bigSep_elim (Φ := fun ck : Dev nD × Fin 66 => reached ER (kcell ck) 0)
    (Finset.mem_univ (p, (0 : Fin 66))))) $$ H

abbrev A1 : Memref sig .tc .vmem S1x768 .f32 := Memref.whole cc0_stg0_0

theorem sig_at (K : Dev nD × Fin 66 → ℕ) (c : Dev nD) (n : ℕ) (hn : n < 31) (d : Fin 32) (hd : d = off (n+1)) {α : Type} {Q : α → sProp 𝕄} {k : PUnit → Prog (TpuEff nD τ sig (Elt F) Λ₀ .tc) α} :
   iprop(records m K ∗ owesE c (owedT c 0 + owedS c n) ∗ SigSt c n)
     ⊢ iprop(((owesE c (owedT c 0 + owedS c (n+1)) ∗ SigSt c (n+1)) -∗ wp frame (wpE (defs₀ (F := F)) 𝒱₀ (c : Thread nD τ) none) Set.univ (k ⟨⟩) Q) -∗ wp frame (wpE (defs₀ (F := F)) 𝒱₀ (c : Thread nD τ) none) Set.univ (.op (.semSignal ((peer c d : Dev nD) : Thread nD τ) barS (1#32).toNat) k) Q) := by
  subst hd
  have h1 : (1#32 : BitVec 32).toNat = 1 := rfl
  rw [h1]
  have hO : owedT c 0 + owedS c n
      = (owedT c 0 + owedS c (n + 1)) + tallyAt (barC (peer c (off (n + 1)))) () 1 := by
    rw [stp_owedS_succ c n hn]; exact (add_assoc _ _ _).symm
  have hmem : (c : Fin 32) ∈ (Rd (F := F) m).duties (barC (peer c (off (n + 1)))) 0 := by
    rw [stp_duties_bar]
    exact Finset.mem_erase.mpr ⟨fun h => peer_ne c (stp_off_ne n hn) h.symm, Finset.mem_univ _⟩
  unfold owesE SigSt
  rw [stp_Ioc_left n hn, stp_bigSep_insert (stp_notMem_left n)]
  iintro ⟨#Hrec, ⟨%W, HL⟩, ⟨Htok, Hrow⟩, Hrest⟩ Hk
  ihave #Hκ := (stp_inv_bar m K (peer c (off (n + 1)))) $$ Hrec
  ihave #Hr := (stp_reached_bar m K (peer c (off (n + 1)))) $$ Hrec
  iapply (wp_signal 𝒱₀ ER (Rd m) (c : Thread nD τ) none (dst := ((peer c (off (n + 1)) : Dev nD) : Thread nD τ)) (sem := barS)
      (r := 0) (d := (c : Fin 32)) (κ := K (peer c (off (n + 1)), 0)) hmem rfl () (owedT c 0 + owedS c (n + 1)) hO)
    $$ [HL Htok Hrow]
  · isplitr; · iexact Hκ
    isplitl [HL]; · iexact HL
    isplitl [Htok]; · iexact Htok
    isplitl [Hrow]; · rw [stp_payload_bar]; unfold barPay; iexact Hrow
    iexact Hr
  iintro HL
  iapply Hk
  isplitl [HL]; · iexists _; iexact HL
  iexact Hrest

theorem stp_send_isSend (d : Fin 32) (hd : d.val ≠ 0) : isSendIx (sendSem d) := by
  have := d.isLt
  show 3 ≤ 2 + d.val ∧ 2 + d.val ≤ 33
  omega

theorem stp_send_not_isRecv (d : Fin 32) : ¬ isRecvIx (sendSem d) := by
  have := d.isLt
  show ¬ 35 ≤ 2 + d.val
  omega

theorem stp_send_ne_cpy (d : Fin 32) : sendSem d ≠ cpySem := by
  intro h
  have h' : 2 + d.val = 1 := congrArg Fin.val h
  omega

theorem stp_recv_isRecv (d : Fin 32) (hd : d.val ≠ 0) : isRecvIx (recvSem d) := by
  show 35 ≤ 34 + d.val
  omega

theorem stp_recv_ne_cpy (d : Fin 32) : recvSem d ≠ cpySem := by
  intro h
  have h' : 34 + d.val = 1 := congrArg Fin.val h
  omega

theorem stp_recvOff (d : Fin 32) : recvOff (recvSem d) = d := by
  apply Fin.ext
  show (34 + d.val - 34) % 32 = d.val
  rw [Nat.add_sub_cancel_left]
  exact Nat.mod_eq_of_lt d.isLt

theorem stp_sendOff (d : Fin 32) : sendOff (sendSem d) = d := by
  apply Fin.ext
  show (2 + d.val - 2) % 32 = d.val
  rw [Nat.add_sub_cancel_left]
  exact Nat.mod_eq_of_lt d.isLt

theorem stp_duties_recv (c : Dev nD) (d : Fin 32) (hd : d.val ≠ 0) : (Rd (F := F) m).duties (recvC c d) 0 = {0} := by
  show (if (0 : ℕ) = 0 then dutiesOf (recvC c d) else ∅) = {0}
  rw [if_pos rfl]
  unfold dutiesOf
  rw [if_pos rfl]
  show (if recvSem d = cpySem ∨ isSendIx (recvSem d) ∨ isRecvIx (recvSem d) then ({0} : Finset (Fin 32)) else ∅) = {0}
  rw [if_pos (Or.inr (Or.inr (stp_recv_isRecv d hd)))]

theorem stp_duties_send (c : Dev nD) (d : Fin 32) (hd : d.val ≠ 0) : (Rd (F := F) m).duties (sendC c d) 0 = {0} := by
  show (if (0 : ℕ) = 0 then dutiesOf (sendC c d) else ∅) = {0}
  rw [if_pos rfl]
  unfold dutiesOf
  rw [if_pos rfl]
  show (if sendSem d = cpySem ∨ isSendIx (sendSem d) ∨ isRecvIx (sendSem d) then ({0} : Finset (Fin 32)) else ∅) = {0}
  rw [if_pos (Or.inr (Or.inl (stp_send_isSend d hd)))]

private theorem stp_amount_recv (c : Dev nD) (d : Fin 32) : (Rd (F := F) m).amount (recvC c d) 0 0 = N := by
  show (if recvSem d = cpySem then NX else N) = N
  rw [if_neg (stp_recv_ne_cpy d)]

private theorem stp_amount_send (c : Dev nD) (d : Fin 32) : (Rd (F := F) m).amount (sendC c d) 0 0 = N := by
  show (if sendSem d = cpySem then NX else N) = N
  rw [if_neg (stp_send_ne_cpy d)]

theorem stp_payload_recv (c : Dev nD) (d : Fin 32) (hd : d.val ≠ 0) : (Rd (F := F) m).payload (recvC c d) 0 0 = recvPay m c d := by
  show (if recvSem d = cpySem then cpyPay m c else if isRecvIx (recvSem d) then recvPay m c (recvOff (recvSem d)) else sendPay m c (sendOff (recvSem d))) = _
  rw [if_neg (stp_recv_ne_cpy d), if_pos (stp_recv_isRecv d hd), stp_recvOff]

theorem stp_payload_send (c : Dev nD) (d : Fin 32) : (Rd (F := F) m).payload (sendC c d) 0 0 = sendPay m c d := by
  show (if sendSem d = cpySem then cpyPay m c else if isRecvIx (sendSem d) then recvPay m c (recvOff (sendSem d)) else sendPay m c (sendOff (sendSem d))) = _
  rw [if_neg (stp_send_ne_cpy d), if_neg (stp_send_not_isRecv d), stp_sendOff]

theorem stp_kcell_dma (c : Dev nD) (q : DmaSem sig) (hq : q.val ≠ 0) :
    kcell (c, (⟨q.val, q.isLt⟩ : Fin 66)) = ((c : Thread nD τ), SemLoc.dma q) := by
  show ((c : Thread nD τ), csem ⟨q.val, q.isLt⟩) = _
  unfold csem
  rw [if_neg hq]

theorem stp_inv_dma (K : Dev nD × Fin 66 → ℕ) (c : Dev nD) (q : DmaSem sig) (hq : q.val ≠ 0) :
    records m K ⊢ cellInv ER (Rd m) (K (c, ⟨q.val, q.isLt⟩)) ((c : Thread nD τ), SemLoc.dma q) := by
  rw [← stp_kcell_dma c q hq]
  unfold records
  iintro ⟨H, -⟩
  iapply (stp_ent (bigSep_elim (Φ := fun ck : Dev nD × Fin 66 => cellInv ER (Rd m) (K ck) (kcell ck))
    (Finset.mem_univ (c, (⟨q.val, q.isLt⟩ : Fin 66))))) $$ H

private theorem stp_reached_dma (K : Dev nD × Fin 66 → ℕ) (c : Dev nD) (q : DmaSem sig) (hq : q.val ≠ 0) :
    records m K ⊢ reached ER ((c : Thread nD τ), SemLoc.dma q) 0 := by
  rw [← stp_kcell_dma c q hq]
  unfold records
  iintro ⟨-, H⟩
  iapply (stp_ent (bigSep_elim (Φ := fun ck : Dev nD × Fin 66 => reached ER (kcell ck) 0)
    (Finset.mem_univ (c, (⟨q.val, q.isLt⟩ : Fin 66))))) $$ H

theorem stp_row_credit (q : Dev nD) : (rowM q).view.dmaCredit = N := by
  unfold N
  simp only [Memref.view_slice, View.buf_slice]

theorem send_at (K : Dev nD × Fin 66 → ℕ) (c : Dev nD) (n : ℕ) (hn : n < 31) (d : Fin 32) (hd : d = off (n+1)) {α : Type} {Q : α → sProp 𝕄} {k : PUnit → Prog (TpuEff nD τ sig (Elt F) Λ₀ .tc) α}
    {hsc : (rowM c : Memref sig (Dev.tc (peer c d) : Thread nD τ).2.kind .vmem S1x768 .f32).view.ref.isScScratch = false}
    {hsrc : (rowM c : Memref sig .tc .vmem S1x768 .f32).view.WordExact} {hdst : (rowM c : Memref sig .tc .vmem S1x768 .f32).view.WordExact}
    {hsem : DmaTarget.Typed .vmem (.dma (recvSem d)) (.remote (Dev.tc (peer c d) : Thread nD τ) (rowM c : Memref sig .tc .vmem S1x768 .f32) (.dma (sendSem d)) hsc)} :
   iprop(records m K ∗ owesE c (owedT c n) ∗ SendSt m c n ∗ SentCr c n)
     ⊢ iprop(((owesE c (owedT c (n+1)) ∗ SendSt m c (n+1) ∗ SentCr c (n+1)) -∗ wp frame (wpE (defs₀ (F := F)) 𝒱₀ (c : Thread nD τ) none) Set.univ (k ⟨⟩) Q)
         -∗ wp frame (wpE (defs₀ (F := F)) 𝒱₀ (c : Thread nD τ) none) Set.univ (.op (.enqueueDma (rowM c) (.remote (Dev.tc (peer c d) : Thread nD τ) (rowM c) (.dma (sendSem d)) hsc) (.dma (recvSem d)) hsrc hdst hsem) k) Q) := by
  subst hd
  have hdv : (off (n + 1)).val ≠ 0 := by rw [stp_off_val n hn]; omega
  have hsv : (sendSem (off (n + 1))).val ≠ 0 := by show 2 + (off (n + 1)).val ≠ 0; omega
  have hrv : (recvSem (off (n + 1))).val ≠ 0 := by show 34 + (off (n + 1)).val ≠ 0; omega
  have hO : owedT c n = owedT c (n + 1) + tallyAt (recvC (peer c (off (n + 1))) (off (n + 1))) () N :=
    stp_owedT_succ c n hn
  have hd₁ : (0 : Fin 32) ∈ (Rd (F := F) m).duties (sendC c (off (n + 1))) 0 := by
    rw [stp_duties_send m c _ hdv]; exact Finset.mem_singleton_self _
  have hd₂ : (0 : Fin 32) ∈ (Rd (F := F) m).duties (recvC (peer c (off (n + 1))) (off (n + 1))) 0 := by
    rw [stp_duties_recv m _ _ hdv]; exact Finset.mem_singleton_self _
  have hpay₁ : (((rowM c).view.loc (c : Thread nD τ)) ↦[(rowM c).view.set]{shareOf (off (n + 1)).val} (rowsOf m c c) : sProp 𝕄)
      ⊢ (Rd (F := F) m).payload (sendC c (off (n + 1))) 0 0 := by
    rw [stp_payload_send]; exact .rfl
  have hpay₂ : ∀ fd : Buf (Elt F) ((rowM c).view.loc ((peer c (off (n + 1)) : Dev nD) : Thread nD τ)),
      (((rowM c).view.loc ((peer c (off (n + 1)) : Dev nD) : Thread nD τ)) ↦[(rowM c).view.set]{fullShare}
          ((rowM c).view.write (Elt F) fd ((rowM c).view.read (Elt F) (rowsOf m c c)) Finset.univ) : sProp 𝕄)
        ⊢ (Rd (F := F) m).payload (recvC (peer c (off (n + 1))) (off (n + 1))) 0 0 := by
    intro fd
    rw [stp_payload_recv m _ _ hdv]
    unfold recvPay
    rw [srcOf_peer]
    exact landed_row m c (peer c (off (n + 1))) fd
  unfold owesE SendSt SentCr rowPts
  rw [stp_Ioc_left n hn, stp_bigSep_insert (stp_notMem_left n), stp_Ioc_right n, stp_bigSep_insert (stp_notMem_right n)]
  iintro ⟨#Hrec, ⟨%W, HL⟩, ⟨⟨Hts, Htr, Hsrc, ⟨%fd, Hdst⟩⟩, Hrest⟩, Hcr⟩ Hk
  ihave #Hκs := (stp_inv_dma m K c (sendSem (off (n + 1))) hsv) $$ Hrec
  ihave #Hκr := (stp_inv_dma m K (peer c (off (n + 1))) (recvSem (off (n + 1))) hrv) $$ Hrec
  ihave #Hrs := (stp_reached_dma m K c (sendSem (off (n + 1))) hsv) $$ Hrec
  ihave #Hrr := (stp_reached_dma m K (peer c (off (n + 1))) (recvSem (off (n + 1))) hrv) $$ Hrec
  iapply (wp_send_pointsTo 𝒱₀ ER (Rd m) (c : Thread nD τ) none
      (c' := ((peer c (off (n + 1)) : Dev nD) : Thread nD τ)) (src := rowM c) (dst := rowM c)
      (sS := .dma (sendSem (off (n + 1)))) (sem := .dma (recvSem (off (n + 1))))
      (q := shareOf (off (n + 1)).val) (fs := rowsOf m c c) (fd := fd)
      (r₁ := 0) (r₂ := 0) (d₁ := 0) (d₂ := 0)
      (κ₁ := K (c, ⟨(sendSem (off (n + 1))).val, (sendSem (off (n + 1))).isLt⟩))
      (κ₂ := K (peer c (off (n + 1)), ⟨(recvSem (off (n + 1))).val, (recvSem (off (n + 1))).isLt⟩))
      hd₁ hd₂ () () N (stp_row_credit c) (stp_amount_send m c _) (stp_amount_recv m _ _)
      (owedT c (n + 1)) hO hpay₁ (hpay₂ fd))
    $$ [HL Hts Htr Hsrc Hdst]
  · isplitr; · iexact Hκs
    isplitr; · iexact Hκr
    isplitl [Hsrc]; · iexact Hsrc
    isplitl [Hdst]; · iexact Hdst
    isplitl [HL]; · iexact HL
    isplitl [Hts]; · iexact Hts
    isplitr; · iexact Hrs
    isplitl [Htr]; · iexact Htr
    iexact Hrr
  iintro ⟨Hc, HL⟩
  iapply Hk
  isplitl [HL]; · iexists _; iexact HL
  isplitl [Hrest]; · iexact Hrest
  isplitl [Hc]; · iexact Hc
  iexact Hcr

end Cert.Kernel.DistSum

end
-- ==== Proof.Bits.Waits.lean ====
import proofs.«901078_g7700000000001079_dist_sum_ax0_shard0_i_m1536_n768_v7x_i32_f32_1_alg».proof.Proof.Bits.Steps

/-! A wait for an arrival or for a departure as a step of its phase; closing the cells at the end. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem wt_off_ne (n : ℕ) (hn : n < 31) : (off (n + 1)).val ≠ 0 := by
  rw [stp_off_val n hn]; omega

private theorem wt_duties_later (g : GSem nD τ sig) (r : ℕ) (hr : 1 ≤ r) : (Rd m).duties g r = ∅ := by
  show (if r = 0 then dutiesOf g else ∅) = ∅
  rw [if_neg (by omega)]

private theorem wt_expect_recv (c : Dev nD) (d : Fin 32) (hd : d.val ≠ 0) : (Rd m).expect (recvC c d) 0 = N := by
  unfold Schedule.expect Schedule.amountOf
  rw [stp_duties_recv m c d hd, Finset.sum_singleton]
  show (if recvSem d = cpySem then NX else N) = N
  rw [if_neg (stp_recv_ne_cpy d)]

private theorem wt_expect_send (c : Dev nD) (d : Fin 32) (hd : d.val ≠ 0) : (Rd m).expect (sendC c d) 0 = N := by
  unfold Schedule.expect Schedule.amountOf
  rw [stp_duties_send m c d hd, Finset.sum_singleton]
  show (if sendSem d = cpySem then NX else N) = N
  rw [if_neg (stp_send_ne_cpy d)]

private theorem wt_wait_one (K : Dev nD × Fin 66 → ℕ) (c : Dev nD) (q : DmaSem sig) (hq : q.val ≠ 0) (P : sProp 𝕄)
    (hdut : (Rd m).duties ((c : Thread nD τ), SemLoc.dma q) 0 = {0})
    (hexp : (Rd m).expect ((c : Thread nD τ), SemLoc.dma q) 0 = N)
    (hpay : (Rd m).payload ((c : Thread nD τ), SemLoc.dma q) 0 0 = P)
    {sp sp' : Space} {s s' : Shape} {e e' : EltTy} {src : Memref sig .tc sp' s' e'} {κ' : Kind} {dst : Memref sig κ' sp s e}
    {hs : src.view.WordExact} {hd : dst.view.WordExact} (hcr : dst.view.dmaCredit = N)
    {α : Type} {k : PUnit → Prog (TpuEff nD τ sig (Elt F) Λ₀ .tc) α} {Q : α → sProp 𝕄} :
    iprop(records m K ∗ owesE c 0 ∗ cred (tallyAt ((c : Thread nD τ), SemLoc.dma q) () N) ∗ atPos ER ((c : Thread nD τ), SemLoc.dma q) 0 ∅ 0)
      ⊢ iprop(((owesE c 0 ∗ atPos ER ((c : Thread nD τ), SemLoc.dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  have hrest : (bigSep ((Rd m).duties ((c : Thread nD τ), SemLoc.dma q) 0 \ ∅)
      fun d => (Rd m).payload ((c : Thread nD τ), SemLoc.dma q) 0 d) ⊢ P := by
    rw [Finset.sdiff_empty, hdut, bigSep_singleton, hpay]
  unfold owesE
  iintro ⟨#Hrec, ⟨%W, HL⟩, Hc, Hat⟩ Hk
  ihave #Hκ := (stp_inv_dma m K c q hq) $$ Hrec
  iapply (wp_wait_rest_token 𝒱₀ ER (Rd m) (c : Thread nD τ) none (κ := K (c, ⟨q.val, q.isLt⟩))
    (w := .waitDma2 q src dst hs hd)
    (wpE_waitDma2_eq 𝒱₀ (c : Thread nD τ) none Set.univ) (Set.mem_univ _) () (O := 0) (W := W)
    (R := 0) (T := ∅) (m := 0)
    (by rw [hcr, hexp, Nat.zero_add]))
    $$ [Hc HL Hat]
  · isplitr; · iexact Hκ
    isplitl [Hc]; · rw [hcr]; iexact Hc
    isplitl [HL]; · iexact HL
    isplitr; · rw [MayWait_zero]; iempintro
    iexact Hat
  iintro ⟨HL, Hat, -, Hrest⟩
  iapply Hk
  isplitl [HL]; · iexists _; iexact HL
  isplitl [Hat]; · iexact Hat
  iapply hrest $$ Hrest

/-- The cells of a phase of waits still to be waited for, each with its credit and at its start, -/
private abbrev WSt (cell : Fin 32 → GSem nD τ sig) (n : ℕ) : sProp 𝕄 :=
  bigSep (Finset.Ioc n 31) fun d => iprop(cred (tallyAt (cell (off d)) () N) ∗ atPos ER (cell (off d)) 0 ∅ 0)
/-- and those waited for, each past its one round with the payload the round handed over. -/
private abbrev WDone (cell : Fin 32 → GSem nD τ sig) (pay : Fin 32 → sProp 𝕄) (n : ℕ) : sProp 𝕄 :=
  bigSep (Finset.Ioc 0 n) fun d => iprop(atPos ER (cell (off d)) 1 ∅ 0 ∗ pay (off d))

/-- One wait of a phase: the cell of offset n + 1 passes from the first family to the second. -/
private theorem wt_phase_step (K : Dev nD × Fin 66 → ℕ) (c : Dev nD) (n : ℕ) (hn : n < 31) (sem : Fin 32 → DmaSem sig) (pay : Fin 32 → sProp 𝕄)
    (hq : ∀ d, (sem d).val ≠ 0)
    (hdut : ∀ d : Fin 32, d.val ≠ 0 → (Rd m).duties ((c : Thread nD τ), SemLoc.dma (sem d)) 0 = {0})
    (hexp : ∀ d : Fin 32, d.val ≠ 0 → (Rd m).expect ((c : Thread nD τ), SemLoc.dma (sem d)) 0 = N)
    (hpay : ∀ d : Fin 32, d.val ≠ 0 → (Rd m).payload ((c : Thread nD τ), SemLoc.dma (sem d)) 0 0 = pay d)
    {sp sp' : Space} {s s' : Shape} {e e' : EltTy} {src : Memref sig .tc sp' s' e'} {κ' : Kind} {dst : Memref sig κ' sp s e}
    {hs : src.view.WordExact} {hd : dst.view.WordExact} (hcr : dst.view.dmaCredit = N)
    {α : Type} {k : PUnit → Prog (TpuEff nD τ sig (Elt F) Λ₀ .tc) α} {Q : α → sProp 𝕄} :
    iprop(records m K ∗ owesE c 0 ∗ WSt (fun d => ((c : Thread nD τ), SemLoc.dma (sem d))) n
        ∗ WDone (fun d => ((c : Thread nD τ), SemLoc.dma (sem d))) pay n)
      ⊢ iprop(((owesE c 0 ∗ WSt (fun d => ((c : Thread nD τ), SemLoc.dma (sem d))) (n + 1)
              ∗ WDone (fun d => ((c : Thread nD τ), SemLoc.dma (sem d))) pay (n + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem (off (n + 1))) src dst hs hd) k) Q) := by
  have hd0 := wt_off_ne n hn
  unfold WSt WDone
  rw [stp_Ioc_left n hn, stp_Ioc_right n, stp_bigSep_insert (stp_notMem_left n), stp_bigSep_insert (stp_notMem_right n)]
  iintro ⟨#Hrec, HL, ⟨⟨Hc, Hat⟩, Hst⟩, Hdone⟩ Hk
  iapply (wt_wait_one m K c (sem (off (n + 1))) (hq _) (pay (off (n + 1)))
    (hdut _ hd0) (hexp _ hd0) (hpay _ hd0) hcr) $$ [HL Hc Hat]
  · isplitr; · iexact Hrec
    isplitl [HL]; · iexact HL
    isplitl [Hc]; · iexact Hc
    iexact Hat
  iintro ⟨HL, Hat, Hpay⟩
  iapply Hk
  isplitl [HL]; · iexact HL
  isplitl [Hst]; · iexact Hst
  isplitr [Hdone]
  · isplitl [Hat]; · iexact Hat
    iexact Hpay
  iexact Hdone

theorem recv_at (K : Dev nD × Fin 66 → ℕ) (c : Dev nD) (n : ℕ) (hn : n < 31) (d : Fin 32) (hd : d = off (n + 1)) {p q : Dev nD}
    {hs : (rowM p).view.WordExact} {hdd : (rowM q).view.WordExact}
    {α : Type} {k : PUnit → Prog (TpuEff nD τ sig (Elt F) Λ₀ .tc) α} {Q : α → sProp 𝕄} :
    iprop(records m K ∗ owesE c 0 ∗ RecvSt c n ∗ RecvDone m c n)
      ⊢ iprop(((owesE c 0 ∗ RecvSt c (n + 1) ∗ RecvDone m c (n + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem d) (rowM p) (rowM q) hs hdd) k) Q) := by
  subst hd
  exact wt_phase_step m K c n hn recvSem (recvPay m c) (fun d => by show 34 + d.val ≠ 0; omega)
    (stp_duties_recv m c) (wt_expect_recv m c) (stp_payload_recv m c) (stp_row_credit q)

theorem swait_at (K : Dev nD × Fin 66 → ℕ) (c : Dev nD) (n : ℕ) (hn : n < 31) (d : Fin 32) (hd : d = off (n + 1)) {p q : Dev nD}
    {hs : (rowM p).view.WordExact} {hdd : (rowM q).view.WordExact}
    {α : Type} {k : PUnit → Prog (TpuEff nD τ sig (Elt F) Λ₀ .tc) α} {Q : α → sProp 𝕄} :
    iprop(records m K ∗ owesE c 0 ∗ SWaitSt c n ∗ SWaitDone m c n)
      ⊢ iprop(((owesE c 0 ∗ SWaitSt c (n + 1) ∗ SWaitDone m c (n + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem d) (rowM p) (rowM q) hs hdd) k) Q) := by
  subst hd
  exact wt_phase_step m K c n hn sendSem (sendPay m c) (fun d => by show 2 + d.val ≠ 0; omega)
    (stp_duties_send m c) (wt_expect_send m c) (fun d _ => stp_payload_send m c d) (stp_row_credit q)

private theorem wt_close (K : Dev nD × Fin 66 → ℕ) (c : Dev nD) (q : DmaSem sig) (hq : q.val ≠ 0) (R : ℕ)
    (hR : ∀ r, R ≤ r → (Rd m).duties ((c : Thread nD τ), SemLoc.dma q) r = ∅) :
    iprop(records m K ∗ atPos ER ((c : Thread nD τ), SemLoc.dma q) R ∅ 0)
      ⊢ (|={Set.univ}=> semVal ((c : Thread nD τ), SemLoc.dma q) 0 : sProp 𝕄) := by
  iintro ⟨#Hrec, Hat⟩
  ihave #Hκ := (stp_inv_dma m K c q hq) $$ Hrec
  iapply (cell_close ER (Rd m) (g := ((c : Thread nD τ), SemLoc.dma q)) (κ := K (c, ⟨q.val, q.isLt⟩)) (Set.mem_univ _) (fun h => h) (R := R) hR) $$ [Hat]
  isplitr; · iexact Hκ
  iexact Hat

private theorem wt_close_all (K : Dev nD × Fin 66 → ℕ) (s : Finset ℕ) (g : ℕ → GSem nD τ sig) (R : ℕ)
    (hcl : ∀ d ∈ s, iprop(records m K ∗ atPos ER (g d) R ∅ 0) ⊢ (|={Set.univ}=> semVal (g d) 0 : sProp 𝕄)) :
    iprop(records m K ∗ bigSep s (fun d => atPos ER (g d) R ∅ 0))
      ⊢ (|={Set.univ}=> bigSep s (fun d => semVal (g d) 0) : sProp 𝕄) := by
  induction s using Finset.induction_on with
  | empty =>
    rw [bigSep_empty, bigSep_empty]
    iintro ⟨-, -⟩
    imodintro
    iempintro
  | insert d s hd ih =>
    rw [stp_bigSep_insert hd, stp_bigSep_insert hd]
    iintro ⟨#Hrec, Hd, Hs⟩
    imod (hcl d (Finset.mem_insert_self _ _)) $$ [Hd] with Hv
    · isplitr; · iexact Hrec
      iexact Hd
    imod (ih (fun d' hd' => hcl d' (Finset.mem_insert_of_mem hd'))) $$ [Hs] with Hvs
    · isplitr; · iexact Hrec
      iexact Hs
    imodintro
    isplitl [Hv]; · iexact Hv
    iexact Hvs

private theorem wt_duties_send0 (c : Dev nD) (r : ℕ) : (Rd m).duties (sendC c 0) r = ∅ := by
  show (if r = 0 then dutiesOf (sendC c 0) else ∅) = ∅
  split
  · unfold dutiesOf
    rw [if_pos rfl]
    show (if sendSem 0 = cpySem ∨ isSendIx (sendSem 0) ∨ isRecvIx (sendSem 0) then ({0} : Finset (Fin 32)) else ∅) = ∅
    rw [if_neg (by decide)]
  · rfl

private theorem wt_duties_recv0 (c : Dev nD) (r : ℕ) : (Rd m).duties (recvC c 0) r = ∅ := by
  show (if r = 0 then dutiesOf (recvC c 0) else ∅) = ∅
  split
  · unfold dutiesOf
    rw [if_pos rfl]
    show (if recvSem 0 = cpySem ∨ isSendIx (recvSem 0) ∨ isRecvIx (recvSem 0) then ({0} : Finset (Fin 32)) else ∅) = ∅
    rw [if_neg (by decide)]
  · rfl

private def wt_g1 (d : ℕ) : Fin 65 := ⟨(off d).val + 1, by have := (off d).isLt; omega⟩
private def wt_g2 (d : ℕ) : Fin 65 := ⟨(off d).val + 33, by have := (off d).isLt; omega⟩

private theorem wt_univ65 : (Finset.univ : Finset (Fin 65))
    = insert 0 (insert 1 (insert 33 ((Finset.Ioc 0 31).image wt_g1 ∪ (Finset.Ioc 0 31).image wt_g2))) := by
  decide

private theorem wt_bigSep_image {I J : Type} [DecidableEq J] (s : Finset I) (f : I → J)
    (hf : ∀ x ∈ s, ∀ y ∈ s, f x = f y → x = y) (Φ : J → sProp 𝕄) :
    bigSep (s.image f) Φ = bigSep s (fun i => Φ (f i)) :=
  Finset.fold_image hf

private theorem wt_split65 (Φ : Fin 65 → sProp 𝕄) :
    bigSep Finset.univ Φ = iprop(Φ 0 ∗ Φ 1 ∗ Φ 33 ∗ bigSep (Finset.Ioc 0 31) (fun d => Φ (wt_g1 d)) ∗ bigSep (Finset.Ioc 0 31) (fun d => Φ (wt_g2 d))) := by
  rw [wt_univ65, bigSep_insert (by decide), bigSep_insert (by decide), bigSep_insert (by decide), bigSep_union (by decide),
    wt_bigSep_image _ _ (by decide), wt_bigSep_image _ _ (by decide)]
  rfl

abbrev wt_osem (k : Fin 65) : SemLoc sig := .dma ⟨k.val + 1, by have := k.isLt; show k.val + 1 < 66; omega⟩

private theorem wt_osem_g1 (d : ℕ) : wt_osem (wt_g1 d) = .dma (sendSem (off d)) := by
  apply congrArg SemLoc.dma
  apply Fin.ext
  show (off d).val + 1 + 1 = 2 + (off d).val
  omega

private theorem wt_osem_g2 (d : ℕ) : wt_osem (wt_g2 d) = .dma (recvSem (off d)) := by
  apply congrArg SemLoc.dma
  apply Fin.ext
  show (off d).val + 33 + 1 = 34 + (off d).val
  omega

theorem close_cells (K : Dev nD × Fin 66 → ℕ) (c : Dev nD) :
    iprop(records m K ∗ atPos ER (cpyC c) 1 ∅ 0
        ∗ (bigSep (Finset.Ioc 0 31) fun d => atPos ER (sendC c (off d)) 1 ∅ 0)
        ∗ (bigSep (Finset.Ioc 0 31) fun d => atPos ER (recvC c (off d)) 1 ∅ 0)
        ∗ atPos ER (sendC c 0) 0 ∅ 0 ∗ atPos ER (recvC c 0) 0 ∅ 0)
      ⊢ (|={Set.univ}=> (bigSep Finset.univ fun k : Fin 65 => semVal ((c : Thread nD τ), wt_osem k) 0) : sProp 𝕄) := by
  rw [wt_split65]
  simp only [wt_osem_g1, wt_osem_g2]
  iintro ⟨#Hrec, Hcpy, Hsend, Hrecv, Hs0, Hr0⟩
  imod (wt_close m K c cpySem (by decide) 1 (fun r hr => wt_duties_later m _ r hr)) $$ [Hcpy] with Hv0
  · isplitr; · iexact Hrec
    iexact Hcpy
  imod (wt_close m K c (sendSem 0) (by decide) 0 (fun r _ => wt_duties_send0 m c r)) $$ [Hs0] with Hv1
  · isplitr; · iexact Hrec
    iexact Hs0
  imod (wt_close m K c (recvSem 0) (by decide) 0 (fun r _ => wt_duties_recv0 m c r)) $$ [Hr0] with Hv33
  · isplitr; · iexact Hrec
    iexact Hr0
  imod (wt_close_all m K (Finset.Ioc 0 31) (fun d => sendC c (off d)) 1
      (fun d _ => wt_close m K c (sendSem (off d)) (by show 2 + (off d).val ≠ 0; omega) 1 (fun r hr => wt_duties_later m _ r hr))) $$ [Hsend] with Hvs
  · isplitr; · iexact Hrec
    iexact Hsend
  imod (wt_close_all m K (Finset.Ioc 0 31) (fun d => recvC c (off d)) 1
      (fun d _ => wt_close m K c (recvSem (off d)) (by show 34 + (off d).val ≠ 0; omega) 1 (fun r hr => wt_duties_later m _ r hr))) $$ [Hrecv] with Hvr
  · isplitr; · iexact Hrec
    iexact Hrecv
  imodintro
  isplitl [Hv0]; · iexact Hv0
  isplitl [Hv1]; · iexact Hv1
  isplitl [Hv33]; · iexact Hv33
  isplitl [Hvs]; · iexact Hvs
  iexact Hvr

end Cert.Kernel.DistSum

end
-- ==== Proof.Bits.Parts.lean ====
import proofs.«901078_g7700000000001079_dist_sum_ax0_shard0_i_m1536_n768_v7x_i32_f32_1_alg».proof.Proof.Bits.Steps
import proofs.«901078_g7700000000001079_dist_sum_ax0_shard0_i_m1536_n768_v7x_i32_f32_1_alg».proof.Proof.Bits.Waits

/-! The parts of the body that are runs of like steps: signals, copies, waits for arrivals, waits for departures. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One step of a run whose state is two assertions: the records are persistent, the rest R is carried along. -/
theorem go2 (K : Dev nD × Fin 66 → ℕ) {A B A' B' R W W' : sProp 𝕄}
    (hs : iprop(records m K ∗ A ∗ B) ⊢ iprop(((A' ∗ B') -∗ W') -∗ W))
    (h : iprop(records m K ∗ A' ∗ B' ∗ R) ⊢ W') : iprop(records m K ∗ A ∗ B ∗ R) ⊢ W := by
  iintro ⟨#HI, HA, HB, HR⟩
  iapply hs $$ [HA HB]
  · isplitr; · iexact HI
    isplitl [HA] <;> iassumption
  iintro ⟨HA, HB⟩
  iapply h $$ [HA HB HR]
  isplitr; · iexact HI
  isplitl [HA]; · iexact HA
  isplitl [HB] <;> iassumption

/-- The same for a state of three assertions. -/
theorem go3 (K : Dev nD × Fin 66 → ℕ) {A B C A' B' C' R W W' : sProp 𝕄}
    (hs : iprop(records m K ∗ A ∗ B ∗ C) ⊢ iprop(((A' ∗ B' ∗ C') -∗ W') -∗ W))
    (h : iprop(records m K ∗ A' ∗ B' ∗ C' ∗ R) ⊢ W') : iprop(records m K ∗ A ∗ B ∗ C ∗ R) ⊢ W := by
  iintro ⟨#HI, HA, HB, HC, HR⟩
  iapply hs $$ [HA HB HC]
  · isplitr; · iexact HI
    isplitl [HA]; · iexact HA
    isplitl [HB] <;> iassumption
  iintro ⟨HA, HB, HC⟩
  iapply h $$ [HA HB HC HR]
  isplitr; · iexact HI
  isplitl [HA]; · iexact HA
  isplitl [HB]; · iexact HB
  isplitl [HC] <;> iassumption

/-- A run ends by handing its state to the continuation. -/
theorem fin2 (K : Dev nD × Fin 66 → ℕ) {c : Dev nD} {A B : sProp 𝕄} {α : Type} {Kt : α → sProp 𝕄} (r : α) :
    iprop(records m K ∗ A ∗ B ∗ (∀ r, (A ∗ B) -∗ Kt r))
      ⊢ wp frame (wpE (defs₀ (F := F)) 𝒱₀ (c : Thread nD τ) none) Set.univ (.ret r) Kt := by
  iintro ⟨#HI, HA, HB, Hk⟩
  rw [wp_ret]; imodintro
  iapply Hk $$ [HA HB]
  isplitl [HA] <;> iassumption

theorem fin3 (K : Dev nD × Fin 66 → ℕ) {c : Dev nD} {A B C : sProp 𝕄} {α : Type} {Kt : α → sProp 𝕄} (r : α) :
    iprop(records m K ∗ A ∗ B ∗ C ∗ (∀ r, (A ∗ B ∗ C) -∗ Kt r))
      ⊢ wp frame (wpE (defs₀ (F := F)) 𝒱₀ (c : Thread nD τ) none) Set.univ (.ret r) Kt := by
  iintro ⟨#HI, HA, HB, HC, Hk⟩
  rw [wp_ret]; imodintro
  iapply Hk $$ [HA HB HC]
  isplitl [HA]; · iexact HA
  isplitl [HB] <;> iassumption

theorem part1 (K : Dev nD × Fin 66 → ℕ) (c : Dev nD) (Kt : (Σ' (d0 : Dev nD) (v2 : BitVec 32) (v3 : Sems sig S_) (v24 : BitVec 32), BitVec 32) → sProp 𝕄) :
    iprop(records m K ∗ owesE c (owedT c 0 + owedS c 0) ∗ SigSt c 0 ∗ (∀ v2 v24 c32, (owesE c (owedT c 0 + owedS c 5) ∗ SigSt c 5) -∗ Kt ⟨c, v2, SemArray.scalar (sig.barrier 0 rfl), v24, c32⟩))
      ⊢ wp frame (wpE (defs₀ (F := F)) 𝒱₀ (c : Thread nD τ) none) Set.univ (k0_part1 (F := F) xH (Memref.isWhole_whole _) A1 (Memref.isWhole_whole _) xV (Memref.isWhole_whole _) gbuf (Memref.isWhole_whole _) cc0_scratch2 cc0_scratch3 cc0_scratch4) Kt := by
  simp only [k0_part1_eq_skeleton]; unfold k0_part1_skel
  simp only [semSignalWord, semWaitWord, Prog.lift, Prog.bind_op, Prog.bind_ret, Prog.pure_eq_ret, wp_deviceId]
  simp only [devSig]
  refine go2 m K (sig_at m K c 0 (by decide) 1 (by decide)) ?_
  refine go2 m K (sig_at m K c 1 (by decide) 2 (by decide)) ?_
  refine go2 m K (sig_at m K c 2 (by decide) 3 (by decide)) ?_
  refine go2 m K (sig_at m K c 3 (by decide) 4 (by decide)) ?_
  refine go2 m K (sig_at m K c 4 (by decide) 5 (by decide)) ?_
  iintro ⟨#HI, HO, HS, Hk⟩
  rw [wp_ret]; imodintro
  iapply Hk $$ [HO HS]
  isplitl [HO] <;> iassumption

theorem part2 (K : Dev nD × Fin 66 → ℕ) (c : Dev nD) (v2 w1 w2 : BitVec 32) (Kt : (Σ' (v48 : BitVec 32), BitVec 32) → sProp 𝕄) :
    iprop(records m K ∗ owesE c (owedT c 0 + owedS c 5) ∗ SigSt c 5 ∗ (∀ r, (owesE c (owedT c 0 + owedS c 11) ∗ SigSt c 11) -∗ Kt r))
      ⊢ wp frame (wpE (defs₀ (F := F)) 𝒱₀ (c : Thread nD τ) none) Set.univ (k0_part2 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part2_eq_skeleton]; unfold k0_part2_skel
  simp only [semSignalWord, semWaitWord, Prog.lift, Prog.bind_op, Prog.bind_ret, Prog.pure_eq_ret, wp_deviceId]
  simp only [devSig]
  refine go2 m K (sig_at m K c 5 (by decide) 6 (by decide)) ?_
  refine go2 m K (sig_at m K c 6 (by decide) 7 (by decide)) ?_
  refine go2 m K (sig_at m K c 7 (by decide) 8 (by decide)) ?_
  refine go2 m K (sig_at m K c 8 (by decide) 9 (by decide)) ?_
  refine go2 m K (sig_at m K c 9 (by decide) 10 (by decide)) ?_
  refine go2 m K (sig_at m K c 10 (by decide) 11 (by decide)) ?_
  exact fin2 m K _

theorem part3 (K : Dev nD × Fin 66 → ℕ) (c : Dev nD) (v2 w1 w2 : BitVec 32) (Kt : (Σ' (v72 : BitVec 32), BitVec 32) → sProp 𝕄) :
    iprop(records m K ∗ owesE c (owedT c 0 + owedS c 11) ∗ SigSt c 11 ∗ (∀ r, (owesE c (owedT c 0 + owedS c 17) ∗ SigSt c 17) -∗ Kt r))
      ⊢ wp frame (wpE (defs₀ (F := F)) 𝒱₀ (c : Thread nD τ) none) Set.univ (k0_part3 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part3_eq_skeleton]; unfold k0_part3_skel
  simp only [semSignalWord, semWaitWord, Prog.lift, Prog.bind_op, Prog.bind_ret, Prog.pure_eq_ret, wp_deviceId]
  simp only [devSig]
  refine go2 m K (sig_at m K c 11 (by decide) 12 (by decide)) ?_
  refine go2 m K (sig_at m K c 12 (by decide) 13 (by decide)) ?_
  refine go2 m K (sig_at m K c 13 (by decide) 14 (by decide)) ?_
  refine go2 m K (sig_at m K c 14 (by decide) 15 (by decide)) ?_
  refine go2 m K (sig_at m K c 15 (by decide) 16 (by decide)) ?_
  refine go2 m K (sig_at m K c 16 (by decide) 17 (by decide)) ?_
  exact fin2 m K _

theorem part4 (K : Dev nD × Fin 66 → ℕ) (c : Dev nD) (v2 w1 w2 : BitVec 32) (Kt : (Σ' (v96 : BitVec 32), BitVec 32) → sProp 𝕄) :
    iprop(records m K ∗ owesE c (owedT c 0 + owedS c 17) ∗ SigSt c 17 ∗ (∀ r, (owesE c (owedT c 0 + owedS c 23) ∗ SigSt c 23) -∗ Kt r))
      ⊢ wp frame (wpE (defs₀ (F := F)) 𝒱₀ (c : Thread nD τ) none) Set.univ (k0_part4 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part4_eq_skeleton]; unfold k0_part4_skel
  simp only [semSignalWord, semWaitWord, Prog.lift, Prog.bind_op, Prog.bind_ret, Prog.pure_eq_ret, wp_deviceId]
  simp only [devSig]
  refine go2 m K (sig_at m K c 17 (by decide) 18 (by decide)) ?_
  refine go2 m K (sig_at m K c 18 (by decide) 19 (by decide)) ?_
  refine go2 m K (sig_at m K c 19 (by decide) 20 (by decide)) ?_
  refine go2 m K (sig_at m K c 20 (by decide) 21 (by decide)) ?_
  refine go2 m K (sig_at m K c 21 (by decide) 22 (by decide)) ?_
  refine go2 m K (sig_at m K c 22 (by decide) 23 (by decide)) ?_
  exact fin2 m K _

theorem part5 (K : Dev nD × Fin 66 → ℕ) (c : Dev nD) (v2 w1 w2 : BitVec 32) (Kt : (Σ' (v120 : BitVec 32), BitVec 32) → sProp 𝕄) :
    iprop(records m K ∗ owesE c (owedT c 0 + owedS c 23) ∗ SigSt c 23 ∗ (∀ r, (owesE c (owedT c 0 + owedS c 29) ∗ SigSt c 29) -∗ Kt r))
      ⊢ wp frame (wpE (defs₀ (F := F)) 𝒱₀ (c : Thread nD τ) none) Set.univ (k0_part5 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part5_eq_skeleton]; unfold k0_part5_skel
  simp only [semSignalWord, semWaitWord, Prog.lift, Prog.bind_op, Prog.bind_ret, Prog.pure_eq_ret, wp_deviceId]
  simp only [devSig]
  refine go2 m K (sig_at m K c 23 (by decide) 24 (by decide)) ?_
  refine go2 m K (sig_at m K c 24 (by decide) 25 (by decide)) ?_
  refine go2 m K (sig_at m K c 25 (by decide) 26 (by decide)) ?_
  refine go2 m K (sig_at m K c 26 (by decide) 27 (by decide)) ?_
  refine go2 m K (sig_at m K c 27 (by decide) 28 (by decide)) ?_
  refine go2 m K (sig_at m K c 28 (by decide) 29 (by decide)) ?_
  exact fin2 m K _

theorem part7 (K : Dev nD × Fin 66 → ℕ) (c : Dev nD) (v2 w1 w2 : BitVec 32) (Kt : PUnit → sProp 𝕄) :
    iprop(records m K ∗ owesE c (owedT c 1) ∗ SendSt m c 1 ∗ SentCr c 1 ∗ (∀ r, (owesE c (owedT c 4) ∗ SendSt m c 4 ∗ SentCr c 4) -∗ Kt r))
      ⊢ wp frame (wpE (defs₀ (F := F)) 𝒱₀ (c : Thread nD τ) none) Set.univ (k0_part7 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part7_eq_skeleton]; unfold k0_part7_skel
  simp only [semSignalWord, semWaitWord, Prog.lift, Prog.bind_op, Prog.bind_ret, Prog.pure_eq_ret, wp_deviceId]
  simp only [remoteSend, row2_eq, send_sem, recv_sem]
  refine go3 m K (send_at m K c 1 (by decide) 2 (by decide)) ?_
  refine go3 m K (send_at m K c 2 (by decide) 3 (by decide)) ?_
  refine go3 m K (send_at m K c 3 (by decide) 4 (by decide)) ?_
  exact fin3 m K _

theorem part8 (K : Dev nD × Fin 66 → ℕ) (c : Dev nD) (v2 w1 w2 : BitVec 32) (Kt : PUnit → sProp 𝕄) :
    iprop(records m K ∗ owesE c (owedT c 4) ∗ SendSt m c 4 ∗ SentCr c 4 ∗ (∀ r, (owesE c (owedT c 7) ∗ SendSt m c 7 ∗ SentCr c 7) -∗ Kt r))
      ⊢ wp frame (wpE (defs₀ (F := F)) 𝒱₀ (c : Thread nD τ) none) Set.univ (k0_part8 (F := F) xH (Memref.isWhole_whole _) A1 (Memref.isWhole_whole _) xV (Memref.isWhole_whole _) gbuf (Memref.isWhole_whole _) cc0_scratch2 cc0_scratch3 cc0_scratch4 c v2) Kt := by
  simp only [k0_part8_eq_skeleton]; unfold k0_part8_skel
  simp only [semSignalWord, semWaitWord, Prog.lift, Prog.bind_op, Prog.bind_ret, Prog.pure_eq_ret, wp_deviceId]
  simp only [remoteSend, row2_eq, send_sem, recv_sem]
  refine go3 m K (send_at m K c 4 (by decide) 5 (by decide)) ?_
  refine go3 m K (send_at m K c 5 (by decide) 6 (by decide)) ?_
  refine go3 m K (send_at m K c 6 (by decide) 7 (by decide)) ?_
  exact fin3 m K _

theorem part9 (K : Dev nD × Fin 66 → ℕ) (c : Dev nD) (v2 w1 w2 : BitVec 32) (Kt : PUnit → sProp 𝕄) :
    iprop(records m K ∗ owesE c (owedT c 7) ∗ SendSt m c 7 ∗ SentCr c 7 ∗ (∀ r, (owesE c (owedT c 10) ∗ SendSt m c 10 ∗ SentCr c 10) -∗ Kt r))
      ⊢ wp frame (wpE (defs₀ (F := F)) 𝒱₀ (c : Thread nD τ) none) Set.univ (k0_part9 (F := F) xH (Memref.isWhole_whole _) A1 (Memref.isWhole_whole _) xV (Memref.isWhole_whole _) gbuf (Memref.isWhole_whole _) cc0_scratch2 cc0_scratch3 cc0_scratch4 c v2) Kt := by
  simp only [k0_part9_eq_skeleton]; unfold k0_part9_skel
  simp only [semSignalWord, semWaitWord, Prog.lift, Prog.bind_op, Prog.bind_ret, Prog.pure_eq_ret, wp_deviceId]
  simp only [remoteSend, row2_eq, send_sem, recv_sem]
  refine go3 m K (send_at m K c 7 (by decide) 8 (by decide)) ?_
  refine go3 m K (send_at m K c 8 (by decide) 9 (by decide)) ?_
  refine go3 m K (send_at m K c 9 (by decide) 10 (by decide)) ?_
  exact fin3 m K _

theorem part10 (K : Dev nD × Fin 66 → ℕ) (c : Dev nD) (v2 w1 w2 : BitVec 32) (Kt : PUnit → sProp 𝕄) :
    iprop(records m K ∗ owesE c (owedT c 10) ∗ SendSt m c 10 ∗ SentCr c 10 ∗ (∀ r, (owesE c (owedT c 14) ∗ SendSt m c 14 ∗ SentCr c 14) -∗ Kt r))
      ⊢ wp frame (wpE (defs₀ (F := F)) 𝒱₀ (c : Thread nD τ) none) Set.univ (k0_part10 (F := F) xH (Memref.isWhole_whole _) A1 (Memref.isWhole_whole _) xV (Memref.isWhole_whole _) gbuf (Memref.isWhole_whole _) cc0_scratch2 cc0_scratch3 cc0_scratch4 c v2) Kt := by
  simp only [k0_part10_eq_skeleton]; unfold k0_part10_skel
  simp only [semSignalWord, semWaitWord, Prog.lift, Prog.bind_op, Prog.bind_ret, Prog.pure_eq_ret, wp_deviceId]
  simp only [remoteSend, row2_eq, send_sem, recv_sem]
  refine go3 m K (send_at m K c 10 (by decide) 11 (by decide)) ?_
  refine go3 m K (send_at m K c 11 (by decide) 12 (by decide)) ?_
  refine go3 m K (send_at m K c 12 (by decide) 13 (by decide)) ?_
  refine go3 m K (send_at m K c 13 (by decide) 14 (by decide)) ?_
  exact fin3 m K _

theorem part11 (K : Dev nD × Fin 66 → ℕ) (c : Dev nD) (v2 w1 w2 : BitVec 32) (Kt : (Σ' (v305 : BitVec 32), BitVec 32) → sProp 𝕄) :
    iprop(records m K ∗ owesE c (owedT c 14) ∗ SendSt m c 14 ∗ SentCr c 14 ∗ (∀ r, (owesE c (owedT c 17) ∗ SendSt m c 17 ∗ SentCr c 17) -∗ Kt r))
      ⊢ wp frame (wpE (defs₀ (F := F)) 𝒱₀ (c : Thread nD τ) none) Set.univ (k0_part11 (F := F) xH (Memref.isWhole_whole _) A1 (Memref.isWhole_whole _) xV (Memref.isWhole_whole _) gbuf (Memref.isWhole_whole _) cc0_scratch2 cc0_scratch3 cc0_scratch4 c v2) Kt := by
  simp only [k0_part11_eq_skeleton]; unfold k0_part11_skel
  simp only [semSignalWord, semWaitWord, Prog.lift, Prog.bind_op, Prog.bind_ret, Prog.pure_eq_ret, wp_deviceId]
  simp only [remoteSend, row2_eq, send_sem, recv_sem]
  refine go3 m K (send_at m K c 14 (by decide) 15 (by decide)) ?_
  refine go3 m K (send_at m K c 15 (by decide) 16 (by decide)) ?_
  refine go3 m K (send_at m K c 16 (by decide) 17 (by decide)) ?_
  exact fin3 m K _

theorem part12 (K : Dev nD × Fin 66 → ℕ) (c : Dev nD) (v2 w1 w2 : BitVec 32) (Kt : BitVec 32 → sProp 𝕄) :
    iprop(records m K ∗ owesE c (owedT c 17) ∗ SendSt m c 17 ∗ SentCr c 17 ∗ (∀ r, (owesE c (owedT c 20) ∗ SendSt m c 20 ∗ SentCr c 20) -∗ Kt r))
      ⊢ wp frame (wpE (defs₀ (F := F)) 𝒱₀ (c : Thread nD τ) none) Set.univ (k0_part12 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part12_eq_skeleton]; unfold k0_part12_skel
  simp only [semSignalWord, semWaitWord, Prog.lift, Prog.bind_op, Prog.bind_ret, Prog.pure_eq_ret, wp_deviceId]
  simp only [remoteSend, row2_eq, send_sem, recv_sem]
  refine go3 m K (send_at m K c 17 (by decide) 18 (by decide)) ?_
  refine go3 m K (send_at m K c 18 (by decide) 19 (by decide)) ?_
  refine go3 m K (send_at m K c 19 (by decide) 20 (by decide)) ?_
  exact fin3 m K _

theorem part13 (K : Dev nD × Fin 66 → ℕ) (c : Dev nD) (v2 w1 w2 : BitVec 32) (Kt : (Σ' (v367 : BitVec 32), BitVec 32) → sProp 𝕄) :
    iprop(records m K ∗ owesE c (owedT c 20) ∗ SendSt m c 20 ∗ SentCr c 20 ∗ (∀ r, (owesE c (owedT c 23) ∗ SendSt m c 23 ∗ SentCr c 23) -∗ Kt r))
      ⊢ wp frame (wpE (defs₀ (F := F)) 𝒱₀ (c : Thread nD τ) none) Set.univ (k0_part13 (F := F) xH (Memref.isWhole_whole _) A1 (Memref.isWhole_whole _) xV (Memref.isWhole_whole _) gbuf (Memref.isWhole_whole _) cc0_scratch2 cc0_scratch3 cc0_scratch4 c v2 w1) Kt := by
  simp only [k0_part13_eq_skeleton]; unfold k0_part13_skel
  simp only [semSignalWord, semWaitWord, Prog.lift, Prog.bind_op, Prog.bind_ret, Prog.pure_eq_ret, wp_deviceId]
  simp only [remoteSend, row2_eq, send_sem, recv_sem]
  refine go3 m K (send_at m K c 20 (by decide) 21 (by decide)) ?_
  refine go3 m K (send_at m K c 21 (by decide) 22 (by decide)) ?_
  refine go3 m K (send_at m K c 22 (by decide) 23 (by decide)) ?_
  exact fin3 m K _

theorem part14 (K : Dev nD × Fin 66 → ℕ) (c : Dev nD) (v2 w1 w2 : BitVec 32) (Kt : PUnit → sProp 𝕄) :
    iprop(records m K ∗ owesE c (owedT c 23) ∗ SendSt m c 23 ∗ SentCr c 23 ∗ (∀ r, (owesE c (owedT c 26) ∗ SendSt m c 26 ∗ SentCr c 26) -∗ Kt r))
      ⊢ wp frame (wpE (defs₀ (F := F)) 𝒱₀ (c : Thread nD τ) none) Set.univ (k0_part14 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part14_eq_skeleton]; unfold k0_part14_skel
  simp only [semSignalWord, semWaitWord, Prog.lift, Prog.bind_op, Prog.bind_ret, Prog.pure_eq_ret, wp_deviceId]
  simp only [remoteSend, row2_eq, send_sem, recv_sem]
  refine go3 m K (send_at m K c 23 (by decide) 24 (by decide)) ?_
  refine go3 m K (send_at m K c 24 (by decide) 25 (by decide)) ?_
  refine go3 m K (send_at m K c 25 (by decide) 26 (by decide)) ?_
  exact fin3 m K _

theorem part15 (K : Dev nD × Fin 66 → ℕ) (c : Dev nD) (v2 w1 w2 : BitVec 32) (Kt : PUnit → sProp 𝕄) :
    iprop(records m K ∗ owesE c (owedT c 26) ∗ SendSt m c 26 ∗ SentCr c 26 ∗ (∀ r, (owesE c (owedT c 29) ∗ SendSt m c 29 ∗ SentCr c 29) -∗ Kt r))
      ⊢ wp frame (wpE (defs₀ (F := F)) 𝒱₀ (c : Thread nD τ) none) Set.univ (k0_part15 (F := F) xH (Memref.isWhole_whole _) A1 (Memref.isWhole_whole _) xV (Memref.isWhole_whole _) gbuf (Memref.isWhole_whole _) cc0_scratch2 cc0_scratch3 cc0_scratch4 c v2) Kt := by
  simp only [k0_part15_eq_skeleton]; unfold k0_part15_skel
  simp only [semSignalWord, semWaitWord, Prog.lift, Prog.bind_op, Prog.bind_ret, Prog.pure_eq_ret, wp_deviceId]
  simp only [remoteSend, row2_eq, send_sem, recv_sem]
  refine go3 m K (send_at m K c 26 (by decide) 27 (by decide)) ?_
  refine go3 m K (send_at m K c 27 (by decide) 28 (by decide)) ?_
  refine go3 m K (send_at m K c 28 (by decide) 29 (by decide)) ?_
  exact fin3 m K _

theorem part17 (K : Dev nD × Fin 66 → ℕ) (c : Dev nD) (v2 w1 w2 : BitVec 32) (Kt : BitVec 32 → sProp 𝕄) :
    iprop(records m K ∗ owesE c 0 ∗ RecvSt c 1 ∗ RecvDone m c 1 ∗ (∀ r, (owesE c 0 ∗ RecvSt c 5 ∗ RecvDone m c 5) -∗ Kt r))
      ⊢ wp frame (wpE (defs₀ (F := F)) 𝒱₀ (c : Thread nD τ) none) Set.univ (k0_part17 (F := F) xH (Memref.isWhole_whole _) A1 (Memref.isWhole_whole _) xV (Memref.isWhole_whole _) gbuf (Memref.isWhole_whole _) cc0_scratch2 cc0_scratch3 cc0_scratch4 c v2) Kt := by
  simp only [k0_part17_eq_skeleton]; unfold k0_part17_skel
  simp only [semSignalWord, semWaitWord, Prog.lift, Prog.bind_op, Prog.bind_ret, Prog.pure_eq_ret, wp_deviceId]
  simp only [row2_eq, row3_eq, recv_sem]
  refine go3 m K (recv_at m K c 1 (by decide) 2 (by decide)) ?_
  refine go3 m K (recv_at m K c 2 (by decide) 3 (by decide)) ?_
  refine go3 m K (recv_at m K c 3 (by decide) 4 (by decide)) ?_
  refine go3 m K (recv_at m K c 4 (by decide) 5 (by decide)) ?_
  exact fin3 m K _

theorem part18 (K : Dev nD × Fin 66 → ℕ) (c : Dev nD) (v2 w1 w2 : BitVec 32) (Kt : (Σ' (v518 : BitVec 32), BitVec 32) → sProp 𝕄) :
    iprop(records m K ∗ owesE c 0 ∗ RecvSt c 5 ∗ RecvDone m c 5 ∗ (∀ r, (owesE c 0 ∗ RecvSt c 8 ∗ RecvDone m c 8) -∗ Kt r))
      ⊢ wp frame (wpE (defs₀ (F := F)) 𝒱₀ (c : Thread nD τ) none) Set.univ (k0_part18 (F := F) xH (Memref.isWhole_whole _) A1 (Memref.isWhole_whole _) xV (Memref.isWhole_whole _) gbuf (Memref.isWhole_whole _) cc0_scratch2 cc0_scratch3 cc0_scratch4 c v2 w1) Kt := by
  simp only [k0_part18_eq_skeleton]; unfold k0_part18_skel
  simp only [semSignalWord, semWaitWord, Prog.lift, Prog.bind_op, Prog.bind_ret, Prog.pure_eq_ret, wp_deviceId]
  simp only [row2_eq, row3_eq, recv_sem]
  refine go3 m K (recv_at m K c 5 (by decide) 6 (by decide)) ?_
  refine go3 m K (recv_at m K c 6 (by decide) 7 (by decide)) ?_
  refine go3 m K (recv_at m K c 7 (by decide) 8 (by decide)) ?_
  exact fin3 m K _

theorem part19 (K : Dev nD × Fin 66 → ℕ) (c : Dev nD) (v2 w1 w2 : BitVec 32) (Kt : PUnit → sProp 𝕄) :
    iprop(records m K ∗ owesE c 0 ∗ RecvSt c 8 ∗ RecvDone m c 8 ∗ (∀ r, (owesE c 0 ∗ RecvSt c 11 ∗ RecvDone m c 11) -∗ Kt r))
      ⊢ wp frame (wpE (defs₀ (F := F)) 𝒱₀ (c : Thread nD τ) none) Set.univ (k0_part19 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part19_eq_skeleton]; unfold k0_part19_skel
  simp only [semSignalWord, semWaitWord, Prog.lift, Prog.bind_op, Prog.bind_ret, Prog.pure_eq_ret, wp_deviceId]
  simp only [row2_eq, row3_eq, recv_sem]
  refine go3 m K (recv_at m K c 8 (by decide) 9 (by decide)) ?_
  refine go3 m K (recv_at m K c 9 (by decide) 10 (by decide)) ?_
  refine go3 m K (recv_at m K c 10 (by decide) 11 (by decide)) ?_
  exact fin3 m K _

theorem part20 (K : Dev nD × Fin 66 → ℕ) (c : Dev nD) (v2 w1 w2 : BitVec 32) (Kt : (Σ' (v574 : BitVec 32), BitVec 32) → sProp 𝕄) :
    iprop(records m K ∗ owesE c 0 ∗ RecvSt c 11 ∗ RecvDone m c 11 ∗ (∀ r, (owesE c 0 ∗ RecvSt c 14 ∗ RecvDone m c 14) -∗ Kt r))
      ⊢ wp frame (wpE (defs₀ (F := F)) 𝒱₀ (c : Thread nD τ) none) Set.univ (k0_part20 (F := F) xH (Memref.isWhole_whole _) A1 (Memref.isWhole_whole _) xV (Memref.isWhole_whole _) gbuf (Memref.isWhole_whole _) cc0_scratch2 cc0_scratch3 cc0_scratch4 c v2) Kt := by
  simp only [k0_part20_eq_skeleton]; unfold k0_part20_skel
  simp only [semSignalWord, semWaitWord, Prog.lift, Prog.bind_op, Prog.bind_ret, Prog.pure_eq_ret, wp_deviceId]
  simp only [row2_eq, row3_eq, recv_sem]
  refine go3 m K (recv_at m K c 11 (by decide) 12 (by decide)) ?_
  refine go3 m K (recv_at m K c 12 (by decide) 13 (by decide)) ?_
  refine go3 m K (recv_at m K c 13 (by decide) 14 (by decide)) ?_
  exact fin3 m K _

theorem part21 (K : Dev nD × Fin 66 → ℕ) (c : Dev nD) (v2 w1 w2 : BitVec 32) (Kt : PUnit → sProp 𝕄) :
    iprop(records m K ∗ owesE c 0 ∗ RecvSt c 14 ∗ RecvDone m c 14 ∗ (∀ r, (owesE c 0 ∗ RecvSt c 17 ∗ RecvDone m c 17) -∗ Kt r))
      ⊢ wp frame (wpE (defs₀ (F := F)) 𝒱₀ (c : Thread nD τ) none) Set.univ (k0_part21 (F := F) xH (Memref.isWhole_whole _) A1 (Memref.isWhole_whole _) xV (Memref.isWhole_whole _) gbuf (Memref.isWhole_whole _) cc0_scratch2 cc0_scratch3 cc0_scratch4 c v2 w1 w2) Kt := by
  simp only [k0_part21_eq_skeleton]; unfold k0_part21_skel
  simp only [semSignalWord, semWaitWord, Prog.lift, Prog.bind_op, Prog.bind_ret, Prog.pure_eq_ret, wp_deviceId]
  simp only [row2_eq, row3_eq, recv_sem]
  refine go3 m K (recv_at m K c 14 (by decide) 15 (by decide)) ?_
  refine go3 m K (recv_at m K c 15 (by decide) 16 (by decide)) ?_
  refine go3 m K (recv_at m K c 16 (by decide) 17 (by decide)) ?_
  exact fin3 m K _

theorem part22 (K : Dev nD × Fin 66 → ℕ) (c : Dev nD) (v2 w1 w2 : BitVec 32) (Kt : PUnit → sProp 𝕄) :
    iprop(records m K ∗ owesE c 0 ∗ RecvSt c 17 ∗ RecvDone m c 17 ∗ (∀ r, (owesE c 0 ∗ RecvSt c 20 ∗ RecvDone m c 20) -∗ Kt r))
      ⊢ wp frame (wpE (defs₀ (F := F)) 𝒱₀ (c : Thread nD τ) none) Set.univ (k0_part22 (F := F) xH (Memref.isWhole_whole _) A1 (Memref.isWhole_whole _) xV (Memref.isWhole_whole _) gbuf (Memref.isWhole_whole _) cc0_scratch2 cc0_scratch3 cc0_scratch4 c v2) Kt := by
  simp only [k0_part22_eq_skeleton]; unfold k0_part22_skel
  simp only [semSignalWord, semWaitWord, Prog.lift, Prog.bind_op, Prog.bind_ret, Prog.pure_eq_ret, wp_deviceId]
  simp only [row2_eq, row3_eq, recv_sem]
  refine go3 m K (recv_at m K c 17 (by decide) 18 (by decide)) ?_
  refine go3 m K (recv_at m K c 18 (by decide) 19 (by decide)) ?_
  refine go3 m K (recv_at m K c 19 (by decide) 20 (by decide)) ?_
  exact fin3 m K _

theorem part23 (K : Dev nD × Fin 66 → ℕ) (c : Dev nD) (v2 w1 w2 : BitVec 32) (Kt : BitVec 32 → sProp 𝕄) :
    iprop(records m K ∗ owesE c 0 ∗ RecvSt c 20 ∗ RecvDone m c 20 ∗ (∀ r, (owesE c 0 ∗ RecvSt c 24 ∗ RecvDone m c 24) -∗ Kt r))
      ⊢ wp frame (wpE (defs₀ (F := F)) 𝒱₀ (c : Thread nD τ) none) Set.univ (k0_part23 (F := F) xH (Memref.isWhole_whole _) A1 (Memref.isWhole_whole _) xV (Memref.isWhole_whole _) gbuf (Memref.isWhole_whole _) cc0_scratch2 cc0_scratch3 cc0_scratch4 c v2) Kt := by
  simp only [k0_part23_eq_skeleton]; unfold k0_part23_skel
  simp only [semSignalWord, semWaitWord, Prog.lift, Prog.bind_op, Prog.bind_ret, Prog.pure_eq_ret, wp_deviceId]
  simp only [row2_eq, row3_eq, recv_sem]
  refine go3 m K (recv_at m K c 20 (by decide) 21 (by decide)) ?_
  refine go3 m K (recv_at m K c 21 (by decide) 22 (by decide)) ?_
  refine go3 m K (recv_at m K c 22 (by decide) 23 (by decide)) ?_
  refine go3 m K (recv_at m K c 23 (by decide) 24 (by decide)) ?_
  exact fin3 m K _

theorem part24 (K : Dev nD × Fin 66 → ℕ) (c : Dev nD) (v2 w1 w2 : BitVec 32) (Kt : BitVec 32 → sProp 𝕄) :
    iprop(records m K ∗ owesE c 0 ∗ RecvSt c 24 ∗ RecvDone m c 24 ∗ (∀ r, (owesE c 0 ∗ RecvSt c 27 ∗ RecvDone m c 27) -∗ Kt r))
      ⊢ wp frame (wpE (defs₀ (F := F)) 𝒱₀ (c : Thread nD τ) none) Set.univ (k0_part24 (F := F) xH (Memref.isWhole_whole _) A1 (Memref.isWhole_whole _) xV (Memref.isWhole_whole _) gbuf (Memref.isWhole_whole _) cc0_scratch2 cc0_scratch3 cc0_scratch4 c v2 w1) Kt := by
  simp only [k0_part24_eq_skeleton]; unfold k0_part24_skel
  simp only [semSignalWord, semWaitWord, Prog.lift, Prog.bind_op, Prog.bind_ret, Prog.pure_eq_ret, wp_deviceId]
  simp only [row2_eq, row3_eq, recv_sem]
  refine go3 m K (recv_at m K c 24 (by decide) 25 (by decide)) ?_
  refine go3 m K (recv_at m K c 25 (by decide) 26 (by decide)) ?_
  refine go3 m K (recv_at m K c 26 (by decide) 27 (by decide)) ?_
  exact fin3 m K _

theorem part25 (K : Dev nD × Fin 66 → ℕ) (c : Dev nD) (v2 w1 w2 : BitVec 32) (Kt : PUnit → sProp 𝕄) :
    iprop(records m K ∗ owesE c 0 ∗ RecvSt c 27 ∗ RecvDone m c 27 ∗ (∀ r, (owesE c 0 ∗ RecvSt c 30 ∗ RecvDone m c 30) -∗ Kt r))
      ⊢ wp frame (wpE (defs₀ (F := F)) 𝒱₀ (c : Thread nD τ) none) Set.univ (k0_part25 (F := F) xH (Memref.isWhole_whole _) A1 (Memref.isWhole_whole _) xV (Memref.isWhole_whole _) gbuf (Memref.isWhole_whole _) cc0_scratch2 cc0_scratch3 cc0_scratch4 c v2 w1) Kt := by
  simp only [k0_part25_eq_skeleton]; unfold k0_part25_skel
  simp only [semSignalWord, semWaitWord, Prog.lift, Prog.bind_op, Prog.bind_ret, Prog.pure_eq_ret, wp_deviceId]
  simp only [row2_eq, row3_eq, recv_sem]
  refine go3 m K (recv_at m K c 27 (by decide) 28 (by decide)) ?_
  refine go3 m K (recv_at m K c 28 (by decide) 29 (by decide)) ?_
  refine go3 m K (recv_at m K c 29 (by decide) 30 (by decide)) ?_
  exact fin3 m K _

theorem part27 (K : Dev nD × Fin 66 → ℕ) (c : Dev nD) (v2 w1 w2 : BitVec 32) (Kt : PUnit → sProp 𝕄) :
    iprop(records m K ∗ owesE c 0 ∗ SWaitSt c 4 ∗ SWaitDone m c 4 ∗ (∀ r, (owesE c 0 ∗ SWaitSt c 10 ∗ SWaitDone m c 10) -∗ Kt r))
      ⊢ wp frame (wpE (defs₀ (F := F)) 𝒱₀ (c : Thread nD τ) none) Set.univ (k0_part27 (F := F) xH (Memref.isWhole_whole _) A1 (Memref.isWhole_whole _) xV (Memref.isWhole_whole _) gbuf (Memref.isWhole_whole _) cc0_scratch2 cc0_scratch3 cc0_scratch4 c) Kt := by
  simp only [k0_part27_eq_skeleton]; unfold k0_part27_skel
  simp only [semSignalWord, semWaitWord, Prog.lift, Prog.bind_op, Prog.bind_ret, Prog.pure_eq_ret, wp_deviceId]
  simp only [row2_eq, send_sem]
  refine go3 m K (swait_at m K c 4 (by decide) 5 (by decide)) ?_
  refine go3 m K (swait_at m K c 5 (by decide) 6 (by decide)) ?_
  refine go3 m K (swait_at m K c 6 (by decide) 7 (by decide)) ?_
  refine go3 m K (swait_at m K c 7 (by decide) 8 (by decide)) ?_
  refine go3 m K (swait_at m K c 8 (by decide) 9 (by decide)) ?_
  refine go3 m K (swait_at m K c 9 (by decide) 10 (by decide)) ?_
  exact fin3 m K _

theorem part28 (K : Dev nD × Fin 66 → ℕ) (c : Dev nD) (v2 w1 w2 : BitVec 32) (Kt : PUnit → sProp 𝕄) :
    iprop(records m K ∗ owesE c 0 ∗ SWaitSt c 10 ∗ SWaitDone m c 10 ∗ (∀ r, (owesE c 0 ∗ SWaitSt c 16 ∗ SWaitDone m c 16) -∗ Kt r))
      ⊢ wp frame (wpE (defs₀ (F := F)) 𝒱₀ (c : Thread nD τ) none) Set.univ (k0_part28 (F := F) xH (Memref.isWhole_whole _) A1 (Memref.isWhole_whole _) xV (Memref.isWhole_whole _) gbuf (Memref.isWhole_whole _) cc0_scratch2 cc0_scratch3 cc0_scratch4 c) Kt := by
  simp only [k0_part28_eq_skeleton]; unfold k0_part28_skel
  simp only [semSignalWord, semWaitWord, Prog.lift, Prog.bind_op, Prog.bind_ret, Prog.pure_eq_ret, wp_deviceId]
  simp only [row2_eq, send_sem]
  refine go3 m K (swait_at m K c 10 (by decide) 11 (by decide)) ?_
  refine go3 m K (swait_at m K c 11 (by decide) 12 (by decide)) ?_
  refine go3 m K (swait_at m K c 12 (by decide) 13 (by decide)) ?_
  refine go3 m K (swait_at m K c 13 (by decide) 14 (by decide)) ?_
  refine go3 m K (swait_at m K c 14 (by decide) 15 (by decide)) ?_
  refine go3 m K (swait_at m K c 15 (by decide) 16 (by decide)) ?_
  exact fin3 m K _

theorem part29 (K : Dev nD × Fin 66 → ℕ) (c : Dev nD) (v2 w1 w2 : BitVec 32) (Kt : PUnit → sProp 𝕄) :
    iprop(records m K ∗ owesE c 0 ∗ SWaitSt c 16 ∗ SWaitDone m c 16 ∗ (∀ r, (owesE c 0 ∗ SWaitSt c 22 ∗ SWaitDone m c 22) -∗ Kt r))
      ⊢ wp frame (wpE (defs₀ (F := F)) 𝒱₀ (c : Thread nD τ) none) Set.univ (k0_part29 (F := F) xH (Memref.isWhole_whole _) A1 (Memref.isWhole_whole _) xV (Memref.isWhole_whole _) gbuf (Memref.isWhole_whole _) cc0_scratch2 cc0_scratch3 cc0_scratch4 c) Kt := by
  simp only [k0_part29_eq_skeleton]; unfold k0_part29_skel
  simp only [semSignalWord, semWaitWord, Prog.lift, Prog.bind_op, Prog.bind_ret, Prog.pure_eq_ret, wp_deviceId]
  simp only [row2_eq, send_sem]
  refine go3 m K (swait_at m K c 16 (by decide) 17 (by decide)) ?_
  refine go3 m K (swait_at m K c 17 (by decide) 18 (by decide)) ?_
  refine go3 m K (swait_at m K c 18 (by decide) 19 (by decide)) ?_
  refine go3 m K (swait_at m K c 19 (by decide) 20 (by decide)) ?_
  refine go3 m K (swait_at m K c 20 (by decide) 21 (by decide)) ?_
  refine go3 m K (swait_at m K c 21 (by decide) 22 (by decide)) ?_
  exact fin3 m K _

theorem part30 (K : Dev nD × Fin 66 → ℕ) (c : Dev nD) (v2 w1 w2 : BitVec 32) (Kt : PUnit → sProp 𝕄) :
    iprop(records m K ∗ owesE c 0 ∗ SWaitSt c 22 ∗ SWaitDone m c 22 ∗ (∀ r, (owesE c 0 ∗ SWaitSt c 28 ∗ SWaitDone m c 28) -∗ Kt r))
      ⊢ wp frame (wpE (defs₀ (F := F)) 𝒱₀ (c : Thread nD τ) none) Set.univ (k0_part30 (F := F) xH (Memref.isWhole_whole _) A1 (Memref.isWhole_whole _) xV (Memref.isWhole_whole _) gbuf (Memref.isWhole_whole _) cc0_scratch2 cc0_scratch3 cc0_scratch4 c) Kt := by
  simp only [k0_part30_eq_skeleton]; unfold k0_part30_skel
  simp only [semSignalWord, semWaitWord, Prog.lift, Prog.bind_op, Prog.bind_ret, Prog.pure_eq_ret, wp_deviceId]
  simp only [row2_eq, send_sem]
  refine go3 m K (swait_at m K c 22 (by decide) 23 (by decide)) ?_
  refine go3 m K (swait_at m K c 23 (by decide) 24 (by decide)) ?_
  refine go3 m K (swait_at m K c 24 (by decide) 25 (by decide)) ?_
  refine go3 m K (swait_at m K c 25 (by decide) 26 (by decide)) ?_
  refine go3 m K (swait_at m K c 26 (by decide) 27 (by decide)) ?_
  refine go3 m K (swait_at m K c 27 (by decide) 28 (by decide)) ?_
  exact fin3 m K _

end Cert.Kernel.DistSum

end
-- ==== Proof.Bits.Proto.lean ====
import proofs.«901078_g7700000000001079_dist_sum_ax0_shard0_i_m1536_n768_v7x_i32_f32_1_alg».proof.Proof.Bits.State

/-! What a device holds when it enters the kernel and when it leaves it. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ownPos (c : Dev nD) : sProp 𝕄 :=
  iprop(atPos ER (barC c) 0 ∅ 0 ∗ atPos ER (cpyC c) 0 ∅ 0 ∗ atPos ER (sendC c 0) 0 ∅ 0 ∗ atPos ER (recvC c 0) 0 ∅ 0
    ∗ SendPos c ∗ bigSep (Finset.Ioc 0 31) fun d => atPos ER (recvC c (off d)) 0 ∅ 0)

def payToks (c : Dev nD) : sProp 𝕄 :=
  iprop((bigSep (Finset.Ioc 0 31) fun d => dutyTok ER (barC (peer c (off d))) 0 (c : Fin 32))
    ∗ (bigSep (Finset.Ioc 0 31) fun d => dutyTok ER (recvC (peer c (off d)) (off d)) 0 0)
    ∗ (bigSep (Finset.Ioc 0 31) fun d => dutyTok ER (sendC c (off d)) 0 0)
    ∗ dutyTok ER (cpyC c) 0 0)

def ghost (K : Dev nD × Fin 66 → ℕ) (c : Dev nD) : sProp 𝕄 := iprop(records m K ∗ ownPos c ∗ payToks c)

def launchCreds (c : Dev nD) : sProp 𝕄 :=
  iprop(cred (tallyAt (barC c) () 31) ∗ bigSep (Finset.Ioc 0 31) fun d => cred (tallyAt (recvC c (off d)) () N))

def xPts (c : Dev nD) : sProp 𝕄 := ((c : Thread nD τ).loc main_arg0) ↦{fullShare} m ((c : Thread nD τ).loc main_arg0)

def start (c : Dev nD) : sProp 𝕄 :=
  iprop((∃ K, ghost m K c) ∗ launchCreds c ∗ levAts L lv ∗ xPts m c)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

abbrev osem : Fin 65 → SemLoc sig := fun k => .dma ⟨k.val + 1, by have := k.isLt; show k.val + 1 < 66; omega⟩

def Φ₀ (c : Dev nD) : sProp 𝕄 := iprop(start m c ∗ scratch c)
def Φ₁ (c : Dev nD) : sProp 𝕄 :=
  iprop(xPts m c ∗ scratch c ∗ bigSep Finset.univ fun k : Fin 65 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outVal m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (outVal m))

end Cert.Kernel.DistSum

end
-- ==== Proof.Bits.Credit.lean ====
import proofs.«901078_g7700000000001079_dist_sum_ax0_shard0_i_m1536_n768_v7x_i32_f32_1_alg».proof.Proof.Bits.Proto
import Idealize.ShloMosaic.Lib.Pipeline.Launch

/-! Every wait is at a level below what the waiter still owes; the credit dealt at launch. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem ln_L_of_ne (g : GSem nD τ sig) (h : g.1.2 ≠ .tc) : L g = ∅ := if_neg h
omit [FloatOps F] in
theorem ln_L_tc (c : Dev nD) (sm : SemLoc sig) : L ((c : Thread nD τ), sm) = {()} := if_pos rfl

omit [FloatOps F] in
theorem ln_owed_pos {c : Dev nD} {n k : ℕ} {g : GSem nD τ sig} {u : Unit} (h : 0 < (owedT c n + owedS c k) g u) :
    (∃ d ∈ Finset.Ioc n 31, g = recvC (peer c (off d)) (off d)) ∨ (∃ d ∈ Finset.Ioc k 31, g = barC (peer c (off d))) := by
  rcases Pipeline.add_pos_cases h with h | h
  · left
    unfold owedT at h
    obtain ⟨d, hd, hp⟩ := Pipeline.sum_pos_exists h
    exact ⟨d, hd, (Pipeline.tallyAt_pos hp).1⟩
  · right
    unfold owedS at h
    obtain ⟨d, hd, hp⟩ := Pipeline.sum_pos_exists h
    exact ⟨d, hd, (Pipeline.tallyAt_pos hp).1⟩

omit [FloatOps F] in
theorem ln_isRecvIx_off {n d : ℕ} (hd : d ∈ Finset.Ioc n 31) : isRecvIx (recvSem (off d)) := by
  have h := Finset.mem_Ioc.mp hd
  unfold isRecvIx
  show 35 ≤ 34 + d % 32
  omega

omit [FloatOps F] in
theorem ln_mayWait_low (c : Dev nD) (q : DmaSem sig) (hq : ¬ isRecvIx q) (n k : ℕ) :
    (levAts L lv : sProp 𝕄) ⊢ MayWait (c : Thread nD τ) (.dma q) () (owedT c n + owedS c k) :=
  MayOwe.of_cut (L := L) (lev := lv) 0
    (fun p hp => by rw [Finset.mem_singleton.mp hp, ln_L_tc]; exact Finset.mem_singleton_self _)
    (fun g u hg => by
      rcases ln_owed_pos hg with ⟨d, _, rfl⟩ | ⟨d, _, rfl⟩ <;> (rw [ln_L_tc]; exact Finset.mem_singleton_self _))
    (fun p hp => by
      rw [Finset.mem_singleton.mp hp]
      show (if isRecvIx q then 2 else 0 : ℕ) ≤ 0
      rw [if_neg hq])
    (fun g u hg => by
      rcases ln_owed_pos hg with ⟨d, hd, rfl⟩ | ⟨d, hd, rfl⟩
      · show 0 < (if isRecvIx (recvSem (off d)) then 2 else 0 : ℕ)
        rw [if_pos (ln_isRecvIx_off hd)]; decide
      · show 0 < 1
        decide)

omit [FloatOps F] in
theorem ln_owedT_pos {c : Dev nD} {n : ℕ} {g : GSem nD τ sig} {u : Unit} (h : 0 < owedT c n g u) :
    ∃ d ∈ Finset.Ioc n 31, g = recvC (peer c (off d)) (off d) := by
  unfold owedT at h
  obtain ⟨d, hd, hp⟩ := Pipeline.sum_pos_exists h
  exact ⟨d, hd, (Pipeline.tallyAt_pos hp).1⟩

omit [FloatOps F] in
theorem ln_mayWait_bar (c : Dev nD) (n : ℕ) :
    (levAts L lv : sProp 𝕄) ⊢ MayWait (c : Thread nD τ) (.reg barS) () (owedT c n) :=
  MayOwe.of_cut (L := L) (lev := lv) 1
    (fun p hp => by rw [Finset.mem_singleton.mp hp, ln_L_tc]; exact Finset.mem_singleton_self _)
    (fun g u hg => by obtain ⟨d, _, rfl⟩ := ln_owedT_pos hg; rw [ln_L_tc]; exact Finset.mem_singleton_self _)
    (fun p hp => by
      rw [Finset.mem_singleton.mp hp]
      show (1 : ℕ) ≤ 1
      exact le_refl _)
    (fun g u hg => by
      obtain ⟨d, hd, rfl⟩ := ln_owedT_pos hg
      show 1 < (if isRecvIx (recvSem (off d)) then 2 else 0 : ℕ)
      rw [if_pos (ln_isRecvIx_off hd)]; decide)

omit [FloatOps F] in
theorem ln_sum_units (g : GSem nD τ sig) (k : ℕ) :
    (∑ _e ∈ Finset.Ioc 0 k, (tallyAt g () 1 : CellTallies nD τ sig Unit)) = tallyAt g () k := by
  induction k with
  | zero => rw [Finset.Ioc_self, Finset.sum_empty, tallyAt_zero]
  | succ k ih =>
    have hI : Finset.Ioc 0 (k + 1) = insert (k + 1) (Finset.Ioc 0 k) := by
      ext d; simp only [Finset.mem_Ioc, Finset.mem_insert]; omega
    rw [hI, Finset.sum_insert (by simp), ih, tallyAt_add, Nat.add_comm]

omit [FloatOps F] in
theorem ln_creds (c : Dev nD) : (Pipeline.launchCred O₀ c : sProp 𝕄) ⊢ launchCreds c := by
  have e : (O₀ : Dev nD → CellTallies nD τ sig Unit)
      = fun d => (∑ e ∈ Finset.Ioc 0 31, tallyAt (recvC (peer d (off e)) (off e)) () N)
          + ∑ e ∈ Finset.Ioc 0 31, tallyAt (barC (peer d (off e))) () 1 := rfl
  have hT : (bigSep (Finset.Ioc 0 31) fun e => Pipeline.launchCred (fun d : Dev nD => (tallyAt (recvC (peer d (off e)) (off e)) () N : CellTallies nD τ sig Unit)) c : sProp 𝕄)
      ⊢ bigSep (Finset.Ioc 0 31) fun e => cred (tallyAt (recvC c (off e)) () N) :=
    bigSep_mono fun e _ => Pipeline.launchCred_tallyAt (.dma (recvSem (off e))) (fun d => peer d (off e)) (fun p => srcOf p (off e))
      (fun p => peer_srcOf p (off e)) (fun d => srcOf_peer d (off e)) () N c
  have hsum : (bigSep (Finset.Ioc 0 31) fun _e : ℕ => (cred (tallyAt (barC c) () 1 : CellTallies nD τ sig Unit) : sProp 𝕄))
      = cred (tallyAt (barC c) () 31) := by
    rw [← Pipeline.cred_finsetSum, ln_sum_units]
  have hS : (bigSep (Finset.Ioc 0 31) fun e => Pipeline.launchCred (fun d : Dev nD => (tallyAt (barC (peer d (off e))) () 1 : CellTallies nD τ sig Unit)) c : sProp 𝕄)
      ⊢ cred (tallyAt (barC c) () 31) :=
    (bigSep_mono fun e _ => Pipeline.launchCred_tallyAt (.reg barS) (fun d => peer d (off e)) (fun p => srcOf p (off e))
      (fun p => peer_srcOf p (off e)) (fun d => srcOf_peer d (off e)) () 1 c).trans
      (Entails.of_eq hsum)
  rw [e, Pipeline.launchCred_add, Pipeline.launchCred_sum, Pipeline.launchCred_sum]
  unfold launchCreds
  iintro ⟨HT, HS⟩
  isplitl [HS]
  · iapply hS; iexact HS
  · iapply hT; iexact HT

end Cert.Kernel.DistSum

end
-- ==== Proof.Bits.StepsB.lean ====
import proofs.«901078_g7700000000001079_dist_sum_ax0_shard0_i_m1536_n768_v7x_i32_f32_1_alg».proof.Proof.Bits.Proto
import proofs.«901078_g7700000000001079_dist_sum_ax0_shard0_i_m1536_n768_v7x_i32_f32_1_alg».proof.Proof.Bits.Rows
import proofs.«901078_g7700000000001079_dist_sum_ax0_shard0_i_m1536_n768_v7x_i32_f32_1_alg».proof.Proof.Bits.Credit

/-! The local copy of the block, its wait, and the wait at the barrier. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem sb_duties_bar : (Rd (F := F) m).duties (barC c) 0 = Finset.univ.erase (c : Fin 32) := by
  show (if (0 : ℕ) = 0 then dutiesOf (barC c) else ∅) = _
  rw [if_pos rfl]
  unfold dutiesOf
  rw [if_pos rfl]
  exact if_pos rfl

theorem sb_duties_cpy : (Rd (F := F) m).duties (cpyC c) 0 = {0} := by
  show (if (0 : ℕ) = 0 then dutiesOf (cpyC c) else ∅) = _
  rw [if_pos rfl]
  unfold dutiesOf
  rw [if_pos rfl]
  exact if_pos (Or.inl rfl)

theorem sb_amount_bar (r : ℕ) (p : Fin 32) : (Rd (F := F) m).amount (barC c) r p = 1 := rfl
theorem sb_amount_cpy (r : ℕ) (p : Fin 32) : (Rd (F := F) m).amount (cpyC c) r p = NX := by
  show (if (cpySem : DmaSem sig) = cpySem then NX else N) = NX
  exact if_pos rfl

theorem sb_expect_bar : (Rd (F := F) m).expect (barC c) 0 = 31 := by
  rw [Schedule.expect]
  show (∑ d ∈ (Rd (F := F) m).duties (barC c) 0, (Rd (F := F) m).amount (barC c) 0 d) = 31
  rw [sb_duties_bar m c, Finset.sum_congr rfl fun p _ => sb_amount_bar m c 0 p, Finset.sum_const, smul_eq_mul,
    Finset.card_erase_of_mem (Finset.mem_univ _), Finset.card_univ, Fintype.card_fin]
theorem sb_sum_cpy : (∑ d ∈ (Rd (F := F) m).duties (cpyC c) 0, (Rd (F := F) m).amount (cpyC c) 0 d) = NX := by
  rw [sb_duties_cpy m c, Finset.sum_singleton]
  exact sb_amount_cpy m c 0 0
theorem sb_expect_cpy : (Rd (F := F) m).expect (cpyC c) 0 = NX := by
  rw [Schedule.expect]
  exact sb_sum_cpy m c

theorem sb_payload_cpy : (Rd (F := F) m).payload (cpyC c) 0 0 = cpyPay m c := by
  show (if (cpySem : DmaSem sig) = cpySem then cpyPay m c
    else if isRecvIx (cpySem : DmaSem sig) then recvPay m c (recvOff cpySem) else sendPay m c (sendOff cpySem)) = cpyPay m c
  exact if_pos rfl

theorem sb_rest_cpy :
    bigSep ((Rd (F := F) m).duties (cpyC c) 0 \ ∅) (fun p => (Rd (F := F) m).payload (cpyC c) 0 p) = cpyPay m c := by
  rw [Finset.sdiff_empty, sb_duties_cpy, bigSep_singleton, sb_payload_cpy]

theorem sb_rest_bar :
    bigSep ((Rd (F := F) m).duties (barC c) 0 \ ∅) (fun p => (Rd (F := F) m).payload (barC c) 0 p)
      = bigSep (Finset.Ioc 0 31) fun d => (iprop(∃ f, rowPts (peer c (off d)) c fullShare f) : sProp 𝕄) := by
  classical
  have himg : (Finset.univ.erase (c : Fin 32)) = (Finset.Ioc 0 31).image fun d : ℕ => (peer c (off d) : Fin 32) := by
    ext p
    simp only [Finset.mem_erase, Finset.mem_univ, and_true, Finset.mem_image, Finset.mem_Ioc]
    constructor
    · intro hp
      obtain ⟨d, h0, h1, e⟩ := row_peer_surj c p hp
      exact ⟨d, ⟨h0, h1⟩, e⟩
    · rintro ⟨d, ⟨h0, h1⟩, rfl⟩
      exact row_peer_ne c d h0 h1
  rw [Finset.sdiff_empty, sb_duties_bar, himg, bigSep_image_of_injOn (fun d hd d' hd' e => by
    have h := Finset.mem_Ioc.mp (Finset.mem_coe.mp hd)
    have h' := Finset.mem_Ioc.mp (Finset.mem_coe.mp hd')
    exact row_peer_inj c d d' h.1 h.2 h'.1 h'.2 e)]
  rfl

end Tables

theorem sb_inv_at (K : Dev nD × Fin 66 → ℕ) (ck : Dev nD × Fin 66) :
    (bigSep Finset.univ fun ck : Dev nD × Fin 66 => (cellInv ER (Rd m) (K ck) (kcell ck) : sProp 𝕄)) ⊢ cellInv ER (Rd m) (K ck) (kcell ck) :=
  bigSep_elim (Finset.mem_univ ck)
omit [FloatOps F] in
theorem sb_reached_at (ck : Dev nD × Fin 66) :
    (bigSep Finset.univ fun ck : Dev nD × Fin 66 => (reached ER (kcell ck) 0 : sProp 𝕄)) ⊢ reached ER (kcell ck) 0 :=
  bigSep_elim (Finset.mem_univ ck)

theorem sb_inv_bar (K : Dev nD × Fin 66 → ℕ) (c : Dev nD) : records m K ⊢ cellInv ER (Rd m) (K (c, 0)) (barC c) := by
  show records m K ⊢ cellInv ER (Rd m) (K (c, 0)) (kcell (c, 0))
  unfold records
  iintro ⟨#HI, -⟩
  iapply (sb_inv_at m K (c, 0))
  iexact HI
theorem sb_inv_cpy (K : Dev nD × Fin 66 → ℕ) (c : Dev nD) : records m K ⊢ cellInv ER (Rd m) (K (c, 1)) (cpyC c) := by
  show records m K ⊢ cellInv ER (Rd m) (K (c, 1)) (kcell (c, 1))
  unfold records
  iintro ⟨#HI, -⟩
  iapply (sb_inv_at m K (c, 1))
  iexact HI
theorem sb_reached_cpy (K : Dev nD × Fin 66 → ℕ) (c : Dev nD) : records m K ⊢ reached ER (cpyC c) 0 := by
  show records m K ⊢ reached ER (kcell (c, 1)) 0
  unfold records
  iintro ⟨-, #HR⟩
  iapply (sb_reached_at (F := F) (c, 1))
  iexact HR

theorem bar_wait (K : Dev nD × Fin 66 → ℕ) (c : Dev nD)
    {α : Type} {Q : α → sProp 𝕄} {k : PUnit → Prog (TpuEff nD τ sig (Elt F) Λ₀ .tc) α} :
    iprop(records m K ∗ levAts L lv ∗ owesE c (owedT c 0) ∗ cred (tallyAt (barC c) () 31) ∗ atPos ER (barC c) 0 ∅ 0)
      ⊢ iprop(((owesE c (owedT c 0) ∗ atPos ER (barC c) 1 ∅ 0
            ∗ bigSep (Finset.Ioc 0 31) (fun d => iprop(∃ f, rowPts (peer c (off d)) c fullShare f)))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (31#32).toNat) k) Q) := by
  unfold owesE
  iintro ⟨#HR, #Hlev, ⟨%W, HO⟩, Hc, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := owedT c 0) (W := W) (R := 0) (m := 0) (T := ∅)
      (by rw [sb_expect_bar]; decide)) $$ [HO Hc Hat]
  · isplitr; · iapply (sb_inv_bar m K c); iexact HR
    isplitl [Hc]; · iexact Hc
    isplitl [HO]; · iexact HO
    isplitr; · iapply (ln_mayWait_bar (F := F) c 0); iexact Hlev
    iexact Hat
  iintro ⟨HO, Hat, -, Hpay⟩
  iapply Hk
  isplitl [HO]; · iexists _; iexact HO
  isplitl [Hat]; · iexact Hat
  iapply (Entails.of_eq (sb_rest_bar m c)); iexact Hpay

omit [FloatOps F] in
theorem sb_xH_eq (c : Dev nD) (g : Buf (Elt F) ((c : Thread nD τ).loc main_arg0)) :
    ((xH : Memref sig .tc .hbm S1536x768 .f32).view.loc (c : Thread nD τ) ↦[(xH : Memref sig .tc .hbm S1536x768 .f32).view.set]{fullShare} g : sProp 𝕄)
      = (((c : Thread nD τ).loc main_arg0) ↦{fullShare} g) := by
  rw [View.set_whole]
omit [FloatOps F] in
theorem sb_xV_eq (c : Dev nD) (g : Buf (Elt F) ((c : Thread nD τ).loc cc0_scratch0)) :
    ((xV : Memref sig .tc .vmem S1536x768 .f32).view.loc (c : Thread nD τ) ↦[(xV : Memref sig .tc .vmem S1536x768 .f32).view.set]{fullShare} g : sProp 𝕄)
      = (((c : Thread nD τ).loc cc0_scratch0) ↦{fullShare} g) := by
  rw [View.set_whole]

theorem sb_cpy_pay (c : Dev nD) (f : Buf (Elt F) ((c : Thread nD τ).loc cc0_scratch0)) :
    iprop(((xV : Memref sig .tc .vmem S1536x768 .f32).view.loc (c : Thread nD τ) ↦[(xV : Memref sig .tc .vmem S1536x768 .f32).view.set]{fullShare}
          ((xV : Memref sig .tc .vmem S1536x768 .f32).view.write (Elt F) f
            ((xH : Memref sig .tc .hbm S1536x768 .f32).view.read (Elt F) (m ((c : Thread nD τ).loc main_arg0))) Finset.univ))
        ∗ ((xH : Memref sig .tc .hbm S1536x768 .f32).view.loc (c : Thread nD τ) ↦[(xH : Memref sig .tc .hbm S1536x768 .f32).view.set]{fullShare} m ((c : Thread nD τ).loc main_arg0)))
      ⊢ (Rd (F := F) m).payload (cpyC c) 0 0 := by
  have e : ∀ (a b w : Buf (Elt F) ((c : Thread nD τ).loc cc0_scratch0)),
      (xV : Memref sig .tc .vmem S1536x768 .f32).view.write (Elt F) a w Finset.univ
        = (xV : Memref sig .tc .vmem S1536x768 .f32).view.write (Elt F) b w Finset.univ := fun a b w => by
    show (View.whole cc0_scratch0).write (Elt F) a w Finset.univ = (View.whole cc0_scratch0).write (Elt F) b w Finset.univ
    rw [View.write_whole_univ, View.write_whole_univ]
  rw [sb_payload_cpy]
  unfold cpyPay xblk
  rw [e f (m ((c : Thread nD τ).loc main_arg0))]

theorem cpy_step (K : Dev nD × Fin 66 → ℕ) (c : Dev nD) (f : Buf (Elt F) ((c : Thread nD τ).loc cc0_scratch0))
    {hsrc : (xH : Memref sig .tc .hbm S1536x768 .f32).view.WordExact} {hdst : (xV : Memref sig .tc .vmem S1536x768 .f32).view.WordExact}
    {hsem : DmaTarget.Typed .hbm (.dma cpySem) (DmaTarget.here xV : DmaTarget nD τ sig (Proc.tc : Proc τ) .vmem S1536x768 .f32)}
    {α : Type} {Q : α → sProp 𝕄} {k : PUnit → Prog (TpuEff nD τ sig (Elt F) Λ₀ .tc) α} :
    iprop(records m K ∗ (((c : Thread nD τ).loc main_arg0) ↦{fullShare} m ((c : Thread nD τ).loc main_arg0))
        ∗ (((c : Thread nD τ).loc cc0_scratch0) ↦{fullShare} f) ∗ dutyTok ER (cpyC c) 0 0)
      ⊢ iprop((cred (tallyAt (cpyC c) () NX) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma xH (.here xV) (.dma cpySem) hsrc hdst hsem) k) Q) := by
  iintro ⟨#HR, Hx, Hs, Htok⟩
  ihave Hx' := (Entails.of_eq (sb_xH_eq (F := F) c _).symm) $$ Hx
  ihave Hs' := (Entails.of_eq (sb_xV_eq (F := F) c _).symm) $$ Hs
  iapply (Rounds.wp_copy_pointsTo 𝒱₀ ER (Rd m) (c : Thread nD τ) none (src := xH) (dst := xV) (sem := .dma cpySem)
      (q := fullShare) (fs := m ((c : Thread nD τ).loc main_arg0)) (fd := f) (r := 0) (d := 0) (κ := K (c, 1))
      (by rw [sb_duties_cpy]; exact Finset.mem_singleton_self _) () NX rfl (sb_amount_cpy m c 0 0) (sb_cpy_pay m c f))
  isplitr; · iapply (sb_inv_cpy m K c); iexact HR
  isplitl [Hx']; · iexact Hx'
  isplitl [Hs']; · iexact Hs'
  isplitl [Htok]; · iexact Htok
  iapply (sb_reached_cpy m K c); iexact HR

omit [FloatOps F] in
theorem sb_not_recv_cpy : ¬ isRecvIx (cpySem : DmaSem sig) := by unfold isRecvIx cpySem; decide

theorem cpy_wait (K : Dev nD × Fin 66 → ℕ) (c : Dev nD) (n k' : ℕ)
    {hs : (xH : Memref sig .tc .hbm S1536x768 .f32).view.WordExact} {hd : (xV : Memref sig .tc .vmem S1536x768 .f32).view.WordExact}
    {α : Type} {Q : α → sProp 𝕄} {k : PUnit → Prog (TpuEff nD τ sig (Elt F) Λ₀ .tc) α} :
    iprop(records m K ∗ levAts L lv ∗ owesE c (owedT c n + owedS c k') ∗ cred (tallyAt (cpyC c) () NX) ∗ atPos ER (cpyC c) 0 ∅ 0)
      ⊢ iprop(((owesE c (owedT c n + owedS c k') ∗ atPos ER (cpyC c) 1 ∅ 0 ∗ cpyPay m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cpySem xH xV hs hd) k) Q) := by
  unfold owesE
  iintro ⟨#HR, #Hlev, ⟨%W, HO⟩, Hc, Hat⟩ Hk
  iapply (Rounds.wp_wait_rest_token 𝒱₀ ER (Rd m) (c : Thread nD τ) none (κ := K (c, 1))
      (wpE_waitDma2_eq 𝒱₀ (c : Thread nD τ) none Set.univ) (Set.mem_univ _) () (O := owedT c n + owedS c k') (W := W) (R := 0) (m := 0) (T := ∅)
      ((Nat.zero_add _).trans (sb_expect_cpy m c).symm)) $$ [HO Hc Hat]
  · isplitr; · iapply (sb_inv_cpy m K c); iexact HR
    isplitl [Hc]; · iexact Hc
    isplitl [HO]; · iexact HO
    isplitr; · iapply (ln_mayWait_low (F := F) c cpySem sb_not_recv_cpy n k'); iexact Hlev
    iexact Hat
  iintro ⟨HO, Hat, -, Hpay⟩
  iapply Hk
  isplitl [HO]; · iexists _; iexact HO
  isplitl [Hat]; · iexact Hat
  iapply (Entails.of_eq (sb_rest_cpy m c)); iexact Hpay

end Cert.Kernel.DistSum

end
-- ==== Proof.Bits.RowAccess.lean ====
import proofs.«901078_g7700000000001079_dist_sum_ax0_shard0_i_m1536_n768_v7x_i32_f32_1_alg».proof.Proof.Bits.Cells
import proofs.«901078_g7700000000001079_dist_sum_ax0_shard0_i_m1536_n768_v7x_i32_f32_1_alg».proof.Proof.Bits.Rows
import proofs.«901078_g7700000000001079_dist_sum_ax0_shard0_i_m1536_n768_v7x_i32_f32_1_alg».proof.Proof.Bits.RingFacts

/-! Reading and writing the device's own row through the whole gather buffer. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ra_row_set (c : Dev nD) (h : ∀ a, rowOff c a + (![1, 768] : Fin 2 → Nat) a ≤ S32x768.size a) :
    (rowM c).view.set = (Rect.unit (s := S32x768) (rowOff c) ![1, 768] h).set :=
  View.set_slice_whole _ _

theorem ra_load_eq (c : Dev nD) (h : ∀ a, rowOff c a + (![1, 768] : Fin 2 → Nat) a ≤ S32x768.size a) :
    gbuf.view.setOn (Rect.unit (s := S32x768) (rowOff c) ![1, 768] h).toLoadRect.set = (rowM c).view.set := by
  rw [ra_row_set c h]
  show Finset.map (Function.Embedding.refl _) _ = _
  exact Finset.map_refl

theorem ra_load_sub (c : Dev nD) (h : ∀ a, rowOff c a + (![1, 768] : Fin 2 → Nat) a ≤ S32x768.size a) :
    gbuf.view.setOn (Rect.unit (s := S32x768) (rowOff c) ![1, 768] h).toLoadRect.set ⊆ (rowM c).view.set := by
  rw [ra_load_eq c h]

theorem ra_store_sub (c : Dev nD) (h : ∀ a, rowOff c a + (![1, 768] : Fin 2 → Nat) a ≤ S32x768.size a) :
    (gbuf.access (Rect.unit (s := S32x768) (rowOff c) ![1, 768] h)).setOn Finset.univ ⊆ (rowM c).view.set :=
  Finset.Subset.refl _

/-- A load of the device's own row, named at offsets equal to the row's, needs that row only. -/
theorem ra_wp_load_of {defs : Defs nD τ sig (Elt F) Λ₀} (𝒱 : Variants) (bd : Option 𝒱.V) {Γ : PendingWaitsCtx sig Unit} (E : Set ℕ)
    {α : Type} {Q : α → sProp 𝕄}
    (c : Dev nD) {off : Fin 2 → Nat} (hoff : off = rowOff c) (h : ∀ a, off a + (![1, 768] : Fin 2 → Nat) a ≤ S32x768.size a)
    {hl : gbuf.view.LoadsAt (Rect.unit (s := S32x768) off ![1, 768] h).toLoadRect}
    {k : ((Rect.unit (s := S32x768) off ![1, 768] h).toLoadRect.shape.Idx → Elt F .f32) → Prog (TpuEff nD τ sig (Elt F) Λ₀ .tc) α}
    (q : PosShare TreeShare) (f : Buf (Elt F) ((c : Thread nD τ).loc cc0_scratch1)) :
    (rowPts c c q f : sProp 𝕄)
      ⊢ iprop((rowPts c c q f -∗ wp frame (wpE' defs 𝒱 (c : Thread nD τ) bd Γ) E
          (k (gbuf.view.readAt (Elt F) (Rect.unit (s := S32x768) off ![1, 768] h).toLoadRect f)) Q)
        -∗ wp frame (wpE' defs 𝒱 (c : Thread nD τ) bd Γ) E
          (.op (.load gbuf (Rect.unit (s := S32x768) off ![1, 768] h).toLoadRect hl) k) Q) := by
  subst hoff
  unfold rowPts
  exact wp_load (cs := .vmem) (m := gbuf) (r := (Rect.unit (s := S32x768) (rowOff c) ![1, 768] h).toLoadRect) (hl := hl) (k := k)
    (S := (rowM c).view.set) (q := q) (f := f) (defs := defs) (Γ := Γ) (Q := Q) 𝒱 (c : Thread nD τ) bd E (ra_load_sub c h)

/-- The store of the block's column sums into the device's own row leaves that row holding them. -/
theorem ra_wp_store_sums_of {defs : Defs nD τ sig (Elt F) Λ₀} (𝒱 : Variants) (bd : Option 𝒱.V) {Γ : PendingWaitsCtx sig Unit} (E : Set ℕ)
    {α : Type} {Q : α → sProp 𝕄}
    (m : (ℓ : Loc nD τ sig) → Buf (Elt F) ℓ)
    (c : Dev nD) {off : Fin 2 → Nat} (hoff : off = rowOff c) (h : ∀ a, off a + (![1, 768] : Fin 2 → Nat) a ≤ S32x768.size a)
    {hx : (gbuf.access (Rect.unit (s := S32x768) off ![1, 768] h)).Stores Finset.univ}
    {hm : (Finset.univ : Finset (Rect.unit (s := S32x768) off ![1, 768] h).shape.Idx) = Finset.univ
      ∨ ∀ a, (Rect.unit (s := S32x768) off ![1, 768] h).stride a = 1}
    {k : PUnit → Prog (TpuEff nD τ sig (Elt F) Λ₀ .tc) α}
    (f : Buf (Elt F) ((c : Thread nD τ).loc cc0_scratch1)) :
    (rowPts c c fullShare f : sProp 𝕄)
      ⊢ iprop((rowPts c c fullShare (rowsOf m c c) -∗ wp frame (wpE' defs 𝒱 (c : Thread nD τ) bd Γ) E (k ⟨⟩) Q)
        -∗ wp frame (wpE' defs 𝒱 (c : Thread nD τ) bd Γ) E
          (.op (.store gbuf (Rect.unit (s := S32x768) off ![1, 768] h) (k0_pay1 (xblk m c)) Finset.univ hx hm) k) Q) := by
  subst hoff
  have e : (rowPts c c fullShare ((gbuf.access (Rect.unit (s := S32x768) (rowOff c) ![1, 768] h)).write (Elt F) f
      (k0_pay1 (xblk m c)) Finset.univ) : sProp 𝕄) = rowPts c c fullShare (rowsOf m c c) := stored_row m c fullShare f
  rw [← e]
  unfold rowPts
  exact wp_store (cs := .vmem) (m := gbuf) (r := Rect.unit (s := S32x768) (rowOff c) ![1, 768] h) (w := k0_pay1 (xblk m c)) (Mk := Finset.univ)
    (hx := hx) (hm := hm) (k := k) (S := (rowM c).view.set) (f := f) (defs := defs) (Γ := Γ) (Q := Q)
    𝒱 (c : Thread nD τ) bd E (ra_store_sub c h)

end Cert.Kernel.DistSum

end
-- ==== Proof.Bits.Part6.lean ====
import proofs.«901078_g7700000000001079_dist_sum_ax0_shard0_i_m1536_n768_v7x_i32_f32_1_alg».proof.Proof.Bits.Steps
import proofs.«901078_g7700000000001079_dist_sum_ax0_shard0_i_m1536_n768_v7x_i32_f32_1_alg».proof.Proof.Bits.StepsB
import proofs.«901078_g7700000000001079_dist_sum_ax0_shard0_i_m1536_n768_v7x_i32_f32_1_alg».proof.Proof.Bits.Proto
import proofs.«901078_g7700000000001079_dist_sum_ax0_shard0_i_m1536_n768_v7x_i32_f32_1_alg».proof.Proof.Bits.RingFacts
import proofs.«901078_g7700000000001079_dist_sum_ax0_shard0_i_m1536_n768_v7x_i32_f32_1_alg».proof.Proof.Bits.Rows
import proofs.«901078_g7700000000001079_dist_sum_ax0_shard0_i_m1536_n768_v7x_i32_f32_1_alg».proof.Proof.Bits.RowAccess

/-! The part of the body that joins the signals to the copies: the last signals, the block copied in and summed by columns into the device's own row, the wait at the barrier, the first copy. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p6_owedS_31 (c : Dev nD) : owedS c 31 = 0 := by
  unfold owedS; rw [Finset.Ioc_self, Finset.sum_empty]

theorem p6_owes31 (c : Dev nD) : (owesE c (owedT c 0 + owedS c 31) : sProp 𝕄) = owesE c (owedT c 0) := by
  rw [p6_owedS_31, add_zero]

theorem p6_SigSt_31 (c : Dev nD) : (SigSt c 31 : sProp 𝕄) = (BI.emp : sProp 𝕄) := by
  unfold SigSt; rw [Finset.Ioc_self, bigSep_empty]

theorem p6_SentCr_0 (c : Dev nD) : (SentCr c 0 : sProp 𝕄) = (BI.emp : sProp 𝕄) := by
  unfold SentCr; rw [Finset.Ioc_self, bigSep_empty]

theorem p6_xPts (c : Dev nD) :
    xPts m c = (((c : Thread nD τ).loc main_arg0) ↦{fullShare} m ((c : Thread nD τ).loc main_arg0) : sProp 𝕄) := rfl

theorem p6_cpyPay (c : Dev nD) :
    cpyPay m c = iprop(((c : Thread nD τ).loc cc0_scratch0 ↦{fullShare} (xblk m c : Buf (Elt F) ((c : Thread nD τ).loc cc0_scratch0))) ∗ xPts m c) := by
  have e1 : (xV : Memref sig .tc .vmem S1536x768 .f32).view.set = Finset.univ := View.set_whole cc0_scratch0
  have e2 : (xH : Memref sig .tc .hbm S1536x768 .f32).view.set = Finset.univ := View.set_whole main_arg0
  have e3 : (xV : Memref sig .tc .vmem S1536x768 .f32).view.write (Elt F) (m ((c : Thread nD τ).loc main_arg0)) (xblk m c) Finset.univ
      = xblk m c := View.write_whole_univ cc0_scratch0 _ _
  unfold cpyPay xPts
  rw [e1, e2, e3]

theorem p6_SendSt_0 (c : Dev nD) :
    SendSt m c 0 = iprop((bigSep (Finset.Ioc 0 31) fun d => dutyTok ER (sendC c (off d)) 0 0)
      ∗ (bigSep (Finset.Ioc 0 31) fun d => dutyTok ER (recvC (peer c (off d)) (off d)) 0 0)
      ∗ (bigSep (Finset.Ioc 0 31) fun d => rowPts c c (shareOf (off d).val) (rowsOf m c c))
      ∗ bigSep (Finset.Ioc 0 31) fun d => iprop(∃ f, rowPts (peer c (off d)) c fullShare f)) := by
  unfold SendSt
  rw [bigSep_sep', bigSep_sep', bigSep_sep']

theorem p6_load_x (c : Dev nD) (off0 : Fin 2 → ℕ) (h0 : off0 = fun _ => 0)
    (inb0 : ∀ a, off0 a + (![1536, 768] : Fin 2 → ℕ) a ≤ S1536x768.size a)
    {α : Type} {Q : α → sProp 𝕄}
    {hl : (xV : Memref sig .tc .vmem S1536x768 .f32).view.LoadsAt (Rect.unit (s := S1536x768) off0 ![1536, 768] inb0).toLoadRect}
    {k : ((Rect.unit (s := S1536x768) off0 ![1536, 768] inb0).toLoadRect.shape.Idx → Elt F .f32) → Prog (TpuEff nD τ sig (Elt F) Λ₀ .tc) α} :
    (((c : Thread nD τ).loc cc0_scratch0) ↦{fullShare} (xblk m c : Buf (Elt F) ((c : Thread nD τ).loc cc0_scratch0)) : sProp 𝕄)
      ⊢ iprop(((((c : Thread nD τ).loc cc0_scratch0) ↦{fullShare} (xblk m c : Buf (Elt F) ((c : Thread nD τ).loc cc0_scratch0)))
            -∗ wp frame (wpE (defs₀ (F := F)) 𝒱₀ (c : Thread nD τ) none) Set.univ (k (xblk m c)) Q)
        -∗ wp frame (wpE (defs₀ (F := F)) 𝒱₀ (c : Thread nD τ) none) Set.univ
          (.op (.load xV (Rect.unit (s := S1536x768) off0 ![1536, 768] inb0).toLoadRect hl) k) Q) := by
  have h := wp_load (defs := defs₀ (F := F)) 𝒱₀ (c : Thread nD τ) none (Γ := .empty) Set.univ (Q := Q) (m := xV)
    (r := (Rect.unit (s := S1536x768) off0 ![1536, 768] inb0).toLoadRect) (hl := hl) (k := k) (q := fullShare)
    (f := (xblk m c : Buf (Elt F) ((c : Thread nD τ).loc cc0_scratch0))) (S := Finset.univ) (Finset.subset_univ _)
  have e : (xV : Memref sig .tc .vmem S1536x768 .f32).view.readAt (Elt F) (Rect.unit (s := S1536x768) off0 ![1536, 768] inb0).toLoadRect
      (xblk m c : Buf (Elt F) ((c : Thread nD τ).loc cc0_scratch0)) = xblk m c :=
    Memref.readAt_unit_zero (Elt F) cc0_scratch0 h0 inb0 _
  rw [e] at h
  exact h

set_option maxHeartbeats 1600000 in
theorem part6 (K : Dev nD × Fin 66 → ℕ) (c : Dev nD) (v2 w1 w2 : BitVec 32) (Kt : (Σ' (v146 : BitVec 32), BitVec 32) → sProp 𝕄) :
  iprop(records m K ∗ levAts L lv ∗ owesE c (owedT c 0 + owedS c 29) ∗ SigSt c 29
      ∗ xPts m c ∗ (∃ f : Buf (Elt F) ((c : Thread nD τ).loc cc0_scratch0), ((c : Thread nD τ).loc cc0_scratch0) ↦{fullShare} f) ∗ dutyTok ER (cpyC c) 0 0 ∗ atPos ER (cpyC c) 0 ∅ 0
      ∗ (∃ f0, rowPts c c fullShare f0)
      ∗ cred (tallyAt (barC c) () 31) ∗ atPos ER (barC c) 0 ∅ 0
      ∗ (bigSep (Finset.Ioc 0 31) fun d => dutyTok ER (sendC c (off d)) 0 0) ∗ (bigSep (Finset.Ioc 0 31) fun d => dutyTok ER (recvC (peer c (off d)) (off d)) 0 0)
      ∗ (∀ r, (owesE c (owedT c 1) ∗ SendSt m c 1 ∗ SentCr c 1
            ∗ xPts m c ∗ (∃ f : Buf (Elt F) ((c : Thread nD τ).loc cc0_scratch0), ((c : Thread nD τ).loc cc0_scratch0) ↦{fullShare} f) ∗ atPos ER (cpyC c) 1 ∅ 0
            ∗ atPos ER (barC c) 1 ∅ 0 ∗ rowPts c c (shareOf 0) (rowsOf m c c) ∗ rowPts c c (shareOf.restShare 31) (rowsOf m c c)) -∗ Kt r))
    ⊢ wp frame (wpE (defs₀ (F := F)) 𝒱₀ (c : Thread nD τ) none) Set.univ (k0_part6 (F := F) xH (Memref.isWhole_whole _) A1 (Memref.isWhole_whole _) xV (Memref.isWhole_whole _) gbuf (Memref.isWhole_whole _) cc0_scratch2 cc0_scratch3 cc0_scratch4 c v2 (SemArray.scalar (sig.barrier 0 rfl)) w1 w2) Kt := by
  simp only [k0_part6_eq_skeleton]; unfold k0_part6_skel
  simp only [semSignalWord, semWaitWord, Prog.lift, Prog.bind_op, Prog.bind_ret, Prog.pure_eq_ret, wp_deviceId]
  simp only [devSig, remoteSend, row2_eq, send_sem, recv_sem, cpy_sem]
  iintro ⟨#HI, #HL, HO, HS, HX, HV, HT, HP, HR, HC, HB, HTS, HTR, Hk⟩
  icases HV with ⟨%fv, HV⟩
  icases HR with ⟨%f0, HR⟩
  iapply (sig_at m K c 29 (by decide) 30 (by decide)) $$ [HO HS]
  · isplitr; · iexact HI
    isplitl [HO] <;> iassumption
  iintro ⟨HO, HS⟩
  iapply (sig_at m K c 30 (by decide) 31 (by decide)) $$ [HO HS]
  · isplitr; · iexact HI
    isplitl [HO] <;> iassumption
  iintro ⟨HO, HS⟩
  ihave HS := (Entails.of_eq (p6_SigSt_31 (F := F) c)) $$ HS
  iclear HS
  ihave HX := (Entails.of_eq (p6_xPts m c)) $$ HX
  iapply (cpy_step m K c fv) $$ [HX HV HT]
  · isplitr; · iexact HI
    isplitl [HX]; · iexact HX
    isplitl [HV] <;> iassumption
  iintro HCr
  iapply (cpy_wait m K c 0 31) $$ [HO HCr HP]
  · isplitr; · iexact HI
    isplitr; · iexact HL
    isplitl [HO]; · iexact HO
    isplitl [HCr] <;> iassumption
  iintro ⟨HO, HP, HPay⟩
  ihave HPay := (Entails.of_eq (p6_cpyPay m c)) $$ HPay
  icases HPay with ⟨HV, HX⟩
  ihave HO := (Entails.of_eq (p6_owes31 (F := F) c)) $$ HO
  iapply (p6_load_x m c ![0, 0] (by funext a; fin_cases a <;> rfl) _) $$ [HV]
  · iexact HV
  iintro HV
  iapply (ra_wp_load_of 𝒱₀ none Set.univ c (Gen.k0_off1_eq c) _ fullShare f0) $$ [HR]
  · iexact HR
  iintro HR
  iapply (ra_wp_store_sums_of 𝒱₀ none Set.univ m c (Gen.k0_off1_eq c) _ f0) $$ [HR]
  · iexact HR
  iintro HR
  iapply (bar_wait m K c) $$ [HO HC HB]
  · isplitr; · iexact HI
    isplitr; · iexact HL
    isplitl [HO]; · iexact HO
    isplitl [HC] <;> iassumption
  iintro ⟨HO, HB, HRows⟩
  ihave HR := (row_shares c (rowsOf m c c)) $$ HR
  icases HR with ⟨HSh, H0, HRest⟩
  iapply (send_at m K c 0 (by decide) 1 (by decide)) $$ [HO HTS HTR HSh HRows]
  · isplitr; · iexact HI
    isplitl [HO]; · iexact HO
    isplitl [HTS HTR HSh HRows]
    · iapply (Entails.of_eq (p6_SendSt_0 m c).symm)
      isplitl [HTS]; · iexact HTS
      isplitl [HTR]; · iexact HTR
      isplitl [HSh] <;> iassumption
    · iapply (Entails.of_eq (p6_SentCr_0 (F := F) c).symm)
      iempintro
  iintro ⟨HO, HT, HC⟩
  rw [wp_ret]; imodintro
  iapply Hk $$ [HO HT HC HX HV HP HB H0 HRest]
  isplitl [HO]; · iexact HO
  isplitl [HT]; · iexact HT
  isplitl [HC]; · iexact HC
  isplitl [HX]; · iexact HX
  isplitl [HV]
  · iexists _; iexact HV
  isplitl [HP]; · iexact HP
  isplitl [HB]; · iexact HB
  isplitl [H0] <;> iassumption

end Cert.Kernel.DistSum

end
-- ==== Proof.Bits.PartsMixed.lean ====
import proofs.«901078_g7700000000001079_dist_sum_ax0_shard0_i_m1536_n768_v7x_i32_f32_1_alg».proof.Proof.Bits.Waits
import proofs.«901078_g7700000000001079_dist_sum_ax0_shard0_i_m1536_n768_v7x_i32_f32_1_alg».proof.Proof.Bits.RingFacts
import proofs.«901078_g7700000000001079_dist_sum_ax0_shard0_i_m1536_n768_v7x_i32_f32_1_alg».proof.Proof.Bits.Proto
import proofs.«901078_g7700000000001079_dist_sum_ax0_shard0_i_m1536_n768_v7x_i32_f32_1_alg».proof.Proof.Bits.Steps

/-! The two parts of the body in which one phase ends and the next begins. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem pm_owedT_last (c : Dev nD) : owedT c 31 = 0 := by
  unfold owedT
  rw [Finset.Ioc_self, Finset.sum_empty]

private theorem pm_owes_last (c : Dev nD) : (owesE c (owedT c 31) : sProp 𝕄) ⊢ owesE c 0 := by
  rw [pm_owedT_last]

theorem part16 (K : Dev nD × Fin 66 → ℕ) (c : Dev nD) (v2 w1 w2 : BitVec 32) (Kt : PUnit → sProp 𝕄) :
    iprop(records m K ∗ owesE c (owedT c 29) ∗ SendSt m c 29 ∗ SentCr c 29 ∗ RecvSt c 0 ∗ RecvDone m c 0
        ∗ (∀ r, (owesE c 0 ∗ SentCr c 31 ∗ RecvSt c 1 ∗ RecvDone m c 1) -∗ Kt r))
      ⊢ wp frame (wpE (defs₀ (F := F)) 𝒱₀ (c : Thread nD τ) none) Set.univ
          (k0_part16 (F := F) xH (Memref.isWhole_whole _) A1 (Memref.isWhole_whole _) xV (Memref.isWhole_whole _)
            gbuf (Memref.isWhole_whole _) cc0_scratch2 cc0_scratch3 cc0_scratch4 c v2) Kt := by
  simp only [k0_part16_eq_skeleton]; unfold k0_part16_skel
  simp only [semSignalWord, semWaitWord, Prog.lift, Prog.bind_op, Prog.bind_ret, Prog.pure_eq_ret, wp_deviceId]
  simp only [remoteSend, row2_eq, row3_eq, send_sem, recv_sem]
  iintro ⟨#HI, HO, HT, HC, HR, HD, Hk⟩
  iapply (send_at m K c 29 (by decide) 30 (by decide)) $$ [HO HT HC]
  · isplitr; · iexact HI
    isplitl [HO]; · iexact HO
    isplitl [HT] <;> iassumption
  iintro ⟨HO, HT, HC⟩
  iapply (send_at m K c 30 (by decide) 31 (by decide)) $$ [HO HT HC]
  · isplitr; · iexact HI
    isplitl [HO]; · iexact HO
    isplitl [HT] <;> iassumption
  iintro ⟨HO, -, HC⟩
  ihave HO := (pm_owes_last c) $$ HO
  iapply (recv_at m K c 0 (by decide) 1 (by decide)) $$ [HO HR HD]
  · isplitr; · iexact HI
    isplitl [HO]; · iexact HO
    isplitl [HR] <;> iassumption
  iintro ⟨HO, HR, HD⟩
  rw [wp_ret]; imodintro
  iapply Hk $$ [HO HC HR HD]
  isplitl [HO]; · iexact HO
  isplitl [HC]; · iexact HC
  isplitl [HR] <;> iassumption

theorem part26 (K : Dev nD × Fin 66 → ℕ) (c : Dev nD) (v2 w1 w2 : BitVec 32) (Kt : PUnit → sProp 𝕄) :
    iprop(records m K ∗ owesE c 0 ∗ RecvSt c 30 ∗ RecvDone m c 30 ∗ SWaitSt c 0 ∗ SWaitDone m c 0
        ∗ (∀ r, (owesE c 0 ∗ RecvDone m c 31 ∗ SWaitSt c 4 ∗ SWaitDone m c 4) -∗ Kt r))
      ⊢ wp frame (wpE (defs₀ (F := F)) 𝒱₀ (c : Thread nD τ) none) Set.univ
          (k0_part26 (F := F) xH (Memref.isWhole_whole _) A1 (Memref.isWhole_whole _) xV (Memref.isWhole_whole _)
            gbuf (Memref.isWhole_whole _) cc0_scratch2 cc0_scratch3 cc0_scratch4 c v2) Kt := by
  simp only [k0_part26_eq_skeleton]; unfold k0_part26_skel
  simp only [semSignalWord, semWaitWord, Prog.lift, Prog.bind_op, Prog.bind_ret, Prog.pure_eq_ret, wp_deviceId]
  simp only [row2_eq, row3_eq, send_sem, recv_sem]
  iintro ⟨#HI, HO, HR, HD, HW, HE, Hk⟩
  iapply (recv_at m K c 30 (by decide) 31 (by decide)) $$ [HO HR HD]
  · isplitr; · iexact HI
    isplitl [HO]; · iexact HO
    isplitl [HR] <;> iassumption
  iintro ⟨HO, -, HD⟩
  iapply (swait_at m K c 0 (by decide) 1 (by decide)) $$ [HO HW HE]
  · isplitr; · iexact HI
    isplitl [HO]; · iexact HO
    isplitl [HW] <;> iassumption
  iintro ⟨HO, HW, HE⟩
  iapply (swait_at m K c 1 (by decide) 2 (by decide)) $$ [HO HW HE]
  · isplitr; · iexact HI
    isplitl [HO]; · iexact HO
    isplitl [HW] <;> iassumption
  iintro ⟨HO, HW, HE⟩
  iapply (swait_at m K c 2 (by decide) 3 (by decide)) $$ [HO HW HE]
  · isplitr; · iexact HI
    isplitl [HO]; · iexact HO
    isplitl [HW] <;> iassumption
  iintro ⟨HO, HW, HE⟩
  iapply (swait_at m K c 3 (by decide) 4 (by decide)) $$ [HO HW HE]
  · isplitr; · iexact HI
    isplitl [HO]; · iexact HO
    isplitl [HW] <;> iassumption
  iintro ⟨HO, HW, HE⟩
  rw [wp_ret]; imodintro
  iapply Hk $$ [HO HD HW HE]
  isplitl [HO]; · iexact HO
  isplitl [HD]; · iexact HD
  isplitl [HW] <;> iassumption

end Cert.Kernel.DistSum

end
-- ==== Proof.Bits.Glue.lean ====
import proofs.«901078_g7700000000001079_dist_sum_ax0_shard0_i_m1536_n768_v7x_i32_f32_1_alg».proof.Proof.Bits.Proto
import proofs.«901078_g7700000000001079_dist_sum_ax0_shard0_i_m1536_n768_v7x_i32_f32_1_alg».proof.Proof.Bits.Rows

/-! Entering each phase and leaving the last. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem RecvDone_0 (c : Dev nD) : (RecvDone m c 0 : sProp 𝕄) = iprop(emp) := by unfold RecvDone; rw [Finset.Ioc_self]; rfl
theorem SWaitDone_0 (c : Dev nD) : (SWaitDone m c 0 : sProp 𝕄) = iprop(emp) := by unfold SWaitDone; rw [Finset.Ioc_self]; rfl
omit [FloatOps F] in
theorem sigSt0_intro (c : Dev nD) (f : Buf (Elt F) ((c : Thread nD τ).loc cc0_scratch1)) :
    iprop((bigSep (Finset.Ioc 0 31) fun d => dutyTok ER (barC (peer c (off d))) 0 (c : Fin 32))
        ∗ bigSep (Finset.Ioc 0 31) fun d => rowPts c (peer c (off d)) fullShare f)
      ⊢ (SigSt c 0 : sProp 𝕄) := by
  unfold SigSt
  rw [bigSep_sep']
  refine BI.sep_mono (Entails.refl _) (bigSep_mono fun d _ => ?_)
  show (rowPts c (peer c (off d)) fullShare f : sProp 𝕄) ⊢ iprop(∃ f, rowPts c (peer c (off d)) fullShare f)
  iintro H; iexists f; iexact H

theorem recvSt0_intro (c : Dev nD) :
    iprop((bigSep (Finset.Ioc 0 31) fun d => cred (tallyAt (recvC c (off d)) () N))
        ∗ (bigSep (Finset.Ioc 0 31) fun d => atPos ER (recvC c (off d)) 0 ∅ 0))
      ⊢ iprop(RecvSt c 0 ∗ RecvDone m c 0) := by
  rw [RecvDone_0]
  unfold RecvSt
  rw [bigSep_sep']
  iintro H
  isplitl [H]; · iexact H
  iempintro

theorem swaitSt0_intro (c : Dev nD) :
    iprop(SentCr c 31 ∗ SendPos c) ⊢ iprop(SWaitSt c 0 ∗ SWaitDone m c 0) := by
  rw [SWaitDone_0]
  unfold SWaitSt SentCr SendPos
  rw [bigSep_sep']
  iintro H
  isplitl [H]; · iexact H
  iempintro

theorem recvDone_split (c : Dev nD) :
    (RecvDone m c 31 : sProp 𝕄)
      ⊢ iprop((bigSep (Finset.Ioc 0 31) fun d => atPos ER (recvC c (off d)) 1 ∅ 0) ∗ bigSep (Finset.Ioc 0 31) fun d => recvPay m c (off d)) := by
  unfold RecvDone
  rw [bigSep_sep']

theorem swaitDone_split (c : Dev nD) :
    (SWaitDone m c 31 : sProp 𝕄)
      ⊢ iprop((bigSep (Finset.Ioc 0 31) fun d => atPos ER (sendC c (off d)) 1 ∅ 0) ∗ bigSep (Finset.Ioc 0 31) fun d => sendPay m c (off d)) := by
  unfold SWaitDone
  rw [bigSep_sep']

theorem own_row_rejoin (c : Dev nD) :
    iprop(rowPts c c (shareOf 0) (rowsOf m c c) ∗ rowPts c c (shareOf.restShare 31) (rowsOf m c c)
        ∗ bigSep (Finset.Ioc 0 31) fun d => sendPay m c (off d))
      ⊢ (rowPts c c fullShare (rowsOf m c c) : sProp 𝕄) := by
  unfold sendPay
  iintro ⟨H0, HR, HS⟩
  iapply (row_unshares (F := F) c (rowsOf m c c))
  isplitl [HS]; · iexact HS
  isplitl [H0]; · iexact H0
  iexact HR

theorem body_enter (c : Dev nD) :
    bodyPre m ρ c ⊢ iprop(∃ K, records m K ∗ levAts L lv ∗ owesE c (owedT c 0 + owedS c 0) ∗ ownPos c ∗ payToks c
      ∗ launchCreds c ∗ xPts m c ∗ scratch c ∗ (∃ d, stg c cc0_stg0_0 ((dats m ρ 0 c).before (0 : Fin 1) t₀ d))) := by
  unfold bodyPre Φ₀ start ghost Dat.owesAt Pipeline.owesWithin
  rw [show (dats m ρ 0 c).owed t₀.castSucc = owedT c 0 + owedS c 0 from rfl]
  iintro ⟨⟨⟨⟨%K, HR, HP, HT⟩, HC, Hlev, Hx⟩, Hs⟩, ⟨%W, -, HO⟩, Hst⟩
  iexists K
  isplitl [HR]; · iexact HR
  isplitl [Hlev]; · iexact Hlev
  isplitl [HO]; · unfold owesE; iexists W; iexact HO
  isplitl [HP]; · iexact HP
  isplitl [HT]; · iexact HT
  isplitl [HC]; · iexact HC
  isplitl [Hx]; · iexact Hx
  isplitl [Hs]; · iexact Hs
  iexact Hst

theorem body_exit (c : Dev nD) :
    iprop(xPts m c ∗ scratch c ∗ (bigSep Finset.univ fun k : Fin 65 => semVal ((c : Thread nD τ), osem k) 0) ∗ owesE c 0
        ∗ stg c cc0_stg0_0 (outVal m))
      ⊢ bodyPost m ρ c := by
  unfold bodyPost Φ₁ Dat.owesAt Pipeline.owesWithin owesE
  rw [show (dats m ρ 0 c).owed t₀.succ = 0 from rfl]
  iintro ⟨Hx, Hs, Hv, ⟨%W, HO⟩, Hst⟩
  isplitl [Hx Hs Hv]
  · isplitl [Hx]; · iexact Hx
    isplitl [Hs]; · iexact Hs
    iexact Hv
  isplitl [HO]
  · iexists W
    isplitr; · ipureintro; exact fun _ _ => Or.inl trivial
    iexact HO
  iexact Hst

end Cert.Kernel.DistSum

end
-- ==== Proof.Bits.Root.lean ====
import proofs.«901078_g7700000000001079_dist_sum_ax0_shard0_i_m1536_n768_v7x_i32_f32_1_alg».proof.Proof.Bits.Parts
import proofs.«901078_g7700000000001079_dist_sum_ax0_shard0_i_m1536_n768_v7x_i32_f32_1_alg».proof.Proof.Bits.Part6
import proofs.«901078_g7700000000001079_dist_sum_ax0_shard0_i_m1536_n768_v7x_i32_f32_1_alg».proof.Proof.Bits.PartsMixed
import proofs.«901078_g7700000000001079_dist_sum_ax0_shard0_i_m1536_n768_v7x_i32_f32_1_alg».proof.Proof.Bits.Rows
import proofs.«901078_g7700000000001079_dist_sum_ax0_shard0_i_m1536_n768_v7x_i32_f32_1_alg».proof.Proof.Bits.Glue

/-! The whole body: its parts run one after the other, each from the state the one before it left. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem hz2 : (![0, 0] : Fin 2 → Nat) = fun _ => 0 := funext fun a => by fin_cases a <;> rfl

omit [FloatOps F] in
theorem read_gbuf (c : Dev nD) (f : Buf (Elt F) ((c : Thread nD τ).loc cc0_scratch1)) :
    (gbuf : Memref sig .tc .vmem S32x768 .f32).view.readAt (Elt F) (Rect.unit (s := S32x768) ![0, 0] S32x768.size inb_S32x768_S32x768_0_0).toLoadRect f = f :=
  Memref.readAt_unit_zero (Elt F) cc0_scratch1 hz2 _ f

abbrev r1 : Rect S1x768 := Rect.unit (s := S1x768) ![0, 0] S1x768.size inb_S1x768_S1x768_0_0

omit [FloatOps F] in
theorem write_out (f w : (cc0_stg0_0 : Ref sig .tc).ty.Contents (Elt F)) :
    ((A1 : Memref sig .tc .vmem S1x768 .f32).access r1 : View sig .tc _ _ _).write (Elt F) f w Finset.univ = w :=
  Memref.write_access_unit_zero_univ (Elt F) cc0_stg0_0 hz2 _ f w

theorem part31 (K : Dev nD × Fin 66 → ℕ) (c : Dev nD) (Kt : FVec F S1x768 .f32 → sProp 𝕄) :
  iprop(records m K ∗ levAts L lv ∗ owesE c (owedT c 0 + owedS c 0) ∗ ownPos c ∗ payToks c ∗ launchCreds c ∗ xPts m c ∗ scratch c
      ∗ ((owesE c 0 ∗ xPts m c ∗ scratch c ∗ atPos ER (cpyC c) 1 ∅ 0
            ∗ (bigSep (Finset.Ioc 0 31) fun d => atPos ER (sendC c (off d)) 1 ∅ 0) ∗ (bigSep (Finset.Ioc 0 31) fun d => atPos ER (recvC c (off d)) 1 ∅ 0)
            ∗ atPos ER (sendC c 0) 0 ∅ 0 ∗ atPos ER (recvC c 0) 0 ∅ 0) -∗ Kt (outVal m)))
    ⊢ wp frame (wpE (defs₀ (F := F)) 𝒱₀ (c : Thread nD τ) none) Set.univ (k0_part31 (F := F) xH (Memref.isWhole_whole _) A1 (Memref.isWhole_whole _) xV (Memref.isWhole_whole _) gbuf (Memref.isWhole_whole _) cc0_scratch2 cc0_scratch3 cc0_scratch4) Kt := by
  simp only [k0_part31_eq_skeleton]; unfold k0_part31_skel
  unfold ownPos payToks launchCreds scratch
  iintro ⟨#HI, #Hlev, HO, ⟨HaB, HaC, HaS0, HaR0, HSP, HRP⟩, ⟨HtSig, HtRecv, HtSend, HtC⟩, ⟨HcB, HcR⟩, Hx, ⟨⟨%fx, HxV⟩, ⟨%fg, Hg⟩⟩, Hk⟩
  ihave Hsp := (gbuf_split c fg) $$ Hg
  icases Hsp with ⟨Hrow, Hrows⟩
  ihave HS := (sigSt0_intro c fg) $$ [HtSig Hrows]
  · isplitl [HtSig] <;> iassumption
  ihave HRD := (recvSt0_intro m c) $$ [HcR HRP]
  · isplitl [HcR] <;> iassumption
  icases HRD with ⟨HR, HD⟩

  rw [wp_bind]
  iapply (part1 m K c _)
  isplitr; · iexact HI
  isplitl [HO]; · iexact HO
  isplitl [HS]; · iexact HS
  iintro %v2 %w1 %w2 ⟨HO, HS⟩
  try dsimp only
  rw [wp_bind]
  iapply (part2 m K c v2 w1 w2 _)
  isplitr; · iexact HI
  isplitl [HO]; · iexact HO
  isplitl [HS]; · iexact HS
  iintro %r ⟨HO, HS⟩
  obtain ⟨w1, w2⟩ := r
  try dsimp only
  rw [wp_bind]
  iapply (part3 m K c v2 w1 w2 _)
  isplitr; · iexact HI
  isplitl [HO]; · iexact HO
  isplitl [HS]; · iexact HS
  iintro %r ⟨HO, HS⟩
  obtain ⟨w1, w2⟩ := r
  try dsimp only
  rw [wp_bind]
  iapply (part4 m K c v2 w1 w2 _)
  isplitr; · iexact HI
  isplitl [HO]; · iexact HO
  isplitl [HS]; · iexact HS
  iintro %r ⟨HO, HS⟩
  obtain ⟨w1, w2⟩ := r
  try dsimp only
  rw [wp_bind]
  iapply (part5 m K c v2 w1 w2 _)
  isplitr; · iexact HI
  isplitl [HO]; · iexact HO
  isplitl [HS]; · iexact HS
  iintro %r ⟨HO, HS⟩
  obtain ⟨w1, w2⟩ := r
  try dsimp only

  rw [wp_bind]
  iapply (part6 m K c v2 w1 w2 _)
  isplitr; · iexact HI
  isplitr; · iexact Hlev
  isplitl [HO]; · iexact HO
  isplitl [HS]; · iexact HS
  isplitl [Hx]; · iexact Hx
  isplitl [HxV]; · iexists fx; iexact HxV
  isplitl [HtC]; · iexact HtC
  isplitl [HaC]; · iexact HaC
  isplitl [Hrow]; · iexists fg; iexact Hrow
  isplitl [HcB]; · iexact HcB
  isplitl [HaB]; · iexact HaB
  isplitl [HtSend]; · iexact HtSend
  isplitl [HtRecv]; · iexact HtRecv
  iintro %r ⟨HO, HT, HC, Hx, HxV, HaC, HaB, Hsh0, Hrest⟩
  obtain ⟨w1, w2⟩ := r
  try dsimp only
  rw [wp_bind]
  iapply (part7 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part8 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part9 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part10 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part11 m K c v2 w1 w2 _)
  isplitr; · iexact HI
  isplitl [HO]; · iexact HO
  isplitl [HT]; · iexact HT
  isplitl [HC]; · iexact HC
  iintro %r ⟨HO, HT, HC⟩
  obtain ⟨w1, w2⟩ := r
  try dsimp only
  rw [wp_bind]
  iapply (part12 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part13 m K c v2 w1 w2 _)
  isplitr; · iexact HI
  isplitl [HO]; · iexact HO
  isplitl [HT]; · iexact HT
  isplitl [HC]; · iexact HC
  iintro %r ⟨HO, HT, HC⟩
  obtain ⟨w1, w2⟩ := r
  try dsimp only
  rw [wp_bind]
  iapply (part14 m K c v2 w1 w2 _)
  isplitr; · iexact HI
  isplitl [HO]; · iexact HO
  isplitl [HT]; · iexact HT
  isplitl [HC]; · iexact HC
  iintro %r ⟨HO, HT, HC⟩
  try dsimp only
  rw [wp_bind]
  iapply (part15 m K c v2 w1 w2 _)
  isplitr; · iexact HI
  isplitl [HO]; · iexact HO
  isplitl [HT]; · iexact HT
  isplitl [HC]; · iexact HC
  iintro %r ⟨HO, HT, HC⟩
  try dsimp only

  rw [wp_bind]
  iapply (part16 m K c v2 w1 w2 _)
  isplitr; · iexact HI
  isplitl [HO]; · iexact HO
  isplitl [HT]; · iexact HT
  isplitl [HC]; · iexact HC
  isplitl [HR]; · iexact HR
  isplitl [HD]; · iexact HD
  iintro %r ⟨HO, HC, HR, HD⟩
  try dsimp only
  rw [wp_bind]
  iapply (part17 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part18 m K c v2 w1 w2 _)
  isplitr; · iexact HI
  isplitl [HO]; · iexact HO
  isplitl [HR]; · iexact HR
  isplitl [HD]; · iexact HD
  iintro %r ⟨HO, HR, HD⟩
  obtain ⟨w1, w2⟩ := r
  try dsimp only
  rw [wp_bind]
  iapply (part19 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part20 m K c v2 w1 w2 _)
  isplitr; · iexact HI
  isplitl [HO]; · iexact HO
  isplitl [HR]; · iexact HR
  isplitl [HD]; · iexact HD
  iintro %r ⟨HO, HR, HD⟩
  obtain ⟨w1, w2⟩ := r
  try dsimp only
  rw [wp_bind]
  iapply (part21 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part22 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part23 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part24 m K c v2 w1 w2 _)
  isplitr; · iexact HI
  isplitl [HO]; · iexact HO
  isplitl [HR]; · iexact HR
  isplitl [HD]; · iexact HD
  iintro %r ⟨HO, HR, HD⟩
  try dsimp only
  rw [wp_bind]
  iapply (part25 m K c v2 w1 w2 _)
  isplitr; · iexact HI
  isplitl [HO]; · iexact HO
  isplitl [HR]; · iexact HR
  isplitl [HD]; · iexact HD
  iintro %r ⟨HO, HR, HD⟩
  try dsimp only

  ihave HWE := (swaitSt0_intro m c) $$ [HC HSP]
  · isplitl [HC] <;> iassumption
  icases HWE with ⟨HW, HE⟩
  rw [wp_bind]
  iapply (part26 m K c v2 w1 w2 _)
  isplitr; · iexact HI
  isplitl [HO]; · iexact HO
  isplitl [HR]; · iexact HR
  isplitl [HD]; · iexact HD
  isplitl [HW]; · iexact HW
  isplitl [HE]; · iexact HE
  iintro %r ⟨HO, HD, HW, HE⟩
  try dsimp only
  rw [wp_bind]
  iapply (part27 m K c v2 w1 w2 _)
  isplitr; · iexact HI
  isplitl [HO]; · iexact HO
  isplitl [HW]; · iexact HW
  isplitl [HE]; · iexact HE
  iintro %r ⟨HO, HW, HE⟩
  try dsimp only
  rw [wp_bind]
  iapply (part28 m K c v2 w1 w2 _)
  isplitr; · iexact HI
  isplitl [HO]; · iexact HO
  isplitl [HW]; · iexact HW
  isplitl [HE]; · iexact HE
  iintro %r ⟨HO, HW, HE⟩
  try dsimp only
  rw [wp_bind]
  iapply (part29 m K c v2 w1 w2 _)
  isplitr; · iexact HI
  isplitl [HO]; · iexact HO
  isplitl [HW]; · iexact HW
  isplitl [HE]; · iexact HE
  iintro %r ⟨HO, HW, HE⟩
  try dsimp only
  rw [wp_bind]
  iapply (part30 m K c v2 w1 w2 _)
  isplitr; · iexact HI
  isplitl [HO]; · iexact HO
  isplitl [HW]; · iexact HW
  isplitl [HE]; · iexact HE
  iintro %r ⟨HO, HW, HE⟩
  try dsimp only

  simp only [semSignalWord, semWaitWord, Prog.lift, Prog.bind_op, Prog.bind_ret, Prog.pure_eq_ret]
  simp only [row2_eq, send_sem]
  iapply (swait_at m K c 28 (by decide) 29 (by decide)) $$ [HO HW HE]
  · isplitr; · iexact HI
    isplitl [HO]; · iexact HO
    isplitl [HW] <;> iassumption
  iintro ⟨HO, HW, HE⟩
  iapply (swait_at m K c 29 (by decide) 30 (by decide)) $$ [HO HW HE]
  · isplitr; · iexact HI
    isplitl [HO]; · iexact HO
    isplitl [HW] <;> iassumption
  iintro ⟨HO, HW, HE⟩
  iapply (swait_at m K c 30 (by decide) 31 (by decide)) $$ [HO HW HE]
  · isplitr; · iexact HI
    isplitl [HO]; · iexact HO
    isplitl [HW] <;> iassumption
  iintro ⟨HO, HW, HE⟩

  ihave HpS := (swaitDone_split m c) $$ HE
  icases HpS with ⟨HposS, HpayS⟩
  ihave HpR := (recvDone_split m c) $$ HD
  icases HpR with ⟨HposR, HpayR⟩
  ihave Hrow := (own_row_rejoin m c) $$ [Hsh0 Hrest HpayS]
  · isplitl [Hsh0]; · iexact Hsh0
    isplitl [Hrest] <;> iassumption
  ihave Hg := (gather_join m c) $$ [Hrow HpayR]
  · isplitl [Hrow] <;> iassumption
  iapply (wp_load 𝒱₀ (c : Thread nD τ) none Set.univ (m := gbuf) (Finset.subset_univ _)) $$ Hg; iintro Hg
  rw [read_gbuf c, wp_ret]; imodintro
  rw [show k0_pay2 (gathered m) = outVal m from rfl]
  iapply Hk
  isplitl [HO]; · iexact HO
  isplitl [Hx]; · iexact Hx
  isplitl [HxV Hg]
  · isplitl [HxV]; · iexact HxV
    iexists _; iexact Hg
  isplitl [HaC]; · iexact HaC
  isplitl [HposS]; · iexact HposS
  isplitl [HposR]; · iexact HposR
  isplitl [HaS0] <;> iassumption

theorem sound_body (c : Dev nD) :
    bodyPre m ρ c ⊢ wp frame (wpE (defs₀ (F := F)) 𝒱₀ (c : Thread nD τ) none) Set.univ (cc0_body (F := F) xH (Memref.isWhole_whole _) A1 (Memref.isWhole_whole _) xV (Memref.isWhole_whole _) gbuf (Memref.isWhole_whole _) cc0_scratch2 cc0_scratch3 cc0_scratch4) (fun _ => bodyPost m ρ c) := by
  iintro Hpre
  ihave H := (body_enter m ρ c) $$ Hpre
  icases H with ⟨%K, #HI, #Hlev, HO, Hpos, Htok, Hcr, Hx, Hscr, ⟨%d0, %g0, %hg0, Hout⟩⟩
  simp only [cc0_body_eq_skeleton]; unfold cc0_body_skel
  simp only [Prog.lift, Prog.bind_op, Prog.bind_ret, Prog.pure_eq_ret]
  rw [wp_bind]
  iapply (part31 m K c _)
  isplitr; · iexact HI
  isplitr; · iexact Hlev
  isplitl [HO]; · iexact HO
  isplitl [Hpos]; · iexact Hpos
  isplitl [Htok]; · iexact Htok
  isplitl [Hcr]; · iexact Hcr
  isplitl [Hx]; · iexact Hx
  isplitl [Hscr]; · iexact Hscr
  iintro ⟨HO, Hx, Hscr, HaC, HposS, HposR, HaS0, HaR0⟩
  imod (close_cells m K c) $$ [HaC HposS HposR HaS0 HaR0] with Hsem
  · isplitr; · iexact HI
    isplitl [HaC]; · iexact HaC
    isplitl [HposS]; · iexact HposS
    isplitl [HposR]; · iexact HposR
    isplitl [HaS0] <;> iassumption
  iapply (wp_load 𝒱₀ (c : Thread nD τ) none Set.univ (m := A1) (Finset.subset_univ _)) $$ Hout; iintro Hout
  iapply (wp_store 𝒱₀ (c : Thread nD τ) none Set.univ (m := A1) (r := r1) (Mk := Finset.univ) (Finset.subset_univ _)) $$ Hout; iintro Hout
  rw [write_out, wp_ret]; imodintro
  iapply (body_exit m ρ c)
  isplitl [Hx]; · iexact Hx
  isplitl [Hscr]; · iexact Hscr
  isplitl [Hsem]; · iexact Hsem
  isplitl [HO]; · iexact HO
  iexists _; isplitr; · (ipureintro; rfl)
  iexact Hout

set_option maxRecDepth 65536 in

theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.Kernel.DistSum

end
-- ==== Proof.Bits.Launch.lean ====
import proofs.«901078_g7700000000001079_dist_sum_ax0_shard0_i_m1536_n768_v7x_i32_f32_1_alg».proof.Proof.Bits.Proto
import proofs.«901078_g7700000000001079_dist_sum_ax0_shard0_i_m1536_n768_v7x_i32_f32_1_alg».proof.Proof.Bits.Credit
import proofs.«901078_g7700000000001079_dist_sum_ax0_shard0_i_m1536_n768_v7x_i32_f32_1_alg».proof.Proof.Gen.Kernel.Points
import Idealize.ShloMosaic.Lib.Pipeline.Launch
import Idealize.ShloMosaic.Lib.Pipeline.Kit
import Idealize.ShloMosaic.Lib.Tactic

/-! The launch of the 32 devices: the ghost state dealt to them, each device's body run, and the result read back. -/

noncomputable section

namespace Cert.Kernel.DistSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ln_barEquiv : Dev nD × Fin 32 ≃ Dev nD × Fin 32 where
  toFun x := (peer x.1 x.2, x.1)
  invFun y := (y.2, offOf y.2 y.1)
  left_inv x := by obtain ⟨c, d⟩ := x; exact Prod.ext rfl (offOf_peer c d)
  right_inv y := by obtain ⟨p, c⟩ := y; exact Prod.ext (peer_offOf c p) rfl

def ln_recvEquiv : Dev nD × Fin 32 ≃ Dev nD × Fin 32 where
  toFun x := (peer x.1 x.2, x.2)
  invFun y := (srcOf y.1 y.2, y.2)
  left_inv x := by obtain ⟨c, d⟩ := x; exact Prod.ext (srcOf_peer c d) rfl
  right_inv y := by obtain ⟨p, d⟩ := y; exact Prod.ext (peer_srcOf p d) rfl

omit [FloatOps F] in
theorem ln_csem_injective : Function.Injective csem := by
  intro a b h
  unfold csem at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h
    exact Fin.ext (congrArg Fin.val (SemLoc.dma.inj h))

theorem ln_kcell_injective : Function.Injective (kcell : Dev nD × Fin 66 → GSem nD τ sig) := by
  rintro ⟨c, k⟩ ⟨c', k'⟩ h
  have h1 : c = c' := congrArg (fun g : GSem nD τ sig => g.1.1) h
  subst h1
  have h2 : csem k = csem k' := congrArg Prod.snd h
  rw [ln_csem_injective h2]

def ringCells : Finset (GSem nD τ sig) := Finset.univ.map ⟨kcell, ln_kcell_injective⟩

abbrev TokIx : Type := Fin 32 ⊕ Fin 32 ⊕ Fin 32 ⊕ Unit

def tokOf (cj : Dev nD × TokIx) : GSem nD τ sig × ℕ × Fin 32 := match cj.2 with
  | .inl p => (barC cj.1, 0, p)
  | .inr (.inl d) => (recvC cj.1 d, 0, 0)
  | .inr (.inr (.inl d)) => (sendC cj.1 d, 0, 0)
  | .inr (.inr (.inr _)) => (cpyC cj.1, 0, 0)

def ln_code (x : GSem nD τ sig × ℕ × Fin 32) : ℕ × ℕ :=
  (match x.1.2 with | .reg _ => 0 | .dma q => q.val + 1, x.2.2.val)

theorem tokOf_injective : Function.Injective (tokOf : Dev nD × TokIx → GSem nD τ sig × ℕ × Fin 32) := by
  rintro ⟨c, j⟩ ⟨c', j'⟩ h
  have h1 : c = c' := by
    have := congrArg (fun x : GSem nD τ sig × ℕ × Fin 32 => x.1.1.1) h
    rcases j with p | d | d | u <;> rcases j' with p' | d' | d' | u' <;> exact this
  subst h1
  have h2 := congrArg ln_code h
  have : j = j' := by
    rcases j with p | d | d | u <;> rcases j' with p' | d' | d' | u' <;>
      simp only [ln_code, tokOf, sendSem, recvSem, cpySem, Prod.mk.injEq] at h2 <;>
      first
        | rfl
        | (exfalso; omega)
        | (obtain ⟨h3, h4⟩ := h2; first | (exfalso; omega) | (congr; apply Fin.ext; omega))
  subst this; rfl

def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

abbrev CellIx : Type := Unit ⊕ Unit ⊕ Fin 32 ⊕ Fin 32

def ln_ixFun : CellIx → Fin 66
  | .inl _ => ⟨0, by decide⟩
  | .inr (.inl _) => ⟨1, by decide⟩
  | .inr (.inr (.inl d)) => ⟨2 + d.val, by have := d.isLt; omega⟩
  | .inr (.inr (.inr d)) => ⟨34 + d.val, by have := d.isLt; omega⟩

def ln_ixInv (k : Fin 66) : CellIx :=
  if h0 : k.val = 0 then .inl () else if h1 : k.val = 1 then .inr (.inl ())
  else if h2 : k.val < 34 then .inr (.inr (.inl ⟨k.val - 2, by omega⟩))
  else .inr (.inr (.inr ⟨k.val - 34, by have := k.isLt; omega⟩))

def ln_ix : CellIx ≃ Fin 66 where
  toFun := ln_ixFun
  invFun := ln_ixInv
  left_inv x := by
    rcases x with u | u | d | d
    · rfl
    · rfl
    · have hd := d.isLt
      unfold ln_ixFun ln_ixInv
      rw [dif_neg (by show ¬ (2 + d.val = 0); omega), dif_neg (by show ¬ (2 + d.val = 1); omega), dif_pos (by show 2 + d.val < 34; omega)]
      exact congrArg (fun x => Sum.inr (Sum.inr (Sum.inl x))) (Fin.ext (by show 2 + d.val - 2 = d.val; omega))
    · have hd := d.isLt
      unfold ln_ixFun ln_ixInv
      rw [dif_neg (by show ¬ (34 + d.val = 0); omega), dif_neg (by show ¬ (34 + d.val = 1); omega), dif_neg (by show ¬ (34 + d.val < 34); omega)]
      exact congrArg (fun x => Sum.inr (Sum.inr (Sum.inr x))) (Fin.ext (by show 34 + d.val - 34 = d.val; omega))
  right_inv k := by
    have hk := k.isLt
    unfold ln_ixInv
    by_cases h0 : k.val = 0
    · rw [dif_pos h0]; exact Fin.ext h0.symm
    · rw [dif_neg h0]
      by_cases h1 : k.val = 1
      · rw [dif_pos h1]; exact Fin.ext h1.symm
      · rw [dif_neg h1]
        by_cases h2 : k.val < 34
        · rw [dif_pos h2]; exact Fin.ext (by show 2 + (k.val - 2) = k.val; omega)
        · rw [dif_neg h2]; exact Fin.ext (by show 34 + (k.val - 34) = k.val; omega)

omit [FloatOps F] in
theorem ln_kcell_bar (c : Dev nD) : kcell (c, ln_ix (.inl ())) = barC c := rfl
omit [FloatOps F] in
theorem ln_kcell_cpy (c : Dev nD) : kcell (c, ln_ix (.inr (.inl ()))) = cpyC c := rfl
omit [FloatOps F] in
theorem ln_kcell_send (c : Dev nD) (d : Fin 32) : kcell (c, ln_ix (.inr (.inr (.inl d)))) = sendC c d := by
  show ((c : Thread nD τ), csem ⟨2 + d.val, _⟩) = ((c : Thread nD τ), SemLoc.dma (sendSem d))
  unfold csem; rw [if_neg (by show ¬ (2 + d.val = 0); omega)]; rfl
omit [FloatOps F] in
theorem ln_kcell_recv (c : Dev nD) (d : Fin 32) : kcell (c, ln_ix (.inr (.inr (.inr d)))) = recvC c d := by
  show ((c : Thread nD τ), csem ⟨34 + d.val, _⟩) = ((c : Thread nD τ), SemLoc.dma (recvSem d))
  unfold csem; rw [if_neg (by show ¬ (34 + d.val = 0); omega)]; rfl

omit [FloatOps F] in
theorem ln_bigSep_cells (c : Dev nD) (Φ : GSem nD τ sig → sProp 𝕄) :
    (bigSep Finset.univ fun k : Fin 66 => Φ (kcell (c, k)))
      = iprop(Φ (barC c) ∗ Φ (cpyC c) ∗ (bigSep Finset.univ fun d : Fin 32 => Φ (sendC c d)) ∗ bigSep Finset.univ fun d : Fin 32 => Φ (recvC c d)) := by
  rw [bigSep_univ_equiv ln_ix (fun k : Fin 66 => Φ (kcell (c, k))), bigSep_univ_sum, bigSep_univ_sum, bigSep_univ_sum,
    bigSep_univ_of_subsingleton (), bigSep_univ_of_subsingleton ()]
  simp only [ln_kcell_bar, ln_kcell_cpy, ln_kcell_send, ln_kcell_recv]
  rfl

omit [FloatOps F] in
theorem ln_Ioc_eq : Finset.Ioc 0 31 = (Finset.univ : Finset (Fin 31)).map ⟨fun i => i.val + 1, fun a b h => Fin.ext (Nat.succ.inj h)⟩ := by
  decide

omit [FloatOps F] in
theorem ln_bigSep_fin32 (Φ : Fin 32 → sProp 𝕄) :
    bigSep Finset.univ Φ = iprop(Φ 0 ∗ bigSep (Finset.Ioc 0 31) fun d => Φ (off d)) := by
  rw [ln_Ioc_eq, bigSep_map, Fin.univ_succ, Finset.cons_eq_insert, bigSep_insert (by simp), bigSep_map]
  refine congrArg (BI.sep (Φ 0)) (bigSep_congr fun i _ => congrArg Φ (Fin.ext ?_))
  have hi := i.isLt
  show i.val + 1 = (i.val + 1) % 32
  omega

def toks (c : Dev nD) : sProp 𝕄 :=
  iprop((bigSep Finset.univ fun p : Fin 32 => dutyTok ER (barC c) 0 p)
    ∗ (bigSep Finset.univ fun d : Fin 32 => dutyTok ER (recvC c d) 0 0)
    ∗ (bigSep Finset.univ fun d : Fin 32 => dutyTok ER (sendC c d) 0 0)
    ∗ dutyTok ER (cpyC c) 0 0)

def G (c : Dev nD) : sProp 𝕄 :=
  iprop((bigSep Finset.univ fun k : Fin 66 => roundState ER (Rd m) (kcell (c, k)) 0)
    ∗ (bigSep Finset.univ fun k : Fin 66 => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_univ_sum, bigSep_univ_of_subsingleton ()]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSemFacts : Pipeline.OwnSemFacts cfg0.spec osem := by decide

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem ln_fin66_succ (Φ : Fin 66 → sProp 𝕄) :
    bigSep Finset.univ Φ = iprop(Φ 0 ∗ bigSep Finset.univ fun k : Fin 65 => Φ k.succ) := by
  rw [Fin.univ_succ, Finset.cons_eq_insert, bigSep_insert (by simp), bigSep_map]
  rfl

omit [FloatOps F] in
theorem ln_kcell_zero (c : Dev nD) : kcell (c, (0 : Fin 66)) = barC c := rfl
omit [FloatOps F] in
theorem ln_osem_cell (c : Dev nD) (k : Fin 65) : ((c : Thread nD τ), osem k) = kcell (c, k.succ) := by
  show ((c : Thread nD τ), osem k) = ((c : Thread nD τ), csem k.succ)
  unfold csem; rw [if_neg (by show ¬ (k.val + 1 = 0); omega)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  have e : (bigSep Finset.univ fun k : Fin 65 => (semVal (kcell (c, k.succ)) 0 : sProp 𝕄))
      = bigSep Finset.univ fun k : Fin 65 => semVal ((c : Thread nD τ), osem k) 0 :=
    bigSep_congr fun k _ => by rw [ln_osem_cell]
  rw [unscopedSems0_eq, ln_fin66_succ, e, ln_kcell_zero]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k : Fin 66 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem ln_drop0 (Φ : Fin 32 → sProp 𝕄) : bigSep Finset.univ Φ ⊢ bigSep (Finset.Ioc 0 31) fun d => Φ (off d) := by
  rw [ln_bigSep_fin32]; iintro ⟨-, H⟩; iexact H

omit [FloatOps F] in
theorem toks_around : (bigSep Finset.univ fun c : Dev nD => (toks c : sProp 𝕄)) ⊢ bigSep Finset.univ fun c : Dev nD => payToks c := by
  have hB : (bigSep Finset.univ fun c : Dev nD => bigSep Finset.univ fun p : Fin 32 => (dutyTok ER (barC c) 0 p : sProp 𝕄))
      = bigSep Finset.univ fun c : Dev nD => bigSep Finset.univ fun d : Fin 32 => (dutyTok ER (barC (peer c d)) 0 (c : Fin 32) : sProp 𝕄) := by
    rw [← bigSep_univ_prod (fun x : Dev nD × Fin 32 => (dutyTok ER (barC x.1) 0 x.2 : sProp 𝕄)),
      bigSep_univ_equiv ln_barEquiv (fun x : Dev nD × Fin 32 => (dutyTok ER (barC x.1) 0 x.2 : sProp 𝕄)), bigSep_univ_prod]
    rfl
  have hR : (bigSep Finset.univ fun c : Dev nD => bigSep Finset.univ fun d : Fin 32 => (dutyTok ER (recvC c d) 0 0 : sProp 𝕄))
      = bigSep Finset.univ fun c : Dev nD => bigSep Finset.univ fun d : Fin 32 => (dutyTok ER (recvC (peer c d) d) 0 0 : sProp 𝕄) := by
    rw [← bigSep_univ_prod (fun x : Dev nD × Fin 32 => (dutyTok ER (recvC x.1 x.2) 0 0 : sProp 𝕄)),
      bigSep_univ_equiv ln_recvEquiv (fun x : Dev nD × Fin 32 => (dutyTok ER (recvC x.1 x.2) 0 0 : sProp 𝕄)), bigSep_univ_prod]
    rfl
  unfold toks payToks
  rw [bigSep_sep', bigSep_sep', bigSep_sep', bigSep_sep', bigSep_sep', bigSep_sep', hB, hR]
  exact BI.sep_mono (bigSep_mono fun c _ => ln_drop0 (fun d : Fin 32 => (dutyTok ER (barC (peer c d)) 0 (c : Fin 32) : sProp 𝕄)))
    (BI.sep_mono (bigSep_mono fun c _ => ln_drop0 (fun d : Fin 32 => (dutyTok ER (recvC (peer c d) d) 0 0 : sProp 𝕄)))
      (BI.sep_mono (bigSep_mono fun c _ => ln_drop0 (fun d : Fin 32 => (dutyTok ER (sendC c d) 0 0 : sProp 𝕄))) (Entails.refl _)))

omit [FloatOps F] in
theorem ownPos_intro (c : Dev nD) : (bigSep Finset.univ fun k : Fin 66 => (atPos ER (kcell (c, k)) 0 ∅ 0 : sProp 𝕄)) ⊢ ownPos c := by
  rw [ln_bigSep_cells c (fun g => (atPos ER g 0 ∅ 0 : sProp 𝕄)), ln_bigSep_fin32, ln_bigSep_fin32]
  unfold ownPos SendPos
  iintro ⟨HB, HC, ⟨HS0, HS⟩, HR0, HR⟩
  isplitl [HB]; · iexact HB
  isplitl [HC]; · iexact HC
  isplitl [HS0]; · iexact HS0
  isplitl [HR0]; · iexact HR0
  isplitl [HS]; · iexact HS
  iexact HR

omit [FloatOps F] in
theorem ownPos_all : (bigSep Finset.univ fun c : Dev nD => bigSep Finset.univ fun k : Fin 66 => (atPos ER (kcell (c, k)) 0 ∅ 0 : sProp 𝕄))
    ⊢ bigSep Finset.univ fun c : Dev nD => ownPos c :=
  bigSep_mono fun c _ => ownPos_intro c

theorem ghost_intro (K : Dev nD × Fin 66 → ℕ) (c : Dev nD) : iprop(records m K ∗ (ownPos c ∗ payToks c)) ⊢ G' m c := by
  unfold G' ghost
  iintro ⟨#HR, HP, HT⟩
  iexists K
  isplitr; · iexact HR
  isplitl [HP] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 66 => iprop(∃ κ : ℕ, cellInv ER (Rd m) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (Rd m) κ (kcell ck) : sProp 𝕄))) $$ HI
  icases HK with ⟨%K, #HI⟩
  ihave Htk := (toks_around (F := F)) $$ Htok
  ihave Hps := (ownPos_all (F := F)) $$ Hat
  iapply (bigSep_with_persistent (R := records m K) fun c _ => ghost_intro m K c)
  isplitr
  · unfold records; isplitl; · iexact HI
    iexact HR
  · rw [bigSep_sep']
    isplitl [Hps] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem share_eq (c : Dev nD) (w : Fin cfg0.W) : (dats m ρ 0 c).share w = fullShare := by unfold Dat.share; split <;> rfl

theorem start_intro (hcreds : ∀ c : Dev nD, (Pipeline.launchCred O₀ c : sProp 𝕄) ⊢ launchCreds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (hcreds c) $$ Hcr
  imodintro
  unfold start G' xPts
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Hx, Hs, Ho⟩
  isplitl [Hx]; · iexact Hx
  isplitl [Ho]; · iexact Ho
  iexact Hs

theorem waits (hlow : ∀ (c : Dev nD) (q : DmaSem sig), ¬ isRecvIx q → ∀ n k : ℕ,
      (levAts L lv : sProp 𝕄) ⊢ MayWait (c : Thread nD τ) (.dma q) () (owedT c n + owedS c k)) (c : Dev nD) :
    (levAts L lv : sProp 𝕄) ⊢ Pipeline.cellsWaits cfgs (dats m ρ) () 0 c :=
  Pipeline.cellsWaits_intro cfgs (dats m ρ) () 0 c fun w s t => by
    rcases t with ⟨_ | _, ht⟩
    · exact hlow c _ (by fin_cases w; fin_cases s; decide) 0 0
    · show (levAts L lv : sProp 𝕄) ⊢ MayWait (c : Thread nD τ) _ () 0
      rw [MayWait_zero]; iintro -; iempintro

set_option maxRecDepth 8000 in

theorem run_main (hcreds : ∀ c : Dev nD, (Pipeline.launchCred O₀ c : sProp 𝕄) ⊢ launchCreds c)
    (hlow : ∀ (c : Dev nD) (q : DmaSem sig), ¬ isRecvIx q → ∀ n k : ℕ,
      (levAts L lv : sProp 𝕄) ⊢ MayWait (c : Thread nD τ) (.dma q) () (owedT c n + owedS c k))
    (hLne : ∀ g : GSem nD τ sig, g.1.2 ≠ .tc → L g = ∅)
    (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (dats m ρ 0 c).arrAt (0 : Fin 1) cfg0.N
        ∧ r.2.mem ((c : Thread nD τ).loc main_arg0) = m ((c : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := hLne) (hwaits := waits m ρ hlow)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := xPts m) (Z := fun _ => iprop(emp))
    (hX := start_intro m ρ hcreds) (hin := phi0_intro m ρ) (hout := phi1_exit m ρ)
    (QY := fun c s => s.mem ((c : Thread nD τ).loc main_arg0) = m ((c : Thread nD τ).loc main_arg0))
    (hY := fun c s' => by
      iintro ⟨Hx, -, HSI⟩
      unfold xPts
      icombine HSI Hx gives %hx
      imodintro
      isplitr; · ipureintro; exact Buf.eq_of_forall_mem_univ hx
      iexact HSI)
    (hQ := fun _ h c => ⟨(h c).1 0, (h c).2.2⟩)

theorem final_out (c : Dev nD) :
    (dats m ρ 0 c).arrAt (0 : Fin 1) cfg0.N = (outVal m : Buf (Elt F) ((c : Thread nD τ).loc main_v1)) := by
  have h := (dats m ρ 0 c).arrAt_succ (0 : Fin 1) t₀
  rw [show cfg0.N = t₀.val + 1 from rfl, h, if_pos (flush0_0 t₀)]
  show ((cfg0.win 0).blk t₀).view.write (Elt F) ((dats m ρ 0 c).arrAt 0 0) (outVal m) Finset.univ = _
  exact Memref.write_access_unit_zero_univ (Elt F) main_v1 (funext fun a => Nat.zero_mul _) _ _ _

theorem run_out (hcreds : ∀ c : Dev nD, (Pipeline.launchCred O₀ c : sProp 𝕄) ⊢ launchCreds c)
    (hlow : ∀ (c : Dev nD) (q : DmaSem sig), ¬ isRecvIx q → ∀ n k : ℕ,
      (levAts L lv : sProp 𝕄) ⊢ MayWait (c : Thread nD τ) (.dma q) () (owedT c n + owedS c k))
    (hLne : ∀ g : GSem nD τ sig, g.1.2 ≠ .tc → L g = ∅)
    (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (outVal m : Buf (Elt F) ((c : Thread nD τ).loc main_v1))
        ∧ r.2.mem ((c : Thread nD τ).loc main_arg0) = m ((c : Thread nD τ).loc main_arg0)) :=
  (θ_run defs _ _).mono (fun _ h c => ⟨((h c).1).trans (final_out m ρ c), (h c).2⟩) (run_main m ρ hcreds hlow hLne hbody)

theorem run_out_closed (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (outVal m : Buf (Elt F) ((c : Thread nD τ).loc main_v1))
        ∧ r.2.mem ((c : Thread nD τ).loc main_arg0) = m ((c : Thread nD τ).loc main_arg0)) :=
  run_out m ρ (fun c => ln_creds c) (fun c q hq n k => ln_mayWait_low c q hq n k) ln_L_of_ne hbody

end Cert.Kernel.DistSum

end
-- ==== Proof.lean ====
import proofs.«901078_g7700000000001079_dist_sum_ax0_shard0_i_m1536_n768_v7x_i32_f32_1_alg».proof.Defs
import proofs.«901078_g7700000000001079_dist_sum_ax0_shard0_i_m1536_n768_v7x_i32_f32_1_alg».proof.Proof.Gen.Kernel
import proofs.«901078_g7700000000001079_dist_sum_ax0_shard0_i_m1536_n768_v7x_i32_f32_1_alg».proof.Proof.Gen.KernelIdeal
import proofs.«901078_g7700000000001079_dist_sum_ax0_shard0_i_m1536_n768_v7x_i32_f32_1_alg».proof.Proof.Gen.ReferenceIdeal
import proofs.«901078_g7700000000001079_dist_sum_ax0_shard0_i_m1536_n768_v7x_i32_f32_1_alg».proof.Proof.Gen.Pre_finite_inputs_Kernel
import proofs.«901078_g7700000000001079_dist_sum_ax0_shard0_i_m1536_n768_v7x_i32_f32_1_alg».proof.Proof.Gen.Pre_finite_inputs_ReferenceIdeal
import proofs.«901078_g7700000000001079_dist_sum_ax0_shard0_i_m1536_n768_v7x_i32_f32_1_alg».proof.Proof.Root
import proofs.«901078_g7700000000001079_dist_sum_ax0_shard0_i_m1536_n768_v7x_i32_f32_1_alg».proof.Proof.Launch
import proofs.«901078_g7700000000001079_dist_sum_ax0_shard0_i_m1536_n768_v7x_i32_f32_1_alg».proof.Proof.OutValue
import proofs.«901078_g7700000000001079_dist_sum_ax0_shard0_i_m1536_n768_v7x_i32_f32_1_alg».proof.Proof.Bits.Root
import proofs.«901078_g7700000000001079_dist_sum_ax0_shard0_i_m1536_n768_v7x_i32_f32_1_alg».proof.Proof.Bits.Launch
import Idealize.ShloMosaic.Adequacy
import Idealize.ShloMosaic.Init

/-! The claim: the three frames, the trivial preservation, and the equality of the two results. -/

noncomputable section

namespace Cert.Proof

open Idealize.ShloMosaic Idealize.SL.Sem

theorem frame_k : Cert.frame_Kernel := fun m ρ _ =>
  (θ_run (Cert.Kernel.defs (F := Bits)) _ _).mono (fun _ h c => (h c).2)
    (Cert.Kernel.DistSum.run_out_closed (F := Bits) m ρ (Cert.Kernel.DistSum.body_obligation m ρ))

theorem frame_ki : Cert.frame_KernelIdeal := fun m ρ _ =>
  (θ_run (Cert.KernelIdeal.defs (F := Ideal)) _ _).mono (fun _ h c => (h c).2)
    (Cert.KernelIdeal.DistSum.run_out_closed (F := Ideal) m ρ (Cert.KernelIdeal.DistSum.body_obligation m ρ))

theorem frame_ri : Cert.frame_ReferenceIdeal := fun m g _ => Cert.DistSum.ref_frame (F := Ideal) m g

theorem preserves : Cert.preserves_Kernel_KernelIdeal := trivial

theorem algebraic : Cert.algebraic_KernelIdeal_ReferenceIdeal := by
  intro m ρ m' ρ' _ hagree
  refine ⟨Cert.DistSum.refResult (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.KernelIdeal.DistSum.out_eq m m' hagree), (h c).2⟩)
      (Cert.KernelIdeal.DistSum.run_out_closed (F := Ideal) m ρ (Cert.KernelIdeal.DistSum.body_obligation m ρ))
  · exact (θ_run (Cert.ReferenceIdeal.defs (F := Ideal)) _ _).mono (fun _ h => h 0) (Cert.DistSum.ref_run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
